-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v157)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v55)) (v4 : (c : Dev Cert.KernelIdeal.nD) → Buf (Elt Ideal) ((c.tc : Thread Cert.KernelIdeal.nD Cert.KernelIdeal.τ).loc Cert.KernelIdeal.main_v76)) (v5 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_v76) = v4 c
          ∧ r.2.mem ((c.tc : Thread Cert.KernelIdeal.nD Cert.KernelIdeal.τ).loc Cert.KernelIdeal.main_v97) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v78) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5x128 : Shape := ⟨3, ![10000, 5, 128]⟩
abbrev S10000x6x128 : Shape := ⟨3, ![10000, 6, 128]⟩
abbrev S15000x4x128 : Shape := ⟨3, ![15000, 4, 128]⟩
abbrev S15000x5x128 : Shape := ⟨3, ![15000, 5, 128]⟩
abbrev S15000x6x128 : Shape := ⟨3, ![15000, 6, 128]⟩
abbrev S15000x7x128 : Shape := ⟨3, ![15000, 7, 128]⟩
abbrev S256x128 : Shape := ⟨2, ![256, 128]⟩
abbrev S128 : Shape := ⟨1, ![128]⟩
abbrev S10000x5 : Shape := ⟨2, ![10000, 5]⟩
abbrev S10000x6 : Shape := ⟨2, ![10000, 6]⟩
abbrev S15000x4 : Shape := ⟨2, ![15000, 4]⟩
abbrev S15000x5 : Shape := ⟨2, ![15000, 5]⟩
abbrev S15000x6 : Shape := ⟨2, ![15000, 6]⟩
abbrev S15000x7 : Shape := ⟨2, ![15000, 7]⟩
abbrev S_ : Shape := ⟨0, ![]⟩

class Facts : Prop where
  bcast_S_S10000x5x128 : S_.BroadcastsInDim S10000x5x128 (![] : Fin 0 → Fin S10000x5x128.rank)
  reducesTo_S10000x5x128_S_d0_1_2 : S10000x5x128.ReducesTo [0, 1, 2] S_
  h_S_ : 0 < S_.numel
  bcast_S_S10000x6x128 : S_.BroadcastsInDim S10000x6x128 (![] : Fin 0 → Fin S10000x6x128.rank)
  reducesTo_S10000x6x128_S_d0_1_2 : S10000x6x128.ReducesTo [0, 1, 2] S_
  bcast_S_S15000x4x128 : S_.BroadcastsInDim S15000x4x128 (![] : Fin 0 → Fin S15000x4x128.rank)
  reducesTo_S15000x4x128_S_d0_1_2 : S15000x4x128.ReducesTo [0, 1, 2] S_
  bcast_S_S15000x5x128 : S_.BroadcastsInDim S15000x5x128 (![] : Fin 0 → Fin S15000x5x128.rank)
  reducesTo_S15000x5x128_S_d0_1_2 : S15000x5x128.ReducesTo [0, 1, 2] S_
  bcast_S_S15000x6x128 : S_.BroadcastsInDim S15000x6x128 (![] : Fin 0 → Fin S15000x6x128.rank)
  reducesTo_S15000x6x128_S_d0_1_2 : S15000x6x128.ReducesTo [0, 1, 2] S_
  bcast_S_S15000x7x128 : S_.BroadcastsInDim S15000x7x128 (![] : Fin 0 → Fin S15000x7x128.rank)
  reducesTo_S15000x7x128_S_d0_1_2 : S15000x7x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S256x128 .f32) (main_arg22 : FVec F S256x128 .f32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x128 .f32 := Host.absf main_arg21
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S256x128 .f32 := Host.absf main_arg22
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg18
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S256x128 .f32 := Host.absf main_arg19
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128 .f32) (main_arg15 : FVec F S256x128 .f32) (main_arg16 : FVec F S256x128 .f32) (main_arg17 : FVec F S128 .f32) (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S256x128 .f32 := Host.absf main_arg16
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S128 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S256x128 .f32) (main_arg8 : FVec F S128 .f32) (main_arg9 : FVec F S256x128 .f32) (main_arg10 : FVec F S256x128 .f32) (main_arg11 : FVec F S128 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S15000x6x128 .f32) (main_arg5 : FVec F S15000x7x128 .f32) (main_arg6 : FVec F S256x128 .f32) (main_arg7 : FVec F S256x128 .f32) (main_arg8 : FVec F S128 .f32) (main_arg9 : FVec F S256x128 .f32) (main_arg10 : FVec F S256x128 .f32) (main_arg11 : FVec F S128 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_v13 : IVec S_ 1) (main_v16 : IVec S15000x5x128 1) : IVec S_ 1 :=
  let main_c_5 : IVec S_ 1 := constantI S_ 1 1#1
  let main_v17 : IVec S_ 1 := (fun x v => Host.reduce IntOp.andi x v reducesTo_S15000x5x128_S_d0_1_2 h_S_) main_v16 main_c_5
  let main_v18 : IVec S_ 1 := andi main_v13 main_v17
  let main_v19 : FVec F S15000x6x128 .f32 := Host.absf main_arg4
  let main_cst_6 : FVec F S_ .f32 := constant S_ .f32 0x7F800000#32
  let main_v20 : FVec F S15000x6x128 .f32 := broadcastInDim S15000x6x128 ![] bcast_S_S15000x6x128 main_cst_6
  let main_v21 : IVec S15000x6x128 1 := cmpf .olt main_v19 main_v20
  let main_c_7 : IVec S_ 1 := constantI S_ 1 1#1
  let main_v22 : IVec S_ 1 := (fun x v => Host.reduce IntOp.andi x v reducesTo_S15000x6x128_S_d0_1_2 h_S_) main_v21 main_c_7
  let main_v23 : IVec S_ 1 := andi main_v18 main_v22
  let main_v24 : FVec F S15000x7x128 .f32 := Host.absf main_arg5
  let main_cst_8 : FVec F S_ .f32 := constant S_ .f32 0x7F800000#32
  let main_v25 : FVec F S15000x7x128 .f32 := broadcastInDim S15000x7x128 ![] bcast_S_S15000x7x128 main_cst_8
  let main_v26 : IVec S15000x7x128 1 := cmpf .olt main_v24 main_v25
  let main_c_9 : IVec S_ 1 := constantI S_ 1 1#1
  let main_v27 : IVec S_ 1 := (fun x v => Host.reduce IntOp.andi x v reducesTo_S15000x7x128_S_d0_1_2 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S10000x5x128 .f32) (main_arg1 : FVec F S10000x6x128 .f32) (main_arg2 : FVec F S15000x4x128 .f32) (main_arg3 : FVec F S15000x5x128 .f32) (main_arg4 : FVec F S15000x6x128 .f32) (main_arg5 : FVec F S15000x7x128 .f32) (main_arg6 : FVec F S256x128 .f32) (main_arg7 : FVec F S256x128 .f32) (main_arg8 : FVec F S128 .f32) (main_arg9 : FVec F S256x128 .f32) (main_arg10 : FVec F S256x128 .f32) (main_arg11 : FVec F S128 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_arg18 : FVec F S256x128 .f32) (main_arg19 : FVec F S256x128 .f32) (main_arg20 : FVec F S128 .f32) (main_arg21 : FVec F S256x128 .f32) (main_arg22 : FVec F S256x128 .f32) (main_arg23 : FVec F S128 .f32) (main_arg24 : IVec S10000x5 32) (main_arg25 : IVec S10000x6 32) (main_arg26 : IVec S15000x4 32) (main_arg27 : IVec S15000x5 32) (main_arg28 : IVec S15000x6 32) (main_arg29 : IVec S15000x7 32) : IVec S_ 1 :=
  let main_v0 : FVec F S10000x5x128 .f32 := Host.absf main_arg0
  let main_cst : FVec F S_ .f32 := constant S_ .f32 0x7F800000#32
  let main_v1 : FVec F S10000x5x128 .f32 := broadcastInDim S10000x5x128 ![] bcast_S_S10000x5x128 main_cst
  let main_v2 : IVec S10000x5x128 1 := cmpf .olt main_v0 main_v1
  let main_c : IVec S_ 1 := constantI S_ 1 1#1
  let main_v3 : IVec S_ 1 := (fun x v => Host.reduce IntOp.andi x v reducesTo_S10000x5x128_S_d0_1_2 h_S_) main_v2 main_c
  let main_v4 : FVec F S10000x6x128 .f32 := Host.absf main_arg1
  let main_cst_0 : FVec F S_ .f32 := constant S_ .f32 0x7F800000#32
  let main_v5 : FVec F S10000x6x128 .f32 := broadcastInDim S10000x6x128 ![] bcast_S_S10000x6x128 main_cst_0
  let main_v6 : IVec S10000x6x128 1 := cmpf .olt main_v4 main_v5
  let main_c_1 : IVec S_ 1 := constantI S_ 1 1#1
  let main_v7 : IVec S_ 1 := (fun x v => Host.reduce IntOp.andi x v reducesTo_S10000x6x128_S_d0_1_2 h_S_) main_v6 main_c_1
  let main_v8 : IVec S_ 1 := andi main_v3 main_v7
  let main_v9 : FVec F S15000x4x128 .f32 := Host.absf main_arg2
  let main_cst_2 : FVec F S_ .f32 := constant S_ .f32 0x7F800000#32
  let main_v10 : FVec F S15000x4x128 .f32 := broadcastInDim S15000x4x128 ![] bcast_S_S15000x4x128 main_cst_2
  let main_v11 : IVec S15000x4x128 1 := cmpf .olt main_v9 main_v10
  let main_c_3 : IVec S_ 1 := constantI S_ 1 1#1
  let main_v12 : IVec S_ 1 := (fun x v => Host.reduce IntOp.andi x v reducesTo_S15000x4x128_S_d0_1_2 h_S_) main_v11 main_c_3
  let main_v13 : IVec S_ 1 := andi main_v8 main_v12
  let main_v14 : FVec F S15000x5x128 .f32 := Host.absf main_arg3
  let main_cst_4 : FVec F S_ .f32 := constant S_ .f32 0x7F800000#32
  let main_v15 : FVec F S15000x5x128 .f32 := broadcastInDim S15000x5x128 ![] bcast_S_S15000x5x128 main_cst_4
  let main_v16 : IVec S15000x5x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S10000x5x128 : Shape := ⟨3, ![10000, 5, 128]⟩
abbrev S10000x6x128 : Shape := ⟨3, ![10000, 6, 128]⟩
abbrev S15000x4x128 : Shape := ⟨3, ![15000, 4, 128]⟩
abbrev S15000x5x128 : Shape := ⟨3, ![15000, 5, 128]⟩
abbrev S15000x6x128 : Shape := ⟨3, ![15000, 6, 128]⟩
abbrev S15000x7x128 : Shape := ⟨3, ![15000, 7, 128]⟩
abbrev S256x128 : Shape := ⟨2, ![256, 128]⟩
abbrev S128 : Shape := ⟨1, ![128]⟩
abbrev S10000x5 : Shape := ⟨2, ![10000, 5]⟩
abbrev S10000x6 : Shape := ⟨2, ![10000, 6]⟩
abbrev S15000x4 : Shape := ⟨2, ![15000, 4]⟩
abbrev S15000x5 : Shape := ⟨2, ![15000, 5]⟩
abbrev S15000x6 : Shape := ⟨2, ![15000, 6]⟩
abbrev S15000x7 : Shape := ⟨2, ![15000, 7]⟩
abbrev S50000 : Shape := ⟨1, ![50000]⟩
abbrev S60000 : Shape := ⟨1, ![60000]⟩
abbrev S110000 : Shape := ⟨1, ![110000]⟩
abbrev S50000x128 : Shape := ⟨2, ![50000, 128]⟩
abbrev S60000x128 : Shape := ⟨2, ![60000, 128]⟩
abbrev S110000x128 : Shape := ⟨2, ![110000, 128]⟩
abbrev S_ : Shape := ⟨0, ![]⟩
abbrev S110000x1 : Shape := ⟨2, ![110000, 1]⟩
abbrev S15000x4x1 : Shape := ⟨3, ![15000, 4, 1]⟩
abbrev S128x128 : Shape := ⟨2, ![128, 128]⟩
abbrev S1x128 : Shape := ⟨2, ![1, 128]⟩
abbrev S15000x512 : Shape := ⟨2, ![15000, 512]⟩
abbrev S1000x512 : Shape := ⟨2, ![1000, 512]⟩
abbrev S1000x128 : Shape := ⟨2, ![1000, 128]⟩
abbrev S15000x5x1 : Shape := ⟨3, ![15000, 5, 1]⟩
abbrev S15000x640 : Shape := ⟨2, ![15000, 640]⟩
abbrev S1000x640 : Shape := ⟨2, ![1000, 640]⟩
abbrev S15000x6x1 : Shape := ⟨3, ![15000, 6, 1]⟩
abbrev S15000x768 : Shape := ⟨2, ![15000, 768]⟩
abbrev S1000x768 : Shape := ⟨2, ![1000, 768]⟩
abbrev S15000x7x1 : Shape := ⟨3, ![15000, 7, 1]⟩
abbrev S15000x896 : Shape := ⟨2, ![15000, 896]⟩
abbrev S1000x896 : Shape := ⟨2, ![1000, 896]⟩
abbrev S75000 : Shape := ⟨1, ![75000]⟩
abbrev S90000 : Shape := ⟨1, ![90000]⟩
abbrev S105000 : Shape := ⟨1, ![105000]⟩
abbrev S330000 : Shape := ⟨1, ![330000]⟩
abbrev S75000x128 : Shape := ⟨2, ![75000, 128]⟩
abbrev S90000x128 : Shape := ⟨2, ![90000, 128]⟩
abbrev S105000x128 : Shape := ⟨2, ![105000, 128]⟩
abbrev S330000x128 : Shape := ⟨2, ![330000, 128]⟩
abbrev S330000x1 : Shape := ⟨2, ![330000, 1]⟩
abbrev S10000x5x1 : Shape := ⟨3, ![10000, 5, 1]⟩
abbrev S10000x640 : Shape := ⟨2, ![10000, 640]⟩
abbrev S10000x6x1 : Shape := ⟨3, ![10000, 6, 1]⟩
abbrev S10000x768 : Shape := ⟨2, ![10000, 768]⟩

abbrev nBuf : Space → Nat
  | .hbm => 212
  | .vmem => 42
  | .smem => 0
  | _ => 0

abbrev hbmTy0_0 (i : Nat) : BufTy := match i % 128 with
  | 0 => ⟨S10000x5x128, .f32⟩
  | 1 => ⟨S10000x6x128, .f32⟩
  | 2 => ⟨S15000x4x128, .f32⟩
  | 3 => ⟨S15000x5x128, .f32⟩
  | 4 => ⟨S15000x6x128, .f32⟩
  | 5 => ⟨S15000x7x128, .f32⟩
  | 6 => ⟨S256x128, .f32⟩
  | 7 => ⟨S256x128, .f32⟩
  | 8 => ⟨S128, .f32⟩
  | 9 => ⟨S256x128, .f32⟩
  | 10 => ⟨S256x128, .f32⟩
  | 11 => ⟨S128, .f32⟩
  | 12 => ⟨S256x128, .f32⟩
  | 13 => ⟨S256x128, .f32⟩
  | 14 => ⟨S128, .f32⟩
  | 15 => ⟨S256x128, .f32⟩
  | 16 => ⟨S256x128, .f32⟩
  | 17 => ⟨S128, .f32⟩
  | 18 => ⟨S256x128, .f32⟩
  | 19 => ⟨S256x128, .f32⟩
  | 20 => ⟨S128, .f32⟩
  | 21 => ⟨S256x128, .f32⟩
  | 22 => ⟨S256x128, .f32⟩
  | 23 => ⟨S128, .f32⟩
  | 24 => ⟨S10000x5, .i32⟩
  | 25 => ⟨S10000x6, .i32⟩
  | 26 => ⟨S15000x4, .i32⟩
  | 27 => ⟨S15000x5, .i32⟩
  | 28 => ⟨S15000x6, .i32⟩
  | 29 => ⟨S15000x7, .i32⟩
  | 30 => ⟨S50000, .i32⟩
  | 31 => ⟨S60000, .i32⟩
  | 32 => ⟨S110000, .i32⟩
  | 33 => ⟨S50000x128, .f32⟩
  | 34 => ⟨S60000x128, .f32⟩
  | 35 => ⟨S110000x128, .f32⟩
  | 36 => ⟨S_, .f32⟩
  | 37 => ⟨S50000x128, .f32⟩
  | 38 => ⟨S_, .i32⟩
  | 39 => ⟨S110000, .i32⟩
  | 40 => ⟨S110000, .i1⟩
  | 41 => ⟨S_, .i32⟩
  | 42 => ⟨S110000, .i32⟩
  | 43 => ⟨S110000, .i32⟩
  | 44 => ⟨S110000, .i32⟩
  | 45 => ⟨S110000x1, .i32⟩
  | 46 => ⟨S50000x128, .f32⟩
  | 47 => ⟨S_, .i32⟩
  | 48 => ⟨S15000x4, .i32⟩
  | 49 => ⟨S15000x4, .i1⟩
  | 50 => ⟨S_, .i32⟩
  | 51 => ⟨S15000x4, .i32⟩
  | 52 => ⟨S15000x4, .i32⟩
  | 53 => ⟨S15000x4, .i32⟩
  | 54 => ⟨S15000x4x1, .i32⟩
  | 55 => ⟨S15000x4x128, .f32⟩
  | 56 => ⟨S128x128, .f32⟩
  | 57 => ⟨S128x128, .bf16⟩
  | 58 => ⟨S128x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .f32⟩
  | 65 => ⟨S128x128, .f32⟩
  | 66 => ⟨S128x128, .bf16⟩
  | 67 => ⟨S1x128, .f32⟩
  | 68 => ⟨S15000x512, .f32⟩
  | 69 => ⟨S15000x512, .f32⟩
  | 70 => ⟨S15000x4x128, .f32⟩
  | 71 => ⟨S_, .i32⟩
  | 72 => ⟨S15000x5, .i32⟩
  | 73 => ⟨S15000x5, .i1⟩
  | 74 => ⟨S_, .i32⟩
  | 75 => ⟨S15000x5, .i32⟩
  | 76 => ⟨S15000x5, .i32⟩
  | 77 => ⟨S15000x5, .i32⟩
  | 78 => ⟨S15000x5x1, .i32⟩
  | 79 => ⟨S15000x5x128, .f32⟩
  | 80 => ⟨S128x128, .f32⟩
  | 81 => ⟨S128x128, .bf16⟩
  | 82 => ⟨S128x128, .f32⟩
  | 83 => ⟨S128x128, .f32⟩
  | 84 => ⟨S128x128, .f32⟩
  | 85 => ⟨S128x128, .f32⟩
  | 86 => ⟨S_, .f32⟩
  | 87 => ⟨S128x128, .f32⟩
  | 88 => ⟨S128x128, .f32⟩
  | 89 => ⟨S128x128, .f32⟩
  | 90 => ⟨S128x128, .bf16⟩
  | 91 => ⟨S1x128, .f32⟩
  | 92 => ⟨S15000x640, .f32⟩
  | 93 => ⟨S15000x640, .f32⟩
  | 94 => ⟨S15000x5x128, .f32⟩
  | 95 => ⟨S_, .i32⟩
  | 96 => ⟨S15000x6, .i32⟩
  | 97 => ⟨S15000x6, .i1⟩
  | 98 => ⟨S_, .i32⟩
  | 99 => ⟨S15000x6, .i32⟩
  | 100 => ⟨S15000x6, .i32⟩
  | 101 => ⟨S15000x6, .i32⟩
  | 102 => ⟨S15000x6x1, .i32⟩
  | 103 => ⟨S15000x6x128, .f32⟩
  | 104 => ⟨S128x128, .f32⟩
  | 105 => ⟨S128x128, .bf16⟩
  | 106 => ⟨S128x128, .f32⟩
  | 107 => ⟨S128x128, .f32⟩
  | 108 => ⟨S128x128, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S128x128, .bf16⟩
  | 115 => ⟨S1x128, .f32⟩
  | 116 => ⟨S15000x768, .f32⟩
  | 117 => ⟨S15000x768, .f32⟩
  | 118 => ⟨S15000x6x128, .f32⟩
  | 119 => ⟨S_, .i32⟩
  | 120 => ⟨S15000x7, .i32⟩
  | 121 => ⟨S15000x7, .i1⟩
  | 122 => ⟨S_, .i32⟩
  | 123 => ⟨S15000x7, .i32⟩
  | 124 => ⟨S15000x7, .i32⟩
  | 125 => ⟨S15000x7, .i32⟩
  | 126 => ⟨S15000x7x1, .i32⟩
  | 127 => ⟨S15000x7x128, .f32⟩
  | _ => ⟨S10000x5x128, .f32⟩

abbrev hbmTy0_1 (i : Nat) : BufTy := match i % 128 with
  | 0 => ⟨S128x128, .f32⟩
  | 1 => ⟨S128x128, .bf16⟩
  | 2 => ⟨S128x128, .f32⟩
  | 3 => ⟨S128x128, .f32⟩
  | 4 => ⟨S128x128, .f32⟩
  | 5 => ⟨S128x128, .f32⟩
  | 6 => ⟨S_, .f32⟩
  | 7 => ⟨S128x128, .f32⟩
  | 8 => ⟨S128x128, .f32⟩
  | 9 => ⟨S128x128, .f32⟩
  | 10 => ⟨S128x128, .bf16⟩
  | 11 => ⟨S1x128, .f32⟩
  | 12 => ⟨S15000x896, .f32⟩
  | 13 => ⟨S15000x896, .f32⟩
  | 14 => ⟨S15000x7x128, .f32⟩
  | 15 => ⟨S60000, .i32⟩
  | 16 => ⟨S75000, .i32⟩
  | 17 => ⟨S90000, .i32⟩
  | 18 => ⟨S105000, .i32⟩
  | 19 => ⟨S330000, .i32⟩
  | 20 => ⟨S60000x128, .f32⟩
  | 21 => ⟨S75000x128, .f32⟩
  | 22 => ⟨S90000x128, .f32⟩
  | 23 => ⟨S105000x128, .f32⟩
  | 24 => ⟨S330000x128, .f32⟩
  | 25 => ⟨S_, .f32⟩
  | 26 => ⟨S50000x128, .f32⟩
  | 27 => ⟨S_, .i32⟩
  | 28 => ⟨S330000, .i32⟩
  | 29 => ⟨S330000, .i1⟩
  | 30 => ⟨S_, .i32⟩
  | 31 => ⟨S330000, .i32⟩
  | 32 => ⟨S330000, .i32⟩
  | 33 => ⟨S330000, .i32⟩
  | 34 => ⟨S330000x1, .i32⟩
  | 35 => ⟨S50000x128, .f32⟩
  | 36 => ⟨S_, .i32⟩
  | 37 => ⟨S10000x5, .i32⟩
  | 38 => ⟨S10000x5, .i1⟩
  | 39 => ⟨S_, .i32⟩
  | 40 => ⟨S10000x5, .i32⟩
  | 41 => ⟨S10000x5, .i32⟩
  | 42 => ⟨S10000x5, .i32⟩
  | 43 => ⟨S10000x5x1, .i32⟩
  | 44 => ⟨S10000x5x128, .f32⟩
  | 45 => ⟨S128x128, .f32⟩
  | 46 => ⟨S128x128, .bf16⟩
  | 47 => ⟨S128x128, .f32⟩
  | 48 => ⟨S128x128, .f32⟩
  | 49 => ⟨S128x128, .f32⟩
  | 50 => ⟨S128x128, .f32⟩
  | 51 => ⟨S_, .f32⟩
  | 52 => ⟨S128x128, .f32⟩
  | 53 => ⟨S128x128, .f32⟩
  | 54 => ⟨S128x128, .f32⟩
  | 55 => ⟨S128x128, .bf16⟩
  | 56 => ⟨S1x128, .f32⟩
  | 57 => ⟨S10000x640, .f32⟩
  | 58 => ⟨S10000x640, .f32⟩
  | 59 => ⟨S10000x5x128, .f32⟩
  | 60 => ⟨S_, .i32⟩
  | 61 => ⟨S10000x6, .i32⟩
  | 62 => ⟨S10000x6, .i1⟩
  | 63 => ⟨S_, .i32⟩
  | 64 => ⟨S10000x6, .i32⟩
  | 65 => ⟨S10000x6, .i32⟩
  | 66 => ⟨S10000x6, .i32⟩
  | 67 => ⟨S10000x6x1, .i32⟩
  | 68 => ⟨S10000x6x128, .f32⟩
  | 69 => ⟨S128x128, .f32⟩
  | 70 => ⟨S128x128, .bf16⟩
  | 71 => ⟨S128x128, .f32⟩
  | 72 => ⟨S128x128, .f32⟩
  | 73 => ⟨S128x128, .f32⟩
  | 74 => ⟨S128x128, .f32⟩
  | 75 => ⟨S_, .f32⟩
  | 76 => ⟨S128x128, .f32⟩
  | 77 => ⟨S128x128, .f32⟩
  | 78 => ⟨S128x128, .f32⟩
  | 79 => ⟨S128x128, .bf16⟩
  | 80 => ⟨S1x128, .f32⟩
  | 81 => ⟨S10000x768, .f32⟩
  | 82 => ⟨S10000x768, .f32⟩
  | 83 => ⟨S10000x6x128, .f32⟩
  | _ => ⟨S10000x5x128, .f32⟩

abbrev hbmTy (i : Nat) : BufTy := match i / 128 with
  | 0 => hbmTy0_0 i
  | 1 => hbmTy0_1 i
  | _ => ⟨S10000x5x128, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S128x128, .bf16⟩
  | .local _ .vmem, ⟨3, _⟩ => ⟨S128x128, .bf16⟩
  | .local _ .vmem, ⟨4, _⟩ => ⟨S1x128, .f32⟩
  | .local _ .vmem, ⟨5, _⟩ => ⟨S1000x512, .f32⟩
  | .local _ .vmem, ⟨6, _⟩ => ⟨S1000x512, .f32⟩
  | .local _ .vmem, ⟨7, _⟩ => ⟨S1000x640, .f32⟩
  | .local _ .vmem, ⟨8, _⟩ => ⟨S1000x640, .f32⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S1000x640, .f32⟩
  | .local _ .vmem, ⟨13, _⟩ => ⟨S1000x640, .f32⟩
  | .local _ .vmem, ⟨14, _⟩ => ⟨S1000x768, .f32⟩
  | .local _ .vmem, ⟨15, _⟩ => ⟨S1000x768, .f32⟩
  | .local _ .vmem, ⟨16, _⟩ => ⟨S128x128, .bf16⟩
  | .local _ .vmem, ⟨17, _⟩ => ⟨S128x128, .bf16⟩
  | .local _ .vmem, ⟨18, _⟩ => ⟨S1x128, .f32⟩
  | .local _ .vmem, ⟨19, _⟩ => ⟨S1000x768, .f32⟩
  | .local _ .vmem, ⟨20, _⟩ => ⟨S1000x768, .f32⟩
  | .local _ .vmem, ⟨21, _⟩ => ⟨S1000x896, .f32⟩
  | .local _ .vmem, ⟨22, _⟩ => ⟨S1000x896, .f32⟩
  | .local _ .vmem, ⟨23, _⟩ => ⟨S128x128, .bf16⟩
  | .local _ .vmem, ⟨24, _⟩ => ⟨S128x128, .bf16⟩
  | .local _ .vmem, ⟨25, _⟩ => ⟨S1x128, .f32⟩
  | .local _ .vmem, ⟨26, _⟩ => ⟨S1000x896, .f32⟩
  | .local _ .vmem, ⟨27, _⟩ => ⟨S1000x896, .f32⟩
  | .local _ .vmem, ⟨28, _⟩ => ⟨S1000x640, .f32⟩
  | .local _ .vmem, ⟨29, _⟩ => ⟨S1000x640, .f32⟩
  | .local _ .vmem, ⟨30, _⟩ => ⟨S128x128, .bf16⟩
  | .local _ .vmem, ⟨31, _⟩ => ⟨S128x128, .bf16⟩
  | .local _ .vmem, ⟨32, _⟩ => ⟨S1x128, .f32⟩
  | .local _ .vmem, ⟨33, _⟩ => ⟨S1000x640, .f32⟩
  | .local _ .vmem, ⟨34, _⟩ => ⟨S1000x640, .f32⟩
  | .local _ .vmem, ⟨35, _⟩ => ⟨S1000x768, .f32⟩
  | .local _ .vmem, ⟨36, _⟩ => ⟨S1000x768, .f32⟩
  | .local _ .vmem, ⟨37, _⟩ => ⟨S128x128, .bf16⟩
  | .local _ .vmem, ⟨38, _⟩ => ⟨S128x128, .bf16⟩
  | .local _ .vmem, ⟨39, _⟩ => ⟨S1x128, .f32⟩
  | .local _ .vmem, ⟨40, _⟩ => ⟨S1000x768, .f32⟩
  | .local _ .vmem, ⟨41, _⟩ => ⟨S1000x768, .f32⟩
  | _, _ => ⟨S10000x5x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_c : Ref sig .tc := ⟨.hbm, 38, rfl⟩
abbrev main_v7 : Ref sig .tc := ⟨.hbm, 39, rfl⟩
abbrev main_v8 : Ref sig .tc := ⟨.hbm, 40, rfl⟩
abbrev main_c_0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_1 : Ref sig .tc := ⟨.hbm, 47, rfl⟩
abbrev main_v14 : Ref sig .tc := ⟨.hbm, 48, rfl⟩
abbrev main_v15 : Ref sig .tc := ⟨.hbm, 49, rfl⟩
abbrev main_c_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_4 : Ref sig .tc := ⟨.hbm, 71, rfl⟩
abbrev main_v35 : Ref sig .tc := ⟨.hbm, 72, rfl⟩
abbrev main_v36 : Ref sig .tc := ⟨.hbm, 73, rfl⟩
abbrev main_c_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_6 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_7 : Ref sig .tc := ⟨.hbm, 95, rfl⟩
abbrev main_v56 : Ref sig .tc := ⟨.hbm, 96, rfl⟩
abbrev main_v57 : Ref sig .tc := ⟨.hbm, 97, rfl⟩
abbrev main_c_8 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_9 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_10 : Ref sig .tc := ⟨.hbm, 119, rfl⟩
abbrev main_v77 : Ref sig .tc := ⟨.hbm, 120, rfl⟩
abbrev main_v78 : Ref sig .tc := ⟨.hbm, 121, rfl⟩
abbrev main_c_11 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_12 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_13 : Ref sig .tc := ⟨.hbm, 153, rfl⟩
abbrev main_v108 : Ref sig .tc := ⟨.hbm, 154, rfl⟩
abbrev main_c_14 : Ref sig .tc := ⟨.hbm, 155, rfl⟩
abbrev main_v109 : Ref sig .tc := ⟨.hbm, 156, rfl⟩
abbrev main_v110 : Ref sig .tc := ⟨.hbm, 157, rfl⟩
abbrev main_c_15 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_16 : Ref sig .tc := ⟨.hbm, 164, rfl⟩
abbrev main_v116 : Ref sig .tc := ⟨.hbm, 165, rfl⟩
abbrev main_v117 : Ref sig .tc := ⟨.hbm, 166, rfl⟩
abbrev main_c_17 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_18 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_19 : Ref sig .tc := ⟨.hbm, 188, rfl⟩
abbrev main_v137 : Ref sig .tc := ⟨.hbm, 189, rfl⟩
abbrev main_v138 : Ref sig .tc := ⟨.hbm, 190, rfl⟩
abbrev main_c_20 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_21 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x896 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x896 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x640 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x640 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x768 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  shapeCasts_S10000x5_S50000 : S10000x5.ShapeCasts S50000
  shapeCasts_S10000x6_S60000 : S10000x6.ShapeCasts S60000
  concatenates_S50000_S60000_S110000_d0 : Shape.Concatenates [S50000, S60000] S110000 0
  shapeCasts_S10000x5x128_S50000x128 : S10000x5x128.ShapeCasts S50000x128
  shapeCasts_S10000x6x128_S60000x128 : S10000x6x128.ShapeCasts S60000x128
  concatenates_S50000x128_S60000x128_S110000x128_d0 : Shape.Concatenates [S50000x128, S60000x128] S110000x128 0
  bcast_S_S50000x128 : S_.BroadcastsInDim S50000x128 (![] : Fin 0 → Fin S50000x128.rank)
  bcast_S_S110000 : S_.BroadcastsInDim S110000 (![] : Fin 0 → Fin S110000.rank)
  bcast_S110000_S110000x1_0 : S110000.BroadcastsInDim S110000x1 (![0] : Fin 1 → Fin S110000x1.rank)
  bcast_S_S15000x4 : S_.BroadcastsInDim S15000x4 (![] : Fin 0 → Fin S15000x4.rank)
  bcast_S15000x4_S15000x4x1_0_1 : S15000x4.BroadcastsInDim S15000x4x1 (![0, 1] : Fin 2 → Fin S15000x4x1.rank)
  slices_S256x128_S128x128_0_0 : S256x128.Slices ![0, 0] S128x128
  bitsLt_bf16_f32 : FTy.bits .bf16 < FTy.bits .f32
  slices_S256x128_S128x128_128_0 : S256x128.Slices ![128, 0] S128x128
  bcast_S_S128x128 : S_.BroadcastsInDim S128x128 (![] : Fin 0 → Fin S128x128.rank)
  shapeCasts_S128_S1x128 : S128.ShapeCasts S1x128
  shapeCasts_S15000x4x128_S15000x512 : S15000x4x128.ShapeCasts S15000x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1000x512_S1000x128_0_0 : ∀ a, (![0, 0] : Fin 2 → Nat) a + S1000x128.size a ≤ S1000x512.size a
  h_S1000x128 : 0 < S1000x128.numel
  shapeCasts_S1000x128_S1000x128 : S1000x128.ShapeCasts S1000x128
  inb_S1000x512_S1000x128_0_128 : ∀ a, (![0, 128] : Fin 2 → Nat) a + S1000x128.size a ≤ S1000x512.size a
  inb_S1000x512_S1000x128_0_256 : ∀ a, (![0, 256] : Fin 2 → Nat) a + S1000x128.size a ≤ S1000x512.size a
  inb_S1000x512_S1000x128_0_384 : ∀ a, (![0, 384] : Fin 2 → Nat) a + S1000x128.size a ≤ S1000x512.size a
  broadcasts_S1x128_S1000x128 : S1x128.Broadcasts S1000x128
  shapeCasts_S15000x512_S15000x4x128 : S15000x512.ShapeCasts S15000x4x128
  bcast_S_S15000x5 : S_.BroadcastsInDim S15000x5 (![] : Fin 0 → Fin S15000x5.rank)
  bcast_S15000x5_S15000x5x1_0_1 : S15000x5.BroadcastsInDim S15000x5x1 (![0, 1] : Fin 2 → Fin S15000x5x1.rank)
  shapeCasts_S15000x5x128_S15000x640 : S15000x5x128.ShapeCasts S15000x640
  inb_S1000x640_S1000x128_0_0 : ∀ a, (![0, 0] : Fin 2 → Nat) a + S1000x128.size a ≤ S1000x640.size a
  inb_S1000x640_S1000x128_0_128 : ∀ a, (![0, 128] : Fin 2 → Nat) a + S1000x128.size a ≤ S1000x640.size a
  inb_S1000x640_S1000x128_0_256 : ∀ a, (![0, 256] : Fin 2 → Nat) a + S1000x128.size a ≤ S1000x640.size a
  inb_S1000x640_S1000x128_0_384 : ∀ a, (![0, 384] : Fin 2 → Nat) a + S1000x128.size a ≤ S1000x640.size a
  inb_S1000x640_S1000x128_0_512 : ∀ a, (![0, 512] : Fin 2 → Nat) a + S1000x128.size a ≤ S1000x640.size a
  shapeCasts_S15000x640_S15000x5x128 : S15000x640.ShapeCasts S15000x5x128
  bcast_S_S15000x6 : S_.BroadcastsInDim S15000x6 (![] : Fin 0 → Fin S15000x6.rank)
  bcast_S15000x6_S15000x6x1_0_1 : S15000x6.BroadcastsInDim S15000x6x1 (![0, 1] : Fin 2 → Fin S15000x6x1.rank)
  shapeCasts_S15000x6x128_S15000x768 : S15000x6x128.ShapeCasts S15000x768
  inb_S1000x768_S1000x128_0_0 : ∀ a, (![0, 0] : Fin 2 → Nat) a + S1000x128.size a ≤ S1000x768.size a
  inb_S1000x768_S1000x128_0_128 : ∀ a, (![0, 128] : Fin 2 → Nat) a + S1000x128.size a ≤ S1000x768.size a
  inb_S1000x768_S1000x128_0_256 : ∀ a, (![0, 256] : Fin 2 → Nat) a + S1000x128.size a ≤ S1000x768.size a
  inb_S1000x768_S1000x128_0_384 : ∀ a, (![0, 384] : Fin 2 → Nat) a + S1000x128.size a ≤ S1000x768.size a
  inb_S1000x768_S1000x128_0_512 : ∀ a, (![0, 512] : Fin 2 → Nat) a + S1000x128.size a ≤ S1000x768.size a
  inb_S1000x768_S1000x128_0_640 : ∀ a, (![0, 640] : Fin 2 → Nat) a + S1000x128.size a ≤ S1000x768.size a
  shapeCasts_S15000x768_S15000x6x128 : S15000x768.ShapeCasts S15000x6x128
  bcast_S_S15000x7 : S_.BroadcastsInDim S15000x7 (![] : Fin 0 → Fin S15000x7.rank)
  bcast_S15000x7_S15000x7x1_0_1 : S15000x7.BroadcastsInDim S15000x7x1 (![0, 1] : Fin 2 → Fin S15000x7x1.rank)
  shapeCasts_S15000x7x128_S15000x896 : S15000x7x128.ShapeCasts S15000x896
  inb_S1000x896_S1000x128_0_0 : ∀ a, (![0, 0] : Fin 2 → Nat) a + S1000x128.size a ≤ S1000x896.size a
  inb_S1000x896_S1000x128_0_128 : ∀ a, (![0, 128] : Fin 2 → Nat) a + S1000x128.size a ≤ S1000x896.size a
  inb_S1000x896_S1000x128_0_256 : ∀ a, (![0, 256] : Fin 2 → Nat) a + S1000x128.size a ≤ S1000x896.size a
  inb_S1000x896_S1000x128_0_384 : ∀ a, (![0, 384] : Fin 2 → Nat) a + S1000x128.size a ≤ S1000x896.size a
  inb_S1000x896_S1000x128_0_512 : ∀ a, (![0, 512] : Fin 2 → Nat) a + S1000x128.size a ≤ S1000x896.size a
  inb_S1000x896_S1000x128_0_640 : ∀ a, (![0, 640] : Fin 2 → Nat) a + S1000x128.size a ≤ S1000x896.size a
  inb_S1000x896_S1000x128_0_768 : ∀ a, (![0, 768] : Fin 2 → Nat) a + S1000x128.size a ≤ S1000x896.size a
  shapeCasts_S15000x896_S15000x7x128 : S15000x896.ShapeCasts S15000x7x128
  shapeCasts_S15000x4_S60000 : S15000x4.ShapeCasts S60000
  shapeCasts_S15000x5_S75000 : S15000x5.ShapeCasts S75000
  shapeCasts_S15000x6_S90000 : S15000x6.ShapeCasts S90000
  shapeCasts_S15000x7_S105000 : S15000x7.ShapeCasts S105000
  concatenates_S60000_S75000_S90000_S105000_S330000_d0 : Shape.Concatenates [S60000, S75000, S90000, S105000] S330000 0
  shapeCasts_S15000x4x128_S60000x128 : S15000x4x128.ShapeCasts S60000x128
  shapeCasts_S15000x5x128_S75000x128 : S15000x5x128.ShapeCasts S75000x128
  shapeCasts_S15000x6x128_S90000x128 : S15000x6x128.ShapeCasts S90000x128
  shapeCasts_S15000x7x128_S105000x128 : S15000x7x128.ShapeCasts S105000x128
  concatenates_S60000x128_S75000x128_S90000x128_S105000x128_S330000x128_d0 : Shape.Concatenates [S60000x128, S75000x128, S90000x128, S105000x128] S330000x128 0
  bcast_S_S330000 : S_.BroadcastsInDim S330000 (![] : Fin 0 → Fin S330000.rank)
  bcast_S330000_S330000x1_0 : S330000.BroadcastsInDim S330000x1 (![0] : Fin 1 → Fin S330000x1.rank)
  bcast_S_S10000x5 : S_.BroadcastsInDim S10000x5 (![] : Fin 0 → Fin S10000x5.rank)
  bcast_S10000x5_S10000x5x1_0_1 : S10000x5.BroadcastsInDim S10000x5x1 (![0, 1] : Fin 2 → Fin S10000x5x1.rank)
  shapeCasts_S10000x5x128_S10000x640 : S10000x5x128.ShapeCasts S10000x640
  shapeCasts_S10000x640_S10000x5x128 : S10000x640.ShapeCasts S10000x5x128
  bcast_S_S10000x6 : S_.BroadcastsInDim S10000x6 (![] : Fin 0 → Fin S10000x6.rank)
  bcast_S10000x6_S10000x6x1_0_1 : S10000x6.BroadcastsInDim S10000x6x1 (![0, 1] : Fin 2 → Fin S10000x6x1.rank)
  shapeCasts_S10000x6x128_S10000x768 : S10000x6x128.ShapeCasts S10000x768
  shapeCasts_S10000x768_S10000x6x128 : S10000x768.ShapeCasts S10000x6x128
  scatter_S50000x128_S110000x1_S110000x128_1_0_0_1_wf : ScatterDims.WF S50000x128 S110000x1 S110000x128 [1] [0] [0] 1
  gather_S50000x128_S15000x4x1_S15000x4x128_2_0_n_n_0_2_1128_wf : GatherDims.WF S50000x128 S15000x4x1 S15000x4x128 [2] [0] [] [0] [] 2 ![1, 128]
  dot_S1000x128_S128x128_S1000x128_1_0_0_1_n_n_wf : DotDims.WF S1000x128 S128x128 S1000x128 [1] [0] [0] [1] [] []
  gather_S50000x128_S15000x5x1_S15000x5x128_2_0_n_n_0_2_1128_wf : GatherDims.WF S50000x128 S15000x5x1 S15000x5x128 [2] [0] [] [0] [] 2 ![1, 128]
  gather_S50000x128_S15000x6x1_S15000x6x128_2_0_n_n_0_2_1128_wf : GatherDims.WF S50000x128 S15000x6x1 S15000x6x128 [2] [0] [] [0] [] 2 ![1, 128]
  gather_S50000x128_S15000x7x1_S15000x7x128_2_0_n_n_0_2_1128_wf : GatherDims.WF S50000x128 S15000x7x1 S15000x7x128 [2] [0] [] [0] [] 2 ![1, 128]
  scatter_S50000x128_S330000x1_S330000x128_1_0_0_1_wf : ScatterDims.WF S50000x128 S330000x1 S330000x128 [1] [0] [0] 1
  gather_S50000x128_S10000x5x1_S10000x5x128_2_0_n_n_0_2_1128_wf : GatherDims.WF S50000x128 S10000x5x1 S10000x5x128 [2] [0] [] [0] [] 2 ![1, 128]
  gather_S50000x128_S10000x6x1_S10000x6x128_2_0_n_n_0_2_1128_wf : GatherDims.WF S50000x128 S10000x6x1 S10000x6x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S15000x512.size a
  hwx0_0 : ∀ i : grid0.Coords, EltTy.bits .f32 = 32 ∨ (Rect.block (s := S15000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S15000x512.size a
  hwx0_4 : ∀ i : grid0.Coords, EltTy.bits .f32 = 32 ∨ (Rect.block (s := S15000x512) S1000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x640.size a ≤ S15000x640.size a
  hwx1_0 : ∀ i : grid1.Coords, EltTy.bits .f32 = 32 ∨ (Rect.block (s := S15000x640) S1000x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x640.size a ≤ S15000x640.size a
  hwx1_4 : ∀ i : grid1.Coords, EltTy.bits .f32 = 32 ∨ (Rect.block (s := S15000x640) S1000x640.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S15000x768.size a
  hwx2_0 : ∀ i : grid2.Coords, EltTy.bits .f32 = 32 ∨ (Rect.block (s := S15000x768) S1000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x768.size a ≤ S15000x768.size a
  hwx2_4 : ∀ i : grid2.Coords, EltTy.bits .f32 = 32 ∨ (Rect.block (s := S15000x768) S1000x768.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x896.size a ≤ S15000x896.size a
  hwx3_0 : ∀ i : grid3.Coords, EltTy.bits .f32 = 32 ∨ (Rect.block (s := S15000x896) S1000x896.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x896.size a ≤ S15000x896.size a
  hwx3_4 : ∀ i : grid3.Coords, EltTy.bits .f32 = 32 ∨ (Rect.block (s := S15000x896) S1000x896.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x640.size a ≤ S10000x640.size a
  hwx4_0 : ∀ i : grid4.Coords, EltTy.bits .f32 = 32 ∨ (Rect.block (s := S10000x640) S1000x640.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x640.size a ≤ S10000x640.size a
  hwx4_4 : ∀ i : grid4.Coords, EltTy.bits .f32 = 32 ∨ (Rect.block (s := S10000x640) S1000x640.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x768.size a ≤ S10000x768.size a
  hwx5_0 : ∀ i : grid5.Coords, EltTy.bits .f32 = 32 ∨ (Rect.block (s := S10000x768) S1000x768.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x768.size a ≤ S10000x768.size a
  hwx5_4 : ∀ i : grid5.Coords, EltTy.bits .f32 = 32 ∨ (Rect.block (s := S10000x768) S1000x768.size (cc5_transform_4 i) (hinb5_4 i)).WholeWords (EltTy.packing .f32)

variable [Facts₀]

def scatter_S50000x128_S110000x1_S110000x128_1_0_0_1 : ScatterDims S50000x128 S110000x1 S110000x128 where
  updateWindowDims := [1]
  insertedWindowDims := [0]
  scatterDimsToOperandDims := [0]
  indexVectorDim := 1
  wf := scatter_S50000x128_S110000x1_S110000x128_1_0_0_1_wf
def gather_S50000x128_S15000x4x1_S15000x4x128_2_0_n_n_0_2_1128 : GatherDims S50000x128 S15000x4x1 S15000x4x128 where
  offsetDims := [2]
  collapsedSliceDims := [0]
  operandBatchingDims := []
  startIndicesBatchingDims := []
  startIndexMap := [0]
  indexVectorDim := 2
  sliceSizes := ![1, 128]
  wf := gather_S50000x128_S15000x4x1_S15000x4x128_2_0_n_n_0_2_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S15000x5x1_S15000x5x128_2_0_n_n_0_2_1128 : GatherDims S50000x128 S15000x5x1 S15000x5x128 where
  offsetDims := [2]
  collapsedSliceDims := [0]
  operandBatchingDims := []
  startIndicesBatchingDims := []
  startIndexMap := [0]
  indexVectorDim := 2
  sliceSizes := ![1, 128]
  wf := gather_S50000x128_S15000x5x1_S15000x5x128_2_0_n_n_0_2_1128_wf
def gather_S50000x128_S15000x6x1_S15000x6x128_2_0_n_n_0_2_1128 : GatherDims S50000x128 S15000x6x1 S15000x6x128 where
  offsetDims := [2]
  collapsedSliceDims := [0]
  operandBatchingDims := []
  startIndicesBatchingDims := []
  startIndexMap := [0]
  indexVectorDim := 2
  sliceSizes := ![1, 128]
  wf := gather_S50000x128_S15000x6x1_S15000x6x128_2_0_n_n_0_2_1128_wf
def gather_S50000x128_S15000x7x1_S15000x7x128_2_0_n_n_0_2_1128 : GatherDims S50000x128 S15000x7x1 S15000x7x128 where
  offsetDims := [2]
  collapsedSliceDims := [0]
  operandBatchingDims := []
  startIndicesBatchingDims := []
  startIndexMap := [0]
  indexVectorDim := 2
  sliceSizes := ![1, 128]
  wf := gather_S50000x128_S15000x7x1_S15000x7x128_2_0_n_n_0_2_1128_wf
def scatter_S50000x128_S330000x1_S330000x128_1_0_0_1 : ScatterDims S50000x128 S330000x1 S330000x128 where
  updateWindowDims := [1]
  insertedWindowDims := [0]
  scatterDimsToOperandDims := [0]
  indexVectorDim := 1
  wf := scatter_S50000x128_S330000x1_S330000x128_1_0_0_1_wf
def gather_S50000x128_S10000x5x1_S10000x5x128_2_0_n_n_0_2_1128 : GatherDims S50000x128 S10000x5x1 S10000x5x128 where
  offsetDims := [2]
  collapsedSliceDims := [0]
  operandBatchingDims := []
  startIndicesBatchingDims := []
  startIndexMap := [0]
  indexVectorDim := 2
  sliceSizes := ![1, 128]
  wf := gather_S50000x128_S10000x5x1_S10000x5x128_2_0_n_n_0_2_1128_wf
def gather_S50000x128_S10000x6x1_S10000x6x128_2_0_n_n_0_2_1128 : GatherDims S50000x128 S10000x6x1 S10000x6x128 where
  offsetDims := [2]
  collapsedSliceDims := [0]
  operandBatchingDims := []
  startIndicesBatchingDims := []
  startIndexMap := [0]
  indexVectorDim := 2
  sliceSizes := ![1, 128]
  wf := gather_S50000x128_S10000x6x1_S10000x6x128_2_0_n_n_0_2_1128_wf

abbrev win0_0 : Pipeline.Window sig grid0 :=
  Pipeline.Window.ofSpec (Memref.whole main_v32) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S1000x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1000x640.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v74) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1000x768.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v95) S1000x896.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1000x896.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v134) S1000x640.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v132) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v133) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v135) S1000x640.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v155) S1000x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v145) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v153) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v154) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v156) S1000x768.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S10000x5x128 : Shape := ⟨3, ![10000, 5, 128]⟩
abbrev S10000x6x128 : Shape := ⟨3, ![10000, 6, 128]⟩
abbrev S15000x4x128 : Shape := ⟨3, ![15000, 4, 128]⟩
abbrev S15000x5x128 : Shape := ⟨3, ![15000, 5, 128]⟩
abbrev S15000x6x128 : Shape := ⟨3, ![15000, 6, 128]⟩
abbrev S15000x7x128 : Shape := ⟨3, ![15000, 7, 128]⟩
abbrev S256x128 : Shape := ⟨2, ![256, 128]⟩
abbrev S128 : Shape := ⟨1, ![128]⟩
abbrev S10000x5 : Shape := ⟨2, ![10000, 5]⟩
abbrev S10000x6 : Shape := ⟨2, ![10000, 6]⟩
abbrev S15000x4 : Shape := ⟨2, ![15000, 4]⟩
abbrev S15000x5 : Shape := ⟨2, ![15000, 5]⟩
abbrev S15000x6 : Shape := ⟨2, ![15000, 6]⟩
abbrev S15000x7 : Shape := ⟨2, ![15000, 7]⟩
abbrev S_ : Shape := ⟨0, ![]⟩
abbrev S50000x128 : Shape := ⟨2, ![50000, 128]⟩
abbrev S50000 : Shape := ⟨1, ![50000]⟩
abbrev S50000x1 : Shape := ⟨2, ![50000, 1]⟩
abbrev S60000 : Shape := ⟨1, ![60000]⟩
abbrev S60000x128 : Shape := ⟨2, ![60000, 128]⟩
abbrev S60000x1 : Shape := ⟨2, ![60000, 1]⟩
abbrev S15000x4x1 : Shape := ⟨3, ![15000, 4, 1]⟩
abbrev S15000x128 : Shape := ⟨2, ![15000, 128]⟩
abbrev S15000x1x128 : Shape := ⟨3, ![15000, 1, 128]⟩
abbrev S15000x4x256 : Shape := ⟨3, ![15000, 4, 256]⟩
abbrev S15000x256 : Shape := ⟨2, ![15000, 256]⟩
abbrev S1x1x128 : Shape := ⟨3, ![1, 1, 128]⟩
abbrev S15000x5x1 : Shape := ⟨3, ![15000, 5, 1]⟩
abbrev S15000x5x256 : Shape := ⟨3, ![15000, 5, 256]⟩
abbrev S15000x6x1 : Shape := ⟨3, ![15000, 6, 1]⟩
abbrev S15000x6x256 : Shape := ⟨3, ![15000, 6, 256]⟩
abbrev S15000x7x1 : Shape := ⟨3, ![15000, 7, 1]⟩
abbrev S15000x7x256 : Shape := ⟨3, ![15000, 7, 256]⟩
abbrev S75000 : Shape := ⟨1, ![75000]⟩
abbrev S75000x128 : Shape := ⟨2, ![75000, 128]⟩
abbrev S75000x1 : Shape := ⟨2, ![75000, 1]⟩
abbrev S90000 : Shape := ⟨1, ![90000]⟩
abbrev S90000x128 : Shape := ⟨2, ![90000, 128]⟩
abbrev S90000x1 : Shape := ⟨2, ![90000, 1]⟩
abbrev S105000 : Shape := ⟨1, ![105000]⟩
abbrev S105000x128 : Shape := ⟨2, ![105000, 128]⟩
abbrev S105000x1 : Shape := ⟨2, ![105000, 1]⟩
abbrev S10000x5x1 : Shape := ⟨3, ![10000, 5, 1]⟩
abbrev S10000x128 : Shape := ⟨2, ![10000, 128]⟩
abbrev S10000x1x128 : Shape := ⟨3, ![10000, 1, 128]⟩
abbrev S10000x5x256 : Shape := ⟨3, ![10000, 5, 256]⟩
abbrev S10000x256 : Shape := ⟨2, ![10000, 256]⟩
abbrev S10000x6x1 : Shape := ⟨3, ![10000, 6, 1]⟩
abbrev S10000x6x256 : Shape := ⟨3, ![10000, 6, 256]⟩

abbrev nBuf : Space → Nat
  | .hbm => 244
  | .vmem => 0
  | .smem => 0
  | _ => 0

abbrev hbmTy0_0 (i : Nat) : BufTy := match i % 128 with
  | 0 => ⟨S10000x5x128, .f32⟩
  | 1 => ⟨S10000x6x128, .f32⟩
  | 2 => ⟨S15000x4x128, .f32⟩
  | 3 => ⟨S15000x5x128, .f32⟩
  | 4 => ⟨S15000x6x128, .f32⟩
  | 5 => ⟨S15000x7x128, .f32⟩
  | 6 => ⟨S256x128, .f32⟩
  | 7 => ⟨S256x128, .f32⟩
  | 8 => ⟨S128, .f32⟩
  | 9 => ⟨S256x128, .f32⟩
  | 10 => ⟨S256x128, .f32⟩
  | 11 => ⟨S128, .f32⟩
  | 12 => ⟨S256x128, .f32⟩
  | 13 => ⟨S256x128, .f32⟩
  | 14 => ⟨S128, .f32⟩
  | 15 => ⟨S256x128, .f32⟩
  | 16 => ⟨S256x128, .f32⟩
  | 17 => ⟨S128, .f32⟩
  | 18 => ⟨S256x128, .f32⟩
  | 19 => ⟨S256x128, .f32⟩
  | 20 => ⟨S128, .f32⟩
  | 21 => ⟨S256x128, .f32⟩
  | 22 => ⟨S256x128, .f32⟩
  | 23 => ⟨S128, .f32⟩
  | 24 => ⟨S10000x5, .i32⟩
  | 25 => ⟨S10000x6, .i32⟩
  | 26 => ⟨S15000x4, .i32⟩
  | 27 => ⟨S15000x5, .i32⟩
  | 28 => ⟨S15000x6, .i32⟩
  | 29 => ⟨S15000x7, .i32⟩
  | 30 => ⟨S_, .f32⟩
  | 31 => ⟨S50000x128, .f32⟩
  | 32 => ⟨S50000, .i32⟩
  | 33 => ⟨S50000x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S60000, .i32⟩
  | 44 => ⟨S60000x128, .f32⟩
  | 45 => ⟨S_, .i32⟩
  | 46 => ⟨S60000, .i32⟩
  | 47 => ⟨S60000, .i1⟩
  | 48 => ⟨S_, .i32⟩
  | 49 => ⟨S60000, .i32⟩
  | 50 => ⟨S60000, .i32⟩
  | 51 => ⟨S60000, .i32⟩
  | 52 => ⟨S60000x1, .i32⟩
  | 53 => ⟨S50000x128, .f32⟩
  | 54 => ⟨S_, .i32⟩
  | 55 => ⟨S15000x4, .i32⟩
  | 56 => ⟨S15000x4, .i1⟩
  | 57 => ⟨S_, .i32⟩
  | 58 => ⟨S15000x4, .i32⟩
  | 59 => ⟨S15000x4, .i32⟩
  | 60 => ⟨S15000x4, .i32⟩
  | 61 => ⟨S15000x4x1, .i32⟩
  | 62 => ⟨S15000x4x128, .f32⟩
  | 63 => ⟨S_, .f32⟩
  | 64 => ⟨S15000x128, .f32⟩
  | 65 => ⟨S15000x1x128, .f32⟩
  | 66 => ⟨S15000x4x128, .f32⟩
  | 67 => ⟨S15000x4x256, .f32⟩
  | 68 => ⟨S15000x4x128, .f32⟩
  | 69 => ⟨S_, .f32⟩
  | 70 => ⟨S15000x256, .f32⟩
  | 71 => ⟨S15000x128, .f32⟩
  | 72 => ⟨S15000x1x128, .f32⟩
  | 73 => ⟨S15000x4x128, .f32⟩
  | 74 => ⟨S15000x4x128, .f32⟩
  | 75 => ⟨S1x1x128, .f32⟩
  | 76 => ⟨S15000x4x128, .f32⟩
  | 77 => ⟨S15000x4x128, .f32⟩
  | 78 => ⟨S_, .i32⟩
  | 79 => ⟨S15000x5, .i32⟩
  | 80 => ⟨S15000x5, .i1⟩
  | 81 => ⟨S_, .i32⟩
  | 82 => ⟨S15000x5, .i32⟩
  | 83 => ⟨S15000x5, .i32⟩
  | 84 => ⟨S15000x5, .i32⟩
  | 85 => ⟨S15000x5x1, .i32⟩
  | 86 => ⟨S15000x5x128, .f32⟩
  | 87 => ⟨S_, .f32⟩
  | 88 => ⟨S15000x128, .f32⟩
  | 89 => ⟨S15000x1x128, .f32⟩
  | 90 => ⟨S15000x5x128, .f32⟩
  | 91 => ⟨S15000x5x256, .f32⟩
  | 92 => ⟨S15000x5x128, .f32⟩
  | 93 => ⟨S_, .f32⟩
  | 94 => ⟨S15000x256, .f32⟩
  | 95 => ⟨S15000x128, .f32⟩
  | 96 => ⟨S15000x1x128, .f32⟩
  | 97 => ⟨S15000x5x128, .f32⟩
  | 98 => ⟨S15000x5x128, .f32⟩
  | 99 => ⟨S1x1x128, .f32⟩
  | 100 => ⟨S15000x5x128, .f32⟩
  | 101 => ⟨S15000x5x128, .f32⟩
  | 102 => ⟨S_, .i32⟩
  | 103 => ⟨S15000x6, .i32⟩
  | 104 => ⟨S15000x6, .i1⟩
  | 105 => ⟨S_, .i32⟩
  | 106 => ⟨S15000x6, .i32⟩
  | 107 => ⟨S15000x6, .i32⟩
  | 108 => ⟨S15000x6, .i32⟩
  | 109 => ⟨S15000x6x1, .i32⟩
  | 110 => ⟨S15000x6x128, .f32⟩
  | 111 => ⟨S_, .f32⟩
  | 112 => ⟨S15000x128, .f32⟩
  | 113 => ⟨S15000x1x128, .f32⟩
  | 114 => ⟨S15000x6x128, .f32⟩
  | 115 => ⟨S15000x6x256, .f32⟩
  | 116 => ⟨S15000x6x128, .f32⟩
  | 117 => ⟨S_, .f32⟩
  | 118 => ⟨S15000x256, .f32⟩
  | 119 => ⟨S15000x128, .f32⟩
  | 120 => ⟨S15000x1x128, .f32⟩
  | 121 => ⟨S15000x6x128, .f32⟩
  | 122 => ⟨S15000x6x128, .f32⟩
  | 123 => ⟨S1x1x128, .f32⟩
  | 124 => ⟨S15000x6x128, .f32⟩
  | 125 => ⟨S15000x6x128, .f32⟩
  | 126 => ⟨S_, .i32⟩
  | 127 => ⟨S15000x7, .i32⟩
  | _ => ⟨S10000x5x128, .f32⟩

abbrev hbmTy0_1 (i : Nat) : BufTy := match i % 128 with
  | 0 => ⟨S15000x7, .i1⟩
  | 1 => ⟨S_, .i32⟩
  | 2 => ⟨S15000x7, .i32⟩
  | 3 => ⟨S15000x7, .i32⟩
  | 4 => ⟨S15000x7, .i32⟩
  | 5 => ⟨S15000x7x1, .i32⟩
  | 6 => ⟨S15000x7x128, .f32⟩
  | 7 => ⟨S_, .f32⟩
  | 8 => ⟨S15000x128, .f32⟩
  | 9 => ⟨S15000x1x128, .f32⟩
  | 10 => ⟨S15000x7x128, .f32⟩
  | 11 => ⟨S15000x7x256, .f32⟩
  | 12 => ⟨S15000x7x128, .f32⟩
  | 13 => ⟨S_, .f32⟩
  | 14 => ⟨S15000x256, .f32⟩
  | 15 => ⟨S15000x128, .f32⟩
  | 16 => ⟨S15000x1x128, .f32⟩
  | 17 => ⟨S15000x7x128, .f32⟩
  | 18 => ⟨S15000x7x128, .f32⟩
  | 19 => ⟨S1x1x128, .f32⟩
  | 20 => ⟨S15000x7x128, .f32⟩
  | 21 => ⟨S15000x7x128, .f32⟩
  | 22 => ⟨S_, .f32⟩
  | 23 => ⟨S50000x128, .f32⟩
  | 24 => ⟨S60000, .i32⟩
  | 25 => ⟨S60000x128, .f32⟩
  | 26 => ⟨S_, .i32⟩
  | 27 => ⟨S60000, .i32⟩
  | 28 => ⟨S60000, .i1⟩
  | 29 => ⟨S_, .i32⟩
  | 30 => ⟨S60000, .i32⟩
  | 31 => ⟨S60000, .i32⟩
  | 32 => ⟨S60000, .i32⟩
  | 33 => ⟨S60000x1, .i32⟩
  | 34 => ⟨S50000x128, .f32⟩
  | 35 => ⟨S75000, .i32⟩
  | 36 => ⟨S75000x128, .f32⟩
  | 37 => ⟨S_, .i32⟩
  | 38 => ⟨S75000, .i32⟩
  | 39 => ⟨S75000, .i1⟩
  | 40 => ⟨S_, .i32⟩
  | 41 => ⟨S75000, .i32⟩
  | 42 => ⟨S75000, .i32⟩
  | 43 => ⟨S75000, .i32⟩
  | 44 => ⟨S75000x1, .i32⟩
  | 45 => ⟨S50000x128, .f32⟩
  | 46 => ⟨S90000, .i32⟩
  | 47 => ⟨S90000x128, .f32⟩
  | 48 => ⟨S_, .i32⟩
  | 49 => ⟨S90000, .i32⟩
  | 50 => ⟨S90000, .i1⟩
  | 51 => ⟨S_, .i32⟩
  | 52 => ⟨S90000, .i32⟩
  | 53 => ⟨S90000, .i32⟩
  | 54 => ⟨S90000, .i32⟩
  | 55 => ⟨S90000x1, .i32⟩
  | 56 => ⟨S50000x128, .f32⟩
  | 57 => ⟨S105000, .i32⟩
  | 58 => ⟨S105000x128, .f32⟩
  | 59 => ⟨S_, .i32⟩
  | 60 => ⟨S105000, .i32⟩
  | 61 => ⟨S105000, .i1⟩
  | 62 => ⟨S_, .i32⟩
  | 63 => ⟨S105000, .i32⟩
  | 64 => ⟨S105000, .i32⟩
  | 65 => ⟨S105000, .i32⟩
  | 66 => ⟨S105000x1, .i32⟩
  | 67 => ⟨S50000x128, .f32⟩
  | 68 => ⟨S_, .i32⟩
  | 69 => ⟨S10000x5, .i32⟩
  | 70 => ⟨S10000x5, .i1⟩
  | 71 => ⟨S_, .i32⟩
  | 72 => ⟨S10000x5, .i32⟩
  | 73 => ⟨S10000x5, .i32⟩
  | 74 => ⟨S10000x5, .i32⟩
  | 75 => ⟨S10000x5x1, .i32⟩
  | 76 => ⟨S10000x5x128, .f32⟩
  | 77 => ⟨S_, .f32⟩
  | 78 => ⟨S10000x128, .f32⟩
  | 79 => ⟨S10000x1x128, .f32⟩
  | 80 => ⟨S10000x5x128, .f32⟩
  | 81 => ⟨S10000x5x256, .f32⟩
  | 82 => ⟨S10000x5x128, .f32⟩
  | 83 => ⟨S_, .f32⟩
  | 84 => ⟨S10000x256, .f32⟩
  | 85 => ⟨S10000x128, .f32⟩
  | 86 => ⟨S10000x1x128, .f32⟩
  | 87 => ⟨S10000x5x128, .f32⟩
  | 88 => ⟨S10000x5x128, .f32⟩
  | 89 => ⟨S1x1x128, .f32⟩
  | 90 => ⟨S10000x5x128, .f32⟩
  | 91 => ⟨S10000x5x128, .f32⟩
  | 92 => ⟨S_, .i32⟩
  | 93 => ⟨S10000x6, .i32⟩
  | 94 => ⟨S10000x6, .i1⟩
  | 95 => ⟨S_, .i32⟩
  | 96 => ⟨S10000x6, .i32⟩
  | 97 => ⟨S10000x6, .i32⟩
  | 98 => ⟨S10000x6, .i32⟩
  | 99 => ⟨S10000x6x1, .i32⟩
  | 100 => ⟨S10000x6x128, .f32⟩
  | 101 => ⟨S_, .f32⟩
  | 102 => ⟨S10000x128, .f32⟩
  | 103 => ⟨S10000x1x128, .f32⟩
  | 104 => ⟨S10000x6x128, .f32⟩
  | 105 => ⟨S10000x6x256, .f32⟩
  | 106 => ⟨S10000x6x128, .f32⟩
  | 107 => ⟨S_, .f32⟩
  | 108 => ⟨S10000x256, .f32⟩
  | 109 => ⟨S10000x128, .f32⟩
  | 110 => ⟨S10000x1x128, .f32⟩
  | 111 => ⟨S10000x6x128, .f32⟩
  | 112 => ⟨S10000x6x128, .f32⟩
  | 113 => ⟨S1x1x128, .f32⟩
  | 114 => ⟨S10000x6x128, .f32⟩
  | 115 => ⟨S10000x6x128, .f32⟩
  | _ => ⟨S10000x5x128, .f32⟩

abbrev hbmTy (i : Nat) : BufTy := match i / 128 with
  | 0 => hbmTy0_0 i
  | 1 => hbmTy0_1 i
  | _ => ⟨S10000x5x128, .f32⟩

abbrev bufTy : (tb : Table) → Fin (tcTables nBuf tb) → BufTy
  | .hbm, ⟨i, _⟩ => hbmTy i
  | _, _ => ⟨S10000x5x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_c : Ref sig .tc := ⟨.hbm, 34, rfl⟩
abbrev main_v3 : Ref sig .tc := ⟨.hbm, 35, rfl⟩
abbrev main_v4 : Ref sig .tc := ⟨.hbm, 36, rfl⟩
abbrev main_c_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_c_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_3 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_5 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_7 : Ref sig .tc := ⟨.hbm, 78, rfl⟩
abbrev main_v39 : Ref sig .tc := ⟨.hbm, 79, rfl⟩
abbrev main_v40 : Ref sig .tc := ⟨.hbm, 80, rfl⟩
abbrev main_c_8 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_9 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_10 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_11 : Ref sig .tc := ⟨.hbm, 102, rfl⟩
abbrev main_v59 : Ref sig .tc := ⟨.hbm, 103, rfl⟩
abbrev main_v60 : Ref sig .tc := ⟨.hbm, 104, rfl⟩
abbrev main_c_12 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_13 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_15 : Ref sig .tc := ⟨.hbm, 126, rfl⟩
abbrev main_v79 : Ref sig .tc := ⟨.hbm, 127, rfl⟩
abbrev main_v80 : Ref sig .tc := ⟨.hbm, 128, rfl⟩
abbrev main_c_16 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_17 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_18 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_19 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_20 : Ref sig .tc := ⟨.hbm, 154, rfl⟩
abbrev main_v102 : Ref sig .tc := ⟨.hbm, 155, rfl⟩
abbrev main_v103 : Ref sig .tc := ⟨.hbm, 156, rfl⟩
abbrev main_c_21 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_22 : Ref sig .tc := ⟨.hbm, 165, rfl⟩
abbrev main_v111 : Ref sig .tc := ⟨.hbm, 166, rfl⟩
abbrev main_v112 : Ref sig .tc := ⟨.hbm, 167, rfl⟩
abbrev main_c_23 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_c_24 : Ref sig .tc := ⟨.hbm, 176, rfl⟩
abbrev main_v120 : Ref sig .tc := ⟨.hbm, 177, rfl⟩
abbrev main_v121 : Ref sig .tc := ⟨.hbm, 178, rfl⟩
abbrev main_c_25 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_26 : Ref sig .tc := ⟨.hbm, 187, rfl⟩
abbrev main_v129 : Ref sig .tc := ⟨.hbm, 188, rfl⟩
abbrev main_v130 : Ref sig .tc := ⟨.hbm, 189, rfl⟩
abbrev main_c_27 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_c_28 : Ref sig .tc := ⟨.hbm, 196, rfl⟩
abbrev main_v136 : Ref sig .tc := ⟨.hbm, 197, rfl⟩
abbrev main_v137 : Ref sig .tc := ⟨.hbm, 198, rfl⟩
abbrev main_c_29 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_30 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_31 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_c_32 : Ref sig .tc := ⟨.hbm, 220, rfl⟩
abbrev main_v156 : Ref sig .tc := ⟨.hbm, 221, rfl⟩
abbrev main_v157 : Ref sig .tc := ⟨.hbm, 222, rfl⟩
abbrev main_c_33 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_34 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_35 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  shapeCasts_S10000x5_S50000 : S10000x5.ShapeCasts S50000
  shapeCasts_S10000x5x128_S50000x128 : S10000x5x128.ShapeCasts S50000x128
  bcast_S_S50000 : S_.BroadcastsInDim S50000 (![] : Fin 0 → Fin S50000.rank)
  bcast_S50000_S50000x1_0 : S50000.BroadcastsInDim S50000x1 (![0] : Fin 1 → Fin S50000x1.rank)
  shapeCasts_S10000x6_S60000 : S10000x6.ShapeCasts S60000
  shapeCasts_S10000x6x128_S60000x128 : S10000x6x128.ShapeCasts S60000x128
  bcast_S_S60000 : S_.BroadcastsInDim S60000 (![] : Fin 0 → Fin S60000.rank)
  bcast_S60000_S60000x1_0 : S60000.BroadcastsInDim S60000x1 (![0] : Fin 1 → Fin S60000x1.rank)
  bcast_S_S15000x4 : S_.BroadcastsInDim S15000x4 (![] : Fin 0 → Fin S15000x4.rank)
  bcast_S15000x4_S15000x4x1_0_1 : S15000x4.BroadcastsInDim S15000x4x1 (![0, 1] : Fin 2 → Fin S15000x4x1.rank)
  reducesTo_S15000x4x128_S15000x128_d1 : S15000x4x128.ReducesTo [1] S15000x128
  h_S_ : 0 < S_.numel
  bcast_S15000x128_S15000x1x128_0_2 : S15000x128.BroadcastsInDim S15000x1x128 (![0, 2] : Fin 2 → Fin S15000x1x128.rank)
  bcast_S15000x1x128_S15000x4x128_0_1_2 : S15000x1x128.BroadcastsInDim S15000x4x128 (![0, 1, 2] : Fin 3 → Fin S15000x4x128.rank)
  concatenates_S15000x4x128_S15000x4x128_S15000x4x256_d2 : Shape.Concatenates [S15000x4x128, S15000x4x128] S15000x4x256 2
  reducesTo_S15000x4x256_S15000x256_d1 : S15000x4x256.ReducesTo [1] S15000x256
  bcast_S128_S1x1x128_2 : S128.BroadcastsInDim S1x1x128 (![2] : Fin 1 → Fin S1x1x128.rank)
  bcast_S1x1x128_S15000x4x128_0_1_2 : S1x1x128.BroadcastsInDim S15000x4x128 (![0, 1, 2] : Fin 3 → Fin S15000x4x128.rank)
  bcast_S_S15000x5 : S_.BroadcastsInDim S15000x5 (![] : Fin 0 → Fin S15000x5.rank)
  bcast_S15000x5_S15000x5x1_0_1 : S15000x5.BroadcastsInDim S15000x5x1 (![0, 1] : Fin 2 → Fin S15000x5x1.rank)
  reducesTo_S15000x5x128_S15000x128_d1 : S15000x5x128.ReducesTo [1] S15000x128
  bcast_S15000x1x128_S15000x5x128_0_1_2 : S15000x1x128.BroadcastsInDim S15000x5x128 (![0, 1, 2] : Fin 3 → Fin S15000x5x128.rank)
  concatenates_S15000x5x128_S15000x5x128_S15000x5x256_d2 : Shape.Concatenates [S15000x5x128, S15000x5x128] S15000x5x256 2
  reducesTo_S15000x5x256_S15000x256_d1 : S15000x5x256.ReducesTo [1] S15000x256
  bcast_S1x1x128_S15000x5x128_0_1_2 : S1x1x128.BroadcastsInDim S15000x5x128 (![0, 1, 2] : Fin 3 → Fin S15000x5x128.rank)
  bcast_S_S15000x6 : S_.BroadcastsInDim S15000x6 (![] : Fin 0 → Fin S15000x6.rank)
  bcast_S15000x6_S15000x6x1_0_1 : S15000x6.BroadcastsInDim S15000x6x1 (![0, 1] : Fin 2 → Fin S15000x6x1.rank)
  reducesTo_S15000x6x128_S15000x128_d1 : S15000x6x128.ReducesTo [1] S15000x128
  bcast_S15000x1x128_S15000x6x128_0_1_2 : S15000x1x128.BroadcastsInDim S15000x6x128 (![0, 1, 2] : Fin 3 → Fin S15000x6x128.rank)
  concatenates_S15000x6x128_S15000x6x128_S15000x6x256_d2 : Shape.Concatenates [S15000x6x128, S15000x6x128] S15000x6x256 2
  reducesTo_S15000x6x256_S15000x256_d1 : S15000x6x256.ReducesTo [1] S15000x256
  bcast_S1x1x128_S15000x6x128_0_1_2 : S1x1x128.BroadcastsInDim S15000x6x128 (![0, 1, 2] : Fin 3 → Fin S15000x6x128.rank)
  bcast_S_S15000x7 : S_.BroadcastsInDim S15000x7 (![] : Fin 0 → Fin S15000x7.rank)
  bcast_S15000x7_S15000x7x1_0_1 : S15000x7.BroadcastsInDim S15000x7x1 (![0, 1] : Fin 2 → Fin S15000x7x1.rank)
  reducesTo_S15000x7x128_S15000x128_d1 : S15000x7x128.ReducesTo [1] S15000x128
  bcast_S15000x1x128_S15000x7x128_0_1_2 : S15000x1x128.BroadcastsInDim S15000x7x128 (![0, 1, 2] : Fin 3 → Fin S15000x7x128.rank)
  concatenates_S15000x7x128_S15000x7x128_S15000x7x256_d2 : Shape.Concatenates [S15000x7x128, S15000x7x128] S15000x7x256 2
  reducesTo_S15000x7x256_S15000x256_d1 : S15000x7x256.ReducesTo [1] S15000x256
  bcast_S1x1x128_S15000x7x128_0_1_2 : S1x1x128.BroadcastsInDim S15000x7x128 (![0, 1, 2] : Fin 3 → Fin S15000x7x128.rank)
  shapeCasts_S15000x4_S60000 : S15000x4.ShapeCasts S60000
  shapeCasts_S15000x4x128_S60000x128 : S15000x4x128.ShapeCasts S60000x128
  shapeCasts_S15000x5_S75000 : S15000x5.ShapeCasts S75000
  shapeCasts_S15000x5x128_S75000x128 : S15000x5x128.ShapeCasts S75000x128
  bcast_S_S75000 : S_.BroadcastsInDim S75000 (![] : Fin 0 → Fin S75000.rank)
  bcast_S75000_S75000x1_0 : S75000.BroadcastsInDim S75000x1 (![0] : Fin 1 → Fin S75000x1.rank)
  shapeCasts_S15000x6_S90000 : S15000x6.ShapeCasts S90000
  shapeCasts_S15000x6x128_S90000x128 : S15000x6x128.ShapeCasts S90000x128
  bcast_S_S90000 : S_.BroadcastsInDim S90000 (![] : Fin 0 → Fin S90000.rank)
  bcast_S90000_S90000x1_0 : S90000.BroadcastsInDim S90000x1 (![0] : Fin 1 → Fin S90000x1.rank)
  shapeCasts_S15000x7_S105000 : S15000x7.ShapeCasts S105000
  shapeCasts_S15000x7x128_S105000x128 : S15000x7x128.ShapeCasts S105000x128
  bcast_S_S105000 : S_.BroadcastsInDim S105000 (![] : Fin 0 → Fin S105000.rank)
  bcast_S105000_S105000x1_0 : S105000.BroadcastsInDim S105000x1 (![0] : Fin 1 → Fin S105000x1.rank)
  bcast_S_S10000x5 : S_.BroadcastsInDim S10000x5 (![] : Fin 0 → Fin S10000x5.rank)
  bcast_S10000x5_S10000x5x1_0_1 : S10000x5.BroadcastsInDim S10000x5x1 (![0, 1] : Fin 2 → Fin S10000x5x1.rank)
  reducesTo_S10000x5x128_S10000x128_d1 : S10000x5x128.ReducesTo [1] S10000x128
  bcast_S10000x128_S10000x1x128_0_2 : S10000x128.BroadcastsInDim S10000x1x128 (![0, 2] : Fin 2 → Fin S10000x1x128.rank)
  bcast_S10000x1x128_S10000x5x128_0_1_2 : S10000x1x128.BroadcastsInDim S10000x5x128 (![0, 1, 2] : Fin 3 → Fin S10000x5x128.rank)
  concatenates_S10000x5x128_S10000x5x128_S10000x5x256_d2 : Shape.Concatenates [S10000x5x128, S10000x5x128] S10000x5x256 2
  reducesTo_S10000x5x256_S10000x256_d1 : S10000x5x256.ReducesTo [1] S10000x256
  bcast_S1x1x128_S10000x5x128_0_1_2 : S1x1x128.BroadcastsInDim S10000x5x128 (![0, 1, 2] : Fin 3 → Fin S10000x5x128.rank)
  bcast_S_S10000x6 : S_.BroadcastsInDim S10000x6 (![] : Fin 0 → Fin S10000x6.rank)
  bcast_S10000x6_S10000x6x1_0_1 : S10000x6.BroadcastsInDim S10000x6x1 (![0, 1] : Fin 2 → Fin S10000x6x1.rank)
  reducesTo_S10000x6x128_S10000x128_d1 : S10000x6x128.ReducesTo [1] S10000x128
  bcast_S10000x1x128_S10000x6x128_0_1_2 : S10000x1x128.BroadcastsInDim S10000x6x128 (![0, 1, 2] : Fin 3 → Fin S10000x6x128.rank)
  concatenates_S10000x6x128_S10000x6x128_S10000x6x256_d2 : Shape.Concatenates [S10000x6x128, S10000x6x128] S10000x6x256 2
  reducesTo_S10000x6x256_S10000x256_d1 : S10000x6x256.ReducesTo [1] S10000x256
  bcast_S1x1x128_S10000x6x128_0_1_2 : S1x1x128.BroadcastsInDim S10000x6x128 (![0, 1, 2] : Fin 3 → Fin S10000x6x128.rank)
  scatter_S50000x128_S50000x1_S50000x128_1_0_0_1_wf : ScatterDims.WF S50000x128 S50000x1 S50000x128 [1] [0] [0] 1
  scatter_S50000x128_S60000x1_S60000x128_1_0_0_1_wf : ScatterDims.WF S50000x128 S60000x1 S60000x128 [1] [0] [0] 1
  gather_S50000x128_S15000x4x1_S15000x4x128_2_0_n_n_0_2_1128_wf : GatherDims.WF S50000x128 S15000x4x1 S15000x4x128 [2] [0] [] [0] [] 2 ![1, 128]
  dot_S15000x4x256_S256x128_S15000x4x128_2_0_01_1_n_n_wf : DotDims.WF S15000x4x256 S256x128 S15000x4x128 [2] [0] [0, 1] [1] [] []
  dot_S15000x256_S256x128_S15000x128_1_0_0_1_n_n_wf : DotDims.WF S15000x256 S256x128 S15000x128 [1] [0] [0] [1] [] []
  gather_S50000x128_S15000x5x1_S15000x5x128_2_0_n_n_0_2_1128_wf : GatherDims.WF S50000x128 S15000x5x1 S15000x5x128 [2] [0] [] [0] [] 2 ![1, 128]
  dot_S15000x5x256_S256x128_S15000x5x128_2_0_01_1_n_n_wf : DotDims.WF S15000x5x256 S256x128 S15000x5x128 [2] [0] [0, 1] [1] [] []
  gather_S50000x128_S15000x6x1_S15000x6x128_2_0_n_n_0_2_1128_wf : GatherDims.WF S50000x128 S15000x6x1 S15000x6x128 [2] [0] [] [0] [] 2 ![1, 128]
  dot_S15000x6x256_S256x128_S15000x6x128_2_0_01_1_n_n_wf : DotDims.WF S15000x6x256 S256x128 S15000x6x128 [2] [0] [0, 1] [1] [] []
  gather_S50000x128_S15000x7x1_S15000x7x128_2_0_n_n_0_2_1128_wf : GatherDims.WF S50000x128 S15000x7x1 S15000x7x128 [2] [0] [] [0] [] 2 ![1, 128]
  dot_S15000x7x256_S256x128_S15000x7x128_2_0_01_1_n_n_wf : DotDims.WF S15000x7x256 S256x128 S15000x7x128 [2] [0] [0, 1] [1] [] []
  scatter_S50000x128_S75000x1_S75000x128_1_0_0_1_wf : ScatterDims.WF S50000x128 S75000x1 S75000x128 [1] [0] [0] 1
  scatter_S50000x128_S90000x1_S90000x128_1_0_0_1_wf : ScatterDims.WF S50000x128 S90000x1 S90000x128 [1] [0] [0] 1
  scatter_S50000x128_S105000x1_S105000x128_1_0_0_1_wf : ScatterDims.WF S50000x128 S105000x1 S105000x128 [1] [0] [0] 1
  gather_S50000x128_S10000x5x1_S10000x5x128_2_0_n_n_0_2_1128_wf : GatherDims.WF S50000x128 S10000x5x1 S10000x5x128 [2] [0] [] [0] [] 2 ![1, 128]
  dot_S10000x5x256_S256x128_S10000x5x128_2_0_01_1_n_n_wf : DotDims.WF S10000x5x256 S256x128 S10000x5x128 [2] [0] [0, 1] [1] [] []
  dot_S10000x256_S256x128_S10000x128_1_0_0_1_n_n_wf : DotDims.WF S10000x256 S256x128 S10000x128 [1] [0] [0] [1] [] []
  gather_S50000x128_S10000x6x1_S10000x6x128_2_0_n_n_0_2_1128_wf : GatherDims.WF S50000x128 S10000x6x1 S10000x6x128 [2] [0] [] [0] [] 2 ![1, 128]
  dot_S10000x6x256_S256x128_S10000x6x128_2_0_01_1_n_n_wf : DotDims.WF S10000x6x256 S256x128 S10000x6x128 [2] [0] [0, 1] [1] [] []

variable [Facts₀]

def scatter_S50000x128_S50000x1_S50000x128_1_0_0_1 : ScatterDims S50000x128 S50000x1 S50000x128 where
  updateWindowDims := [1]
  insertedWindowDims := [0]
  scatterDimsToOperandDims := [0]
  indexVectorDim := 1
  wf := scatter_S50000x128_S50000x1_S50000x128_1_0_0_1_wf
def scatter_S50000x128_S60000x1_S60000x128_1_0_0_1 : ScatterDims S50000x128 S60000x1 S60000x128 where
  updateWindowDims := [1]
  insertedWindowDims := [0]
  scatterDimsToOperandDims := [0]
  indexVectorDim := 1
  wf := scatter_S50000x128_S60000x1_S60000x128_1_0_0_1_wf
def gather_S50000x128_S15000x4x1_S15000x4x128_2_0_n_n_0_2_1128 : GatherDims S50000x128 S15000x4x1 S15000x4x128 where
  offsetDims := [2]
  collapsedSliceDims := [0]
  operandBatchingDims := []
  startIndicesBatchingDims := []
  startIndexMap := [0]
  indexVectorDim := 2
  sliceSizes := ![1, 128]
  wf := gather_S50000x128_S15000x4x1_S15000x4x128_2_0_n_n_0_2_1128_wf
def dot_S15000x4x256_S256x128_S15000x4x128_2_0_01_1_n_n : DotDims S15000x4x256 S256x128 S15000x4x128 where
  lhsContracting := [2]
  rhsContracting := [0]
  lhsNonContracting := [0, 1]
  rhsNonContracting := [1]
  lhsBatch := []
  rhsBatch := []
  wf := dot_S15000x4x256_S256x128_S15000x4x128_2_0_01_1_n_n_wf
def dot_S15000x256_S256x128_S15000x128_1_0_0_1_n_n : DotDims S15000x256 S256x128 S15000x128 where
  lhsContracting := [1]
  rhsContracting := [0]
  lhsNonContracting := [0]
  rhsNonContracting := [1]
  lhsBatch := []
  rhsBatch := []
  wf := dot_S15000x256_S256x128_S15000x128_1_0_0_1_n_n_wf
def gather_S50000x128_S15000x5x1_S15000x5x128_2_0_n_n_0_2_1128 : GatherDims S50000x128 S15000x5x1 S15000x5x128 where
  offsetDims := [2]
  collapsedSliceDims := [0]
  operandBatchingDims := []
  startIndicesBatchingDims := []
  startIndexMap := [0]
  indexVectorDim := 2
  sliceSizes := ![1, 128]
  wf := gather_S50000x128_S15000x5x1_S15000x5x128_2_0_n_n_0_2_1128_wf
def dot_S15000x5x256_S256x128_S15000x5x128_2_0_01_1_n_n : DotDims S15000x5x256 S256x128 S15000x5x128 where
  lhsContracting := [2]
  rhsContracting := [0]
  lhsNonContracting := [0, 1]
  rhsNonContracting := [1]
  lhsBatch := []
  rhsBatch := []
  wf := dot_S15000x5x256_S256x128_S15000x5x128_2_0_01_1_n_n_wf
def gather_S50000x128_S15000x6x1_S15000x6x128_2_0_n_n_0_2_1128 : GatherDims S50000x128 S15000x6x1 S15000x6x128 where
  offsetDims := [2]
  collapsedSliceDims := [0]
  operandBatchingDims := []
  startIndicesBatchingDims := []
  startIndexMap := [0]
  indexVectorDim := 2
  sliceSizes := ![1, 128]
  wf := gather_S50000x128_S15000x6x1_S15000x6x128_2_0_n_n_0_2_1128_wf
def dot_S15000x6x256_S256x128_S15000x6x128_2_0_01_1_n_n : DotDims S15000x6x256 S256x128 S15000x6x128 where
  lhsContracting := [2]
  rhsContracting := [0]
  lhsNonContracting := [0, 1]
  rhsNonContracting := [1]
  lhsBatch := []
  rhsBatch := []
  wf := dot_S15000x6x256_S256x128_S15000x6x128_2_0_01_1_n_n_wf
def gather_S50000x128_S15000x7x1_S15000x7x128_2_0_n_n_0_2_1128 : GatherDims S50000x128 S15000x7x1 S15000x7x128 where
  offsetDims := [2]
  collapsedSliceDims := [0]
  operandBatchingDims := []
  startIndicesBatchingDims := []
  startIndexMap := [0]
  indexVectorDim := 2
  sliceSizes := ![1, 128]
  wf := gather_S50000x128_S15000x7x1_S15000x7x128_2_0_n_n_0_2_1128_wf
def dot_S15000x7x256_S256x128_S15000x7x128_2_0_01_1_n_n : DotDims S15000x7x256 S256x128 S15000x7x128 where
  lhsContracting := [2]
  rhsContracting := [0]
  lhsNonContracting := [0, 1]
  rhsNonContracting := [1]
  lhsBatch := []
  rhsBatch := []
  wf := dot_S15000x7x256_S256x128_S15000x7x128_2_0_01_1_n_n_wf
def scatter_S50000x128_S75000x1_S75000x128_1_0_0_1 : ScatterDims S50000x128 S75000x1 S75000x128 where
  updateWindowDims := [1]
  insertedWindowDims := [0]
  scatterDimsToOperandDims := [0]
  indexVectorDim := 1
  wf := scatter_S50000x128_S75000x1_S75000x128_1_0_0_1_wf
def scatter_S50000x128_S90000x1_S90000x128_1_0_0_1 : ScatterDims S50000x128 S90000x1 S90000x128 where
  updateWindowDims := [1]
  insertedWindowDims := [0]
  scatterDimsToOperandDims := [0]
  indexVectorDim := 1
  wf := scatter_S50000x128_S90000x1_S90000x128_1_0_0_1_wf
def scatter_S50000x128_S105000x1_S105000x128_1_0_0_1 : ScatterDims S50000x128 S105000x1 S105000x128 where
  updateWindowDims := [1]
  insertedWindowDims := [0]
  scatterDimsToOperandDims := [0]
  indexVectorDim := 1
  wf := scatter_S50000x128_S105000x1_S105000x128_1_0_0_1_wf
def gather_S50000x128_S10000x5x1_S10000x5x128_2_0_n_n_0_2_1128 : GatherDims S50000x128 S10000x5x1 S10000x5x128 where
  offsetDims := [2]
  collapsedSliceDims := [0]
  operandBatchingDims := []
  startIndicesBatchingDims := []
  startIndexMap := [0]
  indexVectorDim := 2
  sliceSizes := ![1, 128]
  wf := gather_S50000x128_S10000x5x1_S10000x5x128_2_0_n_n_0_2_1128_wf
def dot_S10000x5x256_S256x128_S10000x5x128_2_0_01_1_n_n : DotDims S10000x5x256 S256x128 S10000x5x128 where
  lhsContracting := [2]
  rhsContracting := [0]
  lhsNonContracting := [0, 1]
  rhsNonContracting := [1]
  lhsBatch := []
  rhsBatch := []
  wf := dot_S10000x5x256_S256x128_S10000x5x128_2_0_01_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S50000x128_S10000x6x1_S10000x6x128_2_0_n_n_0_2_1128 : GatherDims S50000x128 S10000x6x1 S10000x6x128 where
  offsetDims := [2]
  collapsedSliceDims := [0]
  operandBatchingDims := []
  startIndicesBatchingDims := []
  startIndexMap := [0]
  indexVectorDim := 2
  sliceSizes := ![1, 128]
  wf := gather_S50000x128_S10000x6x1_S10000x6x128_2_0_n_n_0_2_1128_wf
def dot_S10000x6x256_S256x128_S10000x6x128_2_0_01_1_n_n : DotDims S10000x6x256 S256x128 S10000x6x128 where
  lhsContracting := [2]
  rhsContracting := [0]
  lhsNonContracting := [0, 1]
  rhsNonContracting := [1]
  lhsBatch := []
  rhsBatch := []
  wf := dot_S10000x6x256_S256x128_S10000x6x128_2_0_01_1_n_n_wf

class Facts : Prop extends Facts₀ where

variable [Facts]
-- ==== Proof.BReg0.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_w : Rect S128x128 := Rect.unit (s := S128x128) ![0, 0] S128x128.size inb_S128x128_S128x128_0_0
abbrev r0_b : Rect S1x128 := Rect.unit (s := S1x128) ![0, 0] S1x128.size inb_S1x128_S1x128_0_0
abbrev r0_s0 : Rect S1000x512 := Rect.unit (s := S1000x512) ![0, 0] S1000x128.size inb_S1000x512_S1000x128_0_0
abbrev r0_s1 : Rect S1000x512 := Rect.unit (s := S1000x512) ![0, 128] S1000x128.size inb_S1000x512_S1000x128_0_128
abbrev r0_s2 : Rect S1000x512 := Rect.unit (s := S1000x512) ![0, 256] S1000x128.size inb_S1000x512_S1000x128_0_256
abbrev r0_s3 : Rect S1000x512 := Rect.unit (s := S1000x512) ![0, 384] S1000x128.size inb_S1000x512_S1000x128_0_384

def out0_4 (x0 : Vec F S1000x512 .f32) (x1 : Vec F S128x128 .bf16) (x2 : Vec F S128x128 .bf16) (x3 : Vec F S1x128 .f32) : Vec F S1000x512 .f32 :=
  View.canon [⟨r0_s3, k0_pay1 (k0_pay2 (View.ld x1 r0_w)) (k0_pay6 (View.ld x0 r0_s3)) (k0_pay7 (View.ld x2 r0_w) (View.ld x3 r0_b) (View.ld x0 r0_s0) (View.ld x0 r0_s1) (View.ld x0 r0_s2) (View.ld x0 r0_s3))⟩,
    ⟨r0_s2, k0_pay10 (View.ld x1 r0_w) (View.ld x2 r0_w) (View.ld x3 r0_b) (View.ld x0 r0_s0) (View.ld x0 r0_s1) (View.ld x0 r0_s2) (View.ld x0 r0_s3)⟩,
    ⟨r0_s1, k0_pay9 (View.ld x1 r0_w) (View.ld x2 r0_w) (View.ld x3 r0_b) (View.ld x0 r0_s0) (View.ld x0 r0_s1) (View.ld x0 r0_s2) (View.ld x0 r0_s3)⟩,
    ⟨r0_s0, k0_pay8 (View.ld x1 r0_w) (View.ld x2 r0_w) (View.ld x3 r0_b) (View.ld x0 r0_s0) (View.ld x0 r0_s1) (View.ld x0 r0_s2) (View.ld x0 r0_s3)⟩]

-- The slab stores tile the output block, so reading it back gives the canonical form of the list of stores.
set_option maxHeartbeats 4000000 in
theorem sound_kernel0 (i : grid0.Coords) (arg1 arg5 : Memref sig .tc .vmem S1000x512 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x512 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out0_4 x0 x1 x2 x3)) -∗ K ⟨⟩))
      ⊢ wp frame (wpE defs₀ Variants.none c none) Set.univ (cc0_autobahn_kernel i arg1 harg1 arg2 harg2 arg3 harg3 arg4 harg4 arg5 harg5) K := by
  simp only [cc0_autobahn_kernel_eq_skeleton, cc0_autobahn_kernel_skel, k0_part1_eq_skeleton, k0_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (w : Fin cfg0.W) : (dat0 V c).A w = V c (Pipeline.arrRef spec0 w) := by
  dsimp only [dat0]

theorem after0_4 (t : Fin cfg0.N) :
    (dat0 V c).after 4 t = out0_4 (iblk0 V c 0 t) (iblk0 V c 1 t) (iblk0 V c 2 t) (iblk0 V c 3 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d
theorem before0_2 (t : Fin cfg0.N) (d) : (dat0 V c).before 2 t d = iblk0 V c 2 t :=
  (dat0 V c).before_in_eq_fetched 2 rfl (fun _ => rfl) (fun _ _ _ => rfl) (fun _ => rfl) t d
theorem before0_3 (t : Fin cfg0.N) (d) : (dat0 V c).before 3 t d = iblk0 V c 3 t :=
  (dat0 V c).before_in_eq_fetched 3 rfl (fun _ => rfl) (fun _ _ _ => rfl) (fun _ => rfl) t d

-- The inputs hold their blocks of the arrays and are left as found; the output block is `out0_4` of them.
theorem body_obligation0 : BodyObligation (dat0 (F := F) V c) (defs₀ (F := F)) Variants.none () Set.univ := fun t => by
  simp only [bigSep_W0, before0_0, before0_1, before0_2, before0_3]
  dsimp only [dat0]
  iintro ⟨HΦ, Ho, ⟨%_, H0⟩, ⟨%_, H1⟩, ⟨%_, H2⟩, ⟨%_, H3⟩, %_, H4⟩
  iapply sound_kernel0 c _ _ _ _ _ _ _ _ _ _ _ (iblk0 V c 0 t) (iblk0 V c 1 t) (iblk0 V c 2 t) (iblk0 V c 3 t)
  iframe
  isplitl [H4]; · iexists _; iexact H4
  iintro ⟨H0, H1, H2, H3, H4⟩
  iframe
  iexact Ho

end Cert.Kernel.Gen

end
-- ==== Proof.BReg1.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_s0 : Rect S1000x640 := Rect.unit (s := S1000x640) ![0, 0] S1000x128.size inb_S1000x640_S1000x128_0_0
abbrev r1_s1 : Rect S1000x640 := Rect.unit (s := S1000x640) ![0, 128] S1000x128.size inb_S1000x640_S1000x128_0_128
abbrev r1_s2 : Rect S1000x640 := Rect.unit (s := S1000x640) ![0, 256] S1000x128.size inb_S1000x640_S1000x128_0_256
abbrev r1_s3 : Rect S1000x640 := Rect.unit (s := S1000x640) ![0, 384] S1000x128.size inb_S1000x640_S1000x128_0_384
abbrev r1_s4 : Rect S1000x640 := Rect.unit (s := S1000x640) ![0, 512] S1000x128.size inb_S1000x640_S1000x128_0_512

def out1_4 (x0 : Vec F S1000x640 .f32) (x1 : Vec F S128x128 .bf16) (x2 : Vec F S128x128 .bf16) (x3 : Vec F S1x128 .f32) : Vec F S1000x640 .f32 :=
  View.canon [⟨r1_s4, k1_pay3 (k1_pay4 (View.ld x1 r1_w)) (k1_pay9 (View.ld x0 r1_s4)) (k1_pay10 (View.ld x2 r1_w) (View.ld x3 r1_b) (View.ld x0 r1_s0) (View.ld x0 r1_s1) (View.ld x0 r1_s2) (View.ld x0 r1_s3) (View.ld x0 r1_s4))⟩,
    ⟨r1_s3, k1_pay2 (k1_pay4 (View.ld x1 r1_w)) (k1_pay8 (View.ld x0 r1_s3)) (k1_pay10 (View.ld x2 r1_w) (View.ld x3 r1_b) (View.ld x0 r1_s0) (View.ld x0 r1_s1) (View.ld x0 r1_s2) (View.ld x0 r1_s3) (View.ld x0 r1_s4))⟩,
    ⟨r1_s2, k1_pay1 (k1_pay4 (View.ld x1 r1_w)) (k1_pay10 (View.ld x2 r1_w) (View.ld x3 r1_b) (View.ld x0 r1_s0) (View.ld x0 r1_s1) (View.ld x0 r1_s2) (View.ld x0 r1_s3) (View.ld x0 r1_s4)) (k1_pay13 (View.ld x0 r1_s2)) (constant S1000x128 .f32 0x00000000#32)⟩,
    ⟨r1_s1, k1_pay12 (View.ld x1 r1_w) (View.ld x2 r1_w) (View.ld x3 r1_b) (View.ld x0 r1_s0) (View.ld x0 r1_s1) (View.ld x0 r1_s2) (View.ld x0 r1_s3) (View.ld x0 r1_s4)⟩,
    ⟨r1_s0, k1_pay11 (View.ld x1 r1_w) (View.ld x2 r1_w) (View.ld x3 r1_b) (View.ld x0 r1_s0) (View.ld x0 r1_s1) (View.ld x0 r1_s2) (View.ld x0 r1_s3) (View.ld x0 r1_s4)⟩]

-- The slab stores tile the output block, so reading it back gives the canonical form of the list of stores.
set_option maxHeartbeats 4000000 in
theorem sound_kernel1 (i : grid1.Coords) (arg1 arg5 : Memref sig .tc .vmem S1000x640 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x640 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out1_4 x0 x1 x2 x3)) -∗ K ⟨⟩))
      ⊢ wp frame (wpE defs₀ Variants.none c none) Set.univ (cc1_autobahn_kernel i arg1 harg1 arg2 harg2 arg3 harg3 arg4 harg4 arg5 harg5) K := by
  simp only [cc1_autobahn_kernel_eq_skeleton, cc1_autobahn_kernel_skel, k1_part1_eq_skeleton, k1_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (w : Fin cfg1.W) : (dat1 V c).A w = V c (Pipeline.arrRef spec1 w) := by
  dsimp only [dat1]

theorem after1_4 (t : Fin cfg1.N) :
    (dat1 V c).after 4 t = out1_4 (iblk1 V c 0 t) (iblk1 V c 1 t) (iblk1 V c 2 t) (iblk1 V c 3 t) := by dsimp only [dat1]

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d
theorem before1_2 (t : Fin cfg1.N) (d) : (dat1 V c).before 2 t d = iblk1 V c 2 t :=
  (dat1 V c).before_in_eq_fetched 2 rfl (fun _ => rfl) (fun _ _ _ => rfl) (fun _ => rfl) t d
theorem before1_3 (t : Fin cfg1.N) (d) : (dat1 V c).before 3 t d = iblk1 V c 3 t :=
  (dat1 V c).before_in_eq_fetched 3 rfl (fun _ => rfl) (fun _ _ _ => rfl) (fun _ => rfl) t d

-- The inputs hold their blocks of the arrays and are left as found; the output block is `out1_4` of them.
theorem body_obligation1 : BodyObligation (dat1 (F := F) V c) (defs₀ (F := F)) Variants.none () Set.univ := fun t => by
  simp only [bigSep_W1, before1_0, before1_1, before1_2, before1_3]
  dsimp only [dat1]
  iintro ⟨HΦ, Ho, ⟨%_, H0⟩, ⟨%_, H1⟩, ⟨%_, H2⟩, ⟨%_, H3⟩, %_, H4⟩
  iapply sound_kernel1 c _ _ _ _ _ _ _ _ _ _ _ (iblk1 V c 0 t) (iblk1 V c 1 t) (iblk1 V c 2 t) (iblk1 V c 3 t)
  iframe
  isplitl [H4]; · iexists _; iexact H4
  iintro ⟨H0, H1, H2, H3, H4⟩
  iframe
  iexact Ho

end Cert.Kernel.Gen

end
-- ==== Proof.BReg2.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_s0 : Rect S1000x768 := Rect.unit (s := S1000x768) ![0, 0] S1000x128.size inb_S1000x768_S1000x128_0_0
abbrev r2_s1 : Rect S1000x768 := Rect.unit (s := S1000x768) ![0, 128] S1000x128.size inb_S1000x768_S1000x128_0_128
abbrev r2_s2 : Rect S1000x768 := Rect.unit (s := S1000x768) ![0, 256] S1000x128.size inb_S1000x768_S1000x128_0_256
abbrev r2_s3 : Rect S1000x768 := Rect.unit (s := S1000x768) ![0, 384] S1000x128.size inb_S1000x768_S1000x128_0_384
abbrev r2_s4 : Rect S1000x768 := Rect.unit (s := S1000x768) ![0, 512] S1000x128.size inb_S1000x768_S1000x128_0_512
abbrev r2_s5 : Rect S1000x768 := Rect.unit (s := S1000x768) ![0, 640] S1000x128.size inb_S1000x768_S1000x128_0_640

def out2_4 (x0 : Vec F S1000x768 .f32) (x1 : Vec F S128x128 .bf16) (x2 : Vec F S128x128 .bf16) (x3 : Vec F S1x128 .f32) : Vec F S1000x768 .f32 :=
  View.canon [⟨r2_s5, k2_pay4 (k2_pay5 (View.ld x1 r2_w)) (k2_pay11 (View.ld x0 r2_s5)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s4, k2_pay3 (k2_pay5 (View.ld x1 r2_w)) (k2_pay10 (View.ld x0 r2_s4)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s3, k2_pay2 (k2_pay5 (View.ld x1 r2_w)) (k2_pay9 (View.ld x0 r2_s3)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s2, k2_pay1 (k2_pay5 (View.ld x1 r2_w)) (k2_pay8 (View.ld x0 r2_s2)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s1, k2_pay14 (View.ld x1 r2_w) (View.ld x2 r2_w) (View.ld x3 r2_b) (View.ld x0 r2_s0) (View.ld x0 r2_s1) (View.ld x0 r2_s2) (View.ld x0 r2_s3) (View.ld x0 r2_s4) (View.ld x0 r2_s5)⟩,
    ⟨r2_s0, k2_pay13 (View.ld x1 r2_w) (View.ld x2 r2_w) (View.ld x3 r2_b) (View.ld x0 r2_s0) (View.ld x0 r2_s1) (View.ld x0 r2_s2) (View.ld x0 r2_s3) (View.ld x0 r2_s4) (View.ld x0 r2_s5)⟩]

-- The slab stores tile the output block, so reading it back gives the canonical form of the list of stores.
set_option maxHeartbeats 4000000 in
theorem sound_kernel2 (i : grid2.Coords) (arg1 arg5 : Memref sig .tc .vmem S1000x768 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x768 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out2_4 x0 x1 x2 x3)) -∗ K ⟨⟩))
      ⊢ wp frame (wpE defs₀ Variants.none c none) Set.univ (cc2_autobahn_kernel i arg1 harg1 arg2 harg2 arg3 harg3 arg4 harg4 arg5 harg5) K := by
  simp only [cc2_autobahn_kernel_eq_skeleton, cc2_autobahn_kernel_skel, k2_part1_eq_skeleton, k2_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (w : Fin cfg2.W) : (dat2 V c).A w = V c (Pipeline.arrRef spec2 w) := by
  dsimp only [dat2]

theorem after2_4 (t : Fin cfg2.N) :
    (dat2 V c).after 4 t = out2_4 (iblk2 V c 0 t) (iblk2 V c 1 t) (iblk2 V c 2 t) (iblk2 V c 3 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d
theorem before2_2 (t : Fin cfg2.N) (d) : (dat2 V c).before 2 t d = iblk2 V c 2 t :=
  (dat2 V c).before_in_eq_fetched 2 rfl (fun _ => rfl) (fun _ _ _ => rfl) (fun _ => rfl) t d
theorem before2_3 (t : Fin cfg2.N) (d) : (dat2 V c).before 3 t d = iblk2 V c 3 t :=
  (dat2 V c).before_in_eq_fetched 3 rfl (fun _ => rfl) (fun _ _ _ => rfl) (fun _ => rfl) t d

-- The inputs hold their blocks of the arrays and are left as found; the output block is `out2_4` of them.
theorem body_obligation2 : BodyObligation (dat2 (F := F) V c) (defs₀ (F := F)) Variants.none () Set.univ := fun t => by
  simp only [bigSep_W2, before2_0, before2_1, before2_2, before2_3]
  dsimp only [dat2]
  iintro ⟨HΦ, Ho, ⟨%_, H0⟩, ⟨%_, H1⟩, ⟨%_, H2⟩, ⟨%_, H3⟩, %_, H4⟩
  iapply sound_kernel2 c _ _ _ _ _ _ _ _ _ _ _ (iblk2 V c 0 t) (iblk2 V c 1 t) (iblk2 V c 2 t) (iblk2 V c 3 t)
  iframe
  isplitl [H4]; · iexists _; iexact H4
  iintro ⟨H0, H1, H2, H3, H4⟩
  iframe
  iexact Ho

end Cert.Kernel.Gen

end
-- ==== Proof.BReg3.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_s0 : Rect S1000x896 := Rect.unit (s := S1000x896) ![0, 0] S1000x128.size inb_S1000x896_S1000x128_0_0
abbrev r3_s1 : Rect S1000x896 := Rect.unit (s := S1000x896) ![0, 128] S1000x128.size inb_S1000x896_S1000x128_0_128
abbrev r3_s2 : Rect S1000x896 := Rect.unit (s := S1000x896) ![0, 256] S1000x128.size inb_S1000x896_S1000x128_0_256
abbrev r3_s3 : Rect S1000x896 := Rect.unit (s := S1000x896) ![0, 384] S1000x128.size inb_S1000x896_S1000x128_0_384
abbrev r3_s4 : Rect S1000x896 := Rect.unit (s := S1000x896) ![0, 512] S1000x128.size inb_S1000x896_S1000x128_0_512
abbrev r3_s5 : Rect S1000x896 := Rect.unit (s := S1000x896) ![0, 640] S1000x128.size inb_S1000x896_S1000x128_0_640
abbrev r3_s6 : Rect S1000x896 := Rect.unit (s := S1000x896) ![0, 768] S1000x128.size inb_S1000x896_S1000x128_0_768

def out3_4 (x0 : Vec F S1000x896 .f32) (x1 : Vec F S128x128 .bf16) (x2 : Vec F S128x128 .bf16) (x3 : Vec F S1x128 .f32) : Vec F S1000x896 .f32 :=
  View.canon [⟨r3_s6, k3_pay6 (k3_pay7 (View.ld x1 r3_w)) (k3_pay14 (View.ld x0 r3_s6)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s5, k3_pay5 (k3_pay7 (View.ld x1 r3_w)) (k3_pay13 (View.ld x0 r3_s5)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s4, k3_pay4 (k3_pay7 (View.ld x1 r3_w)) (k3_pay12 (View.ld x0 r3_s4)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s3, k3_pay3 (k3_pay7 (View.ld x1 r3_w)) (k3_pay11 (View.ld x0 r3_s3)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s2, k3_pay2 (k3_pay7 (View.ld x1 r3_w)) (k3_pay10 (View.ld x0 r3_s2)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s1, k3_pay1 (k3_pay7 (View.ld x1 r3_w)) (k3_pay9 (View.ld x0 r3_s1)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s0, k3_pay16 (View.ld x1 r3_w) (View.ld x2 r3_w) (View.ld x3 r3_b) (View.ld x0 r3_s0) (View.ld x0 r3_s1) (View.ld x0 r3_s2) (View.ld x0 r3_s3) (View.ld x0 r3_s4) (View.ld x0 r3_s5) (View.ld x0 r3_s6)⟩]

-- The slab stores tile the output block, so reading it back gives the canonical form of the list of stores.
set_option maxHeartbeats 4000000 in
theorem sound_kernel3 (i : grid3.Coords) (arg1 arg5 : Memref sig .tc .vmem S1000x896 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x896 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out3_4 x0 x1 x2 x3)) -∗ K ⟨⟩))
      ⊢ wp frame (wpE defs₀ Variants.none c none) Set.univ (cc3_autobahn_kernel i arg1 harg1 arg2 harg2 arg3 harg3 arg4 harg4 arg5 harg5) K := by
  simp only [cc3_autobahn_kernel_eq_skeleton, cc3_autobahn_kernel_skel, k3_part1_eq_skeleton, k3_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := by
  dsimp only [dat3]

theorem after3_4 (t : Fin cfg3.N) :
    (dat3 V c).after 4 t = out3_4 (iblk3 V c 0 t) (iblk3 V c 1 t) (iblk3 V c 2 t) (iblk3 V c 3 t) := by dsimp only [dat3]

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d
theorem before3_2 (t : Fin cfg3.N) (d) : (dat3 V c).before 2 t d = iblk3 V c 2 t :=
  (dat3 V c).before_in_eq_fetched 2 rfl (fun _ => rfl) (fun _ _ _ => rfl) (fun _ => rfl) t d
theorem before3_3 (t : Fin cfg3.N) (d) : (dat3 V c).before 3 t d = iblk3 V c 3 t :=
  (dat3 V c).before_in_eq_fetched 3 rfl (fun _ => rfl) (fun _ _ _ => rfl) (fun _ => rfl) t d

-- The inputs hold their blocks of the arrays and are left as found; the output block is `out3_4` of them.
theorem body_obligation3 : BodyObligation (dat3 (F := F) V c) (defs₀ (F := F)) Variants.none () Set.univ := fun t => by
  simp only [bigSep_W3, before3_0, before3_1, before3_2, before3_3]
  dsimp only [dat3]
  iintro ⟨HΦ, Ho, ⟨%_, H0⟩, ⟨%_, H1⟩, ⟨%_, H2⟩, ⟨%_, H3⟩, %_, H4⟩
  iapply sound_kernel3 c _ _ _ _ _ _ _ _ _ _ _ (iblk3 V c 0 t) (iblk3 V c 1 t) (iblk3 V c 2 t) (iblk3 V c 3 t)
  iframe
  isplitl [H4]; · iexists _; iexact H4
  iintro ⟨H0, H1, H2, H3, H4⟩
  iframe
  iexact Ho

end Cert.Kernel.Gen

end
-- ==== Proof.BReg4.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_w : Rect S128x128 := Rect.unit (s := S128x128) ![0, 0] S128x128.size inb_S128x128_S128x128_0_0
abbrev r4_b : Rect S1x128 := Rect.unit (s := S1x128) ![0, 0] S1x128.size inb_S1x128_S1x128_0_0
abbrev r4_s0 : Rect S1000x640 := Rect.unit (s := S1000x640) ![0, 0] S1000x128.size inb_S1000x640_S1000x128_0_0
abbrev r4_s1 : Rect S1000x640 := Rect.unit (s := S1000x640) ![0, 128] S1000x128.size inb_S1000x640_S1000x128_0_128
abbrev r4_s2 : Rect S1000x640 := Rect.unit (s := S1000x640) ![0, 256] S1000x128.size inb_S1000x640_S1000x128_0_256
abbrev r4_s3 : Rect S1000x640 := Rect.unit (s := S1000x640) ![0, 384] S1000x128.size inb_S1000x640_S1000x128_0_384
abbrev r4_s4 : Rect S1000x640 := Rect.unit (s := S1000x640) ![0, 512] S1000x128.size inb_S1000x640_S1000x128_0_512

def out4_4 (x0 : Vec F S1000x640 .f32) (x1 : Vec F S128x128 .bf16) (x2 : Vec F S128x128 .bf16) (x3 : Vec F S1x128 .f32) : Vec F S1000x640 .f32 :=
  View.canon [⟨r4_s4, k4_pay3 (k4_pay4 (View.ld x1 r4_w)) (k4_pay9 (View.ld x0 r4_s4)) (k4_pay10 (View.ld x2 r4_w) (View.ld x3 r4_b) (View.ld x0 r4_s0) (View.ld x0 r4_s1) (View.ld x0 r4_s2) (View.ld x0 r4_s3) (View.ld x0 r4_s4))⟩,
    ⟨r4_s3, k4_pay2 (k4_pay4 (View.ld x1 r4_w)) (k4_pay8 (View.ld x0 r4_s3)) (k4_pay10 (View.ld x2 r4_w) (View.ld x3 r4_b) (View.ld x0 r4_s0) (View.ld x0 r4_s1) (View.ld x0 r4_s2) (View.ld x0 r4_s3) (View.ld x0 r4_s4))⟩,
    ⟨r4_s2, k4_pay1 (k4_pay4 (View.ld x1 r4_w)) (k4_pay10 (View.ld x2 r4_w) (View.ld x3 r4_b) (View.ld x0 r4_s0) (View.ld x0 r4_s1) (View.ld x0 r4_s2) (View.ld x0 r4_s3) (View.ld x0 r4_s4)) (k4_pay13 (View.ld x0 r4_s2)) (constant S1000x128 .f32 0x00000000#32)⟩,
    ⟨r4_s1, k4_pay12 (View.ld x1 r4_w) (View.ld x2 r4_w) (View.ld x3 r4_b) (View.ld x0 r4_s0) (View.ld x0 r4_s1) (View.ld x0 r4_s2) (View.ld x0 r4_s3) (View.ld x0 r4_s4)⟩,
    ⟨r4_s0, k4_pay11 (View.ld x1 r4_w) (View.ld x2 r4_w) (View.ld x3 r4_b) (View.ld x0 r4_s0) (View.ld x0 r4_s1) (View.ld x0 r4_s2) (View.ld x0 r4_s3) (View.ld x0 r4_s4)⟩]

-- The slab stores tile the output block, so reading it back gives the canonical form of the list of stores.
set_option maxHeartbeats 4000000 in
theorem sound_kernel4 (i : grid4.Coords) (arg1 arg5 : Memref sig .tc .vmem S1000x640 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x640 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out4_4 x0 x1 x2 x3)) -∗ K ⟨⟩))
      ⊢ wp frame (wpE defs₀ Variants.none c none) Set.univ (cc4_autobahn_kernel i arg1 harg1 arg2 harg2 arg3 harg3 arg4 harg4 arg5 harg5) K := by
  simp only [cc4_autobahn_kernel_eq_skeleton, cc4_autobahn_kernel_skel, k4_part1_eq_skeleton, k4_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (w : Fin cfg4.W) : (dat4 V c).A w = V c (Pipeline.arrRef spec4 w) := by
  dsimp only [dat4]

theorem after4_4 (t : Fin cfg4.N) :
    (dat4 V c).after 4 t = out4_4 (iblk4 V c 0 t) (iblk4 V c 1 t) (iblk4 V c 2 t) (iblk4 V c 3 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d
theorem before4_2 (t : Fin cfg4.N) (d) : (dat4 V c).before 2 t d = iblk4 V c 2 t :=
  (dat4 V c).before_in_eq_fetched 2 rfl (fun _ => rfl) (fun _ _ _ => rfl) (fun _ => rfl) t d
theorem before4_3 (t : Fin cfg4.N) (d) : (dat4 V c).before 3 t d = iblk4 V c 3 t :=
  (dat4 V c).before_in_eq_fetched 3 rfl (fun _ => rfl) (fun _ _ _ => rfl) (fun _ => rfl) t d

-- The inputs hold their blocks of the arrays and are left as found; the output block is `out4_4` of them.
theorem body_obligation4 : BodyObligation (dat4 (F := F) V c) (defs₀ (F := F)) Variants.none () Set.univ := fun t => by
  simp only [bigSep_W4, before4_0, before4_1, before4_2, before4_3]
  dsimp only [dat4]
  iintro ⟨HΦ, Ho, ⟨%_, H0⟩, ⟨%_, H1⟩, ⟨%_, H2⟩, ⟨%_, H3⟩, %_, H4⟩
  iapply sound_kernel4 c _ _ _ _ _ _ _ _ _ _ _ (iblk4 V c 0 t) (iblk4 V c 1 t) (iblk4 V c 2 t) (iblk4 V c 3 t)
  iframe
  isplitl [H4]; · iexists _; iexact H4
  iintro ⟨H0, H1, H2, H3, H4⟩
  iframe
  iexact Ho

end Cert.Kernel.Gen

end
-- ==== Proof.BReg5.lean ====
import proofs.«413924_j50869592655534_3_alg».proof.Proof.Gen.Kernel.Launch
import proofs.«413924_j50869592655534_3_alg».proof.Proof.Gen.Kernel.Skeleton
import proofs.«413924_j50869592655534_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_w : Rect S128x128 := Rect.unit (s := S128x128) ![0, 0] S128x128.size inb_S128x128_S128x128_0_0
abbrev r5_b : Rect S1x128 := Rect.unit (s := S1x128) ![0, 0] S1x128.size inb_S1x128_S1x128_0_0
abbrev r5_s0 : Rect S1000x768 := Rect.unit (s := S1000x768) ![0, 0] S1000x128.size inb_S1000x768_S1000x128_0_0
abbrev r5_s1 : Rect S1000x768 := Rect.unit (s := S1000x768) ![0, 128] S1000x128.size inb_S1000x768_S1000x128_0_128
abbrev r5_s2 : Rect S1000x768 := Rect.unit (s := S1000x768) ![0, 256] S1000x128.size inb_S1000x768_S1000x128_0_256
abbrev r5_s3 : Rect S1000x768 := Rect.unit (s := S1000x768) ![0, 384] S1000x128.size inb_S1000x768_S1000x128_0_384
abbrev r5_s4 : Rect S1000x768 := Rect.unit (s := S1000x768) ![0, 512] S1000x128.size inb_S1000x768_S1000x128_0_512
abbrev r5_s5 : Rect S1000x768 := Rect.unit (s := S1000x768) ![0, 640] S1000x128.size inb_S1000x768_S1000x128_0_640

def out5_4 (x0 : Vec F S1000x768 .f32) (x1 : Vec F S128x128 .bf16) (x2 : Vec F S128x128 .bf16) (x3 : Vec F S1x128 .f32) : Vec F S1000x768 .f32 :=
  View.canon [⟨r5_s5, k5_pay4 (k5_pay5 (View.ld x1 r5_w)) (k5_pay11 (View.ld x0 r5_s5)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s4, k5_pay3 (k5_pay5 (View.ld x1 r5_w)) (k5_pay10 (View.ld x0 r5_s4)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s3, k5_pay2 (k5_pay5 (View.ld x1 r5_w)) (k5_pay9 (View.ld x0 r5_s3)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s2, k5_pay1 (k5_pay5 (View.ld x1 r5_w)) (k5_pay8 (View.ld x0 r5_s2)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s1, k5_pay14 (View.ld x1 r5_w) (View.ld x2 r5_w) (View.ld x3 r5_b) (View.ld x0 r5_s0) (View.ld x0 r5_s1) (View.ld x0 r5_s2) (View.ld x0 r5_s3) (View.ld x0 r5_s4) (View.ld x0 r5_s5)⟩,
    ⟨r5_s0, k5_pay13 (View.ld x1 r5_w) (View.ld x2 r5_w) (View.ld x3 r5_b) (View.ld x0 r5_s0) (View.ld x0 r5_s1) (View.ld x0 r5_s2) (View.ld x0 r5_s3) (View.ld x0 r5_s4) (View.ld x0 r5_s5)⟩]

-- The slab stores tile the output block, so reading it back gives the canonical form of the list of stores.
set_option maxHeartbeats 4000000 in
theorem sound_kernel5 (i : grid5.Coords) (arg1 arg5 : Memref sig .tc .vmem S1000x768 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x768 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out5_4 x0 x1 x2 x3)) -∗ K ⟨⟩))
      ⊢ wp frame (wpE defs₀ Variants.none c none) Set.univ (cc5_autobahn_kernel i arg1 harg1 arg2 harg2 arg3 harg3 arg4 harg4 arg5 harg5) K := by
  simp only [cc5_autobahn_kernel_eq_skeleton, cc5_autobahn_kernel_skel, k5_part1_eq_skeleton, k5_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (w : Fin cfg5.W) : (dat5 V c).A w = V c (Pipeline.arrRef spec5 w) := by
  dsimp only [dat5]

theorem after5_4 (t : Fin cfg5.N) :
    (dat5 V c).after 4 t = out5_4 (iblk5 V c 0 t) (iblk5 V c 1 t) (iblk5 V c 2 t) (iblk5 V c 3 t) := by dsimp only [dat5]

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d
theorem before5_3 (t : Fin cfg5.N) (d) : (dat5 V c).before 3 t d = iblk5 V c 3 t :=
  (dat5 V c).before_in_eq_fetched 3 rfl (fun _ => rfl) (fun _ _ _ => rfl) (fun _ => rfl) t d

-- The inputs hold their blocks of the arrays and are left as found; the output block is `out5_4` of them.
theorem body_obligation5 : BodyObligation (dat5 (F := F) V c) (defs₀ (F := F)) Variants.none () Set.univ := fun t => by
  simp only [bigSep_W5, before5_0, before5_1, before5_2, before5_3]
  dsimp only [dat5]
  iintro ⟨HΦ, Ho, ⟨%_, H0⟩, ⟨%_, H1⟩, ⟨%_, H2⟩, ⟨%_, H3⟩, %_, H4⟩
  iapply sound_kernel5 c _ _ _ _ _ _ _ _ _ _ _ (iblk5 V c 0 t) (iblk5 V c 1 t) (iblk5 V c 2 t) (iblk5 V c 3 t)
  iframe
  isplitl [H4]; · iexists _; iexact H4
  iintro ⟨H0, H1, H2, H3, H4⟩
  iframe
  iexact Ho

end Cert.Kernel.Gen

end
-- ==== Proof.BRunK.lean ====
import proofs.«413924_j50869592655534_3_alg».proof.Proof.Gen.Kernel.Regions
import proofs.«413924_j50869592655534_3_alg».proof.Proof.BReg0
import proofs.«413924_j50869592655534_3_alg».proof.Proof.BReg1
import proofs.«413924_j50869592655534_3_alg».proof.Proof.BReg2
import proofs.«413924_j50869592655534_3_alg».proof.Proof.BReg3
import proofs.«413924_j50869592655534_3_alg».proof.Proof.BReg4
import proofs.«413924_j50869592655534_3_alg».proof.Proof.BReg5

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VE0 : (c : Dev nD) → (b : Ref sig .tc) → Buf (Elt F) ((c : Thread nD τ).loc b) := fun c b => V1 m c b
abbrev VE1 (outs : Outs (F := F)) : (c : Dev nD) → (b : Ref sig .tc) → Buf (Elt F) ((c : Thread nD τ).loc b) := fun c b => V3 m outs c b
abbrev VE2 (outs : Outs (F := F)) : (c : Dev nD) → (b : Ref sig .tc) → Buf (Elt F) ((c : Thread nD τ).loc b) := fun c b => V5 m outs c b
abbrev VE3 (outs : Outs (F := F)) : (c : Dev nD) → (b : Ref sig .tc) → Buf (Elt F) ((c : Thread nD τ).loc b) := fun c b => V7 m outs c b
abbrev VE4 (outs : Outs (F := F)) : (c : Dev nD) → (b : Ref sig .tc) → Buf (Elt F) ((c : Thread nD τ).loc b) := fun c b => V9 m outs c b
abbrev VE5 (outs : Outs (F := F)) : (c : Dev nD) → (b : Ref sig .tc) → Buf (Elt F) ((c : Thread nD τ).loc b) := fun c b => V11 m outs c b

theorem V3_congr {o o' : Outs (F := F)} (c : Dev nD) (h : ∀ J < 4, ∀ r, o J r c = o' J r c) : V3 m o c = V3 m o' c := by
  unfold V3 V2; rw [h 2 (by decide)]
theorem V5_congr {o o' : Outs (F := F)} (c : Dev nD) (h : ∀ J < 6, ∀ r, o J r c = o' J r c) : V5 m o c = V5 m o' c := by
  unfold V5 V4; rw [V3_congr m c fun J hJ => h J (hJ.trans (by decide)), h 4 (by decide)]
theorem V7_congr {o o' : Outs (F := F)} (c : Dev nD) (h : ∀ J < 8, ∀ r, o J r c = o' J r c) : V7 m o c = V7 m o' c := by
  unfold V7 V6; rw [V5_congr m c fun J hJ => h J (hJ.trans (by decide)), h 6 (by decide)]
theorem V9_congr {o o' : Outs (F := F)} (c : Dev nD) (h : ∀ J < 10, ∀ r, o J r c = o' J r c) : V9 m o c = V9 m o' c := by
  unfold V9 V8; rw [V7_congr m c fun J hJ => h J (hJ.trans (by decide)), h 8 (by decide)]
theorem V11_congr {o o' : Outs (F := F)} (c : Dev nD) (h : ∀ J < 12, ∀ r, o J r c = o' J r c) : V11 m o c = V11 m o' c := by
  unfold V11 V10; rw [V9_congr m c fun J hJ => h J (hJ.trans (by decide)), h 10 (by decide)]

def regionOut : ℕ → Outs (F := F) → (r : Ref sig .tc) → (c : Dev nD) → Buf (Elt F) ((c : Thread nD τ).loc r)
  | 0, o, r, c => Pipeline.withArrays spec1 c (V3 m o c) ((dat1 (VE1 m o) c).arrAt · cfg1.N) (Proc.devRef .tc r)
  | 1, o, r, c => Pipeline.withArrays spec2 c (V5 m o c) ((dat2 (VE2 m o) c).arrAt · cfg2.N) (Proc.devRef .tc r)
  | 2, o, r, c => Pipeline.withArrays spec3 c (V7 m o c) ((dat3 (VE3 m o) c).arrAt · cfg3.N) (Proc.devRef .tc r)
  | 3, o, r, c => Pipeline.withArrays spec4 c (V9 m o c) ((dat4 (VE4 m o) c).arrAt · cfg4.N) (Proc.devRef .tc r)
  | 4, o, r, c => Pipeline.withArrays spec5 c (V11 m o c) ((dat5 (VE5 m o) c).arrAt · cfg5.N) (Proc.devRef .tc r)
  | _, o, r, c => o 0 r c

def outsTo : ℕ → Outs (F := F)
  | 0 => fun _ r c => Pipeline.withArrays spec0 c (V1 m c) ((dat0 (VE0 m) c).arrAt · cfg0.N) (Proc.devRef .tc r)
  | k + 1 => fun J r c => if J = 2 * k + 4 then regionOut m k (outsTo k) r c else outsTo k J r c
def OUTS : Outs (F := F) := outsTo m 5

theorem outsTo_succ {J k : ℕ} (h : J ≠ 2 * k + 4) (r : Ref sig .tc) (c : Dev nD) : outsTo m (k + 1) J r c = outsTo m k J r c :=
  if_neg h
theorem outsTo_self (k : ℕ) (r : Ref sig .tc) (c : Dev nD) : outsTo m (k + 1) (2 * k + 4) r c = regionOut m k (outsTo m k) r c :=
  if_pos rfl
-- a later level leaves the earlier items alone
theorem outsTo_lt {J : ℕ} (n k : ℕ) (h : J < 2 * k + 4) (r : Ref sig .tc) (c : Dev nD) : outsTo m (k + n) J r c = outsTo m k J r c := by
  induction n with
  | zero => rfl
  | succ n ih => exact (outsTo_succ m (k := k + n) (by omega) r c).trans ih

theorem VE1_outs : VE1 m (OUTS m) = VE1 m (outsTo m 0) :=
  funext fun c => funext fun _ => congrFun (V3_congr m c fun _ hJ r => outsTo_lt m 5 0 hJ r c) _
theorem VE2_outs : VE2 m (OUTS m) = VE2 m (outsTo m 1) :=
  funext fun c => funext fun _ => congrFun (V5_congr m c fun _ hJ r => outsTo_lt m 4 1 hJ r c) _
theorem VE3_outs : VE3 m (OUTS m) = VE3 m (outsTo m 2) :=
  funext fun c => funext fun _ => congrFun (V7_congr m c fun _ hJ r => outsTo_lt m 3 2 hJ r c) _
theorem VE4_outs : VE4 m (OUTS m) = VE4 m (outsTo m 3) :=
  funext fun c => funext fun _ => congrFun (V9_congr m c fun _ hJ r => outsTo_lt m 2 3 hJ r c) _
theorem VE5_outs : VE5 m (OUTS m) = VE5 m (outsTo m 4) :=
  funext fun c => funext fun _ => congrFun (V11_congr m c fun _ hJ r => outsTo_lt m 1 4 hJ r c) _

theorem outs_2 (c : Dev nD) : OUTS m 2 main_v33 c = (dat0 (VE0 m) c).arrAt 4 cfg0.N :=
  (outsTo_lt m 5 0 (by decide) main_v33 c).trans (Pipeline.withArrays_arr spec0 launch0.win.arr_inj c _ ((dat0 (VE0 m) c).arrAt · cfg0.N) 4)
theorem outs_4 (c : Dev nD) : OUTS m 4 main_v54 c = (dat1 (VE1 m (OUTS m)) c).arrAt 4 cfg1.N := by
  rw [VE1_outs m]
  exact (outsTo_lt m 4 1 (by decide) main_v54 c).trans ((outsTo_self m 0 main_v54 c).trans (Pipeline.withArrays_arr spec1 launch1.win.arr_inj c _ ((dat1 (VE1 m (outsTo m 0)) c).arrAt · cfg1.N) 4))
theorem outs_6 (c : Dev nD) : OUTS m 6 main_v75 c = (dat2 (VE2 m (OUTS m)) c).arrAt 4 cfg2.N := by
  rw [VE2_outs m]
  exact (outsTo_lt m 3 2 (by decide) main_v75 c).trans ((outsTo_self m 1 main_v75 c).trans (Pipeline.withArrays_arr spec2 launch2.win.arr_inj c _ ((dat2 (VE2 m (outsTo m 1)) c).arrAt · cfg2.N) 4))
theorem outs_8 (c : Dev nD) : OUTS m 8 main_v96 c = (dat3 (VE3 m (OUTS m)) c).arrAt 4 cfg3.N := by
  rw [VE3_outs m]
  exact (outsTo_lt m 2 3 (by decide) main_v96 c).trans ((outsTo_self m 2 main_v96 c).trans (Pipeline.withArrays_arr spec3 launch3.win.arr_inj c _ ((dat3 (VE3 m (outsTo m 2)) c).arrAt · cfg3.N) 4))
theorem outs_10 (c : Dev nD) : OUTS m 10 main_v135 c = (dat4 (VE4 m (OUTS m)) c).arrAt 4 cfg4.N := by
  rw [VE4_outs m]
  exact (outsTo_lt m 1 4 (by decide) main_v135 c).trans ((outsTo_self m 3 main_v135 c).trans (Pipeline.withArrays_arr spec4 launch4.win.arr_inj c _ ((dat4 (VE4 m (outsTo m 3)) c).arrAt · cfg4.N) 4))
theorem outs_12 (c : Dev nD) : OUTS m 12 main_v156 c = (dat5 (VE5 m (OUTS m)) c).arrAt 4 cfg5.N := by
  rw [VE5_outs m]
  exact (outsTo_lt m 0 5 (by decide) main_v156 c).trans ((outsTo_self m 4 main_v156 c).trans (Pipeline.withArrays_arr spec5 launch5.win.arr_inj c _ ((dat5 (VE5 m (outsTo m 4)) c).arrAt · cfg5.N) 4))

def pdats : (p : Fin 6) → (c : Dev nD) → Dat τ (Elt F) Unit ℕ (UR sig nD τ) ℕ (cfgs p) c
  | ⟨0, _⟩ => fun c => dat0 (VE0 m) c
  | ⟨1, _⟩ => fun c => dat1 (VE1 m (OUTS m)) c
  | ⟨2, _⟩ => fun c => dat2 (VE2 m (OUTS m)) c
  | ⟨3, _⟩ => fun c => dat3 (VE3 m (OUTS m)) c
  | ⟨4, _⟩ => fun c => dat4 (VE4 m (OUTS m)) c
  | ⟨5, _⟩ => fun c => dat5 (VE5 m (OUTS m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem pdats_plain : ∀ (p : Fin 6) (c : Dev nD), (∀ w, (pdats m p c).q w = fullShare) ∧ (∀ t, (pdats m p c).owed t = 0) ∧ (∀ x, x ∈ (pdats m p c).recorded 0)
      ∧ (pdats m p c).Φ 0 = Pipeline.ΦA (cfgs p).spec c ∧ (pdats m p c).Φ (Fin.last _) = Pipeline.ΦA (cfgs p).spec c
  | ⟨0, _⟩, _ | ⟨1, _⟩, _ | ⟨2, _⟩, _ | ⟨3, _⟩, _ | ⟨4, _⟩, _ | ⟨5, _⟩, _ => ⟨fun _ => rfl, fun _ => rfl, fun _ => trivial, rfl, rfl⟩

set_option backward.isDefEq.respectTransparency.types false in
def regionSegOf (p : Fin 6) (lf : Pipeline.LaunchFacts (nD := nD) (τ := τ) cfgs p) (Vi Vo : Dev nD → Valuation τ sig (Elt F)) (o : Fin (cfgs p).W)
    (hb : ∀ c, Pipeline.BodyObligationLoose (pdats m p c) defs₀ 𝒱₀ () Set.univ)
    (hA : ∀ c w, (pdats m p c).A w = Vi c (Proc.devRef .tc (Pipeline.arrRef (cfgs p).spec w)))
    (hin : ∀ w, w ≠ o → ((cfgs p).win w).isOut = false)
    (hVo : ∀ c, Vo c = Function.update (Vi c) (Proc.devRef .tc (Pipeline.arrRef (cfgs p).spec o)) ((pdats m p c).arrAt o (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p fun c => (pdats_plain m p c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    rw [Pipeline.ownSems0_none]
    have hsplit := Pipeline.arrays_of_unscopedBufs (p := p) (pcfgs (F := F)) adm (pdats m) lf.win lf.arr_whole c
      ((pdats m p c).share_full (pdats_plain m p c).1) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_plain m p c).2.1]
      icases HO with ⟨%W, HO⟩; iexists W; isplitr; · ipureintro; exact fun x _ => Or.inl ((pdats_plain m p c).2.2.1 x)
      iexact HO
    isplitl [Hp]; · iexact Hp
    iexact Hrest
  hin c := by
    rw [(pdats_plain m p c).2.2.2.1]; unfold Pipeline.ΦA
    iintro ⟨Hp, -, Hr⟩
    isplitl [Hr]; · iexact Hr
    iexact Hp
  hout c := by
    rw [Pipeline.ownSems0_none, (pdats_plain m p c).2.2.2.2]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (fun b => Vi c b) (fun b => Vo c b) ((pdats m p c).arrAt · (cfgs p).N)
      (fun w => by
        show _ = Vo c _
        rw [hVo c]; by_cases h : w = o
        · rw [h]; exact (Function.update_self _ _ (Vi c)).symm
        · rw [Function.update_of_ne fun e => h (lf.win.arr_inj (Proc.devRef_injective _ e)), (pdats m p c).arrAt_in w (hin w h)]; exact hA c w)
      fun b hb => by
        show Vo c _ = _
        rw [hVo c]; exact Function.update_of_ne (fun e => hb (Finset.mem_image.mpr ⟨o, Finset.mem_univ _, (Proc.devRef_injective _ e).symm⟩)) _ _
    rw [Pipeline.unscopedBufs_held] at hjoin
    unfold Pipeline.Dat.owesAt Pipeline.owesWithin; rw [(pdats_plain m p c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regionSegOf m 0 launch0 (V1 m) (V2 m (OUTS m)) 4 (fun c => (body_obligation0 _ c).loose) (fun _ _ => rfl)
  (by decide) fun c => congrArg (Function.update (V1 m c) main_v33) (outs_2 m c)
def reg1 := regionSegOf m 1 launch1 (V3 m (OUTS m)) (V4 m (OUTS m)) 4 (fun c => (body_obligation1 _ c).loose) (fun _ _ => rfl)
  (by decide) fun c => congrArg (Function.update (V3 m (OUTS m) c) main_v54) (outs_4 m c)
def reg2 := regionSegOf m 2 launch2 (V5 m (OUTS m)) (V6 m (OUTS m)) 4 (fun c => (body_obligation2 _ c).loose) (fun _ _ => rfl)
  (by decide) fun c => congrArg (Function.update (V5 m (OUTS m) c) main_v75) (outs_6 m c)
def reg3 := regionSegOf m 3 launch3 (V7 m (OUTS m)) (V8 m (OUTS m)) 4 (fun c => (body_obligation3 _ c).loose) (fun _ _ => rfl)
  (by decide) fun c => congrArg (Function.update (V7 m (OUTS m) c) main_v96) (outs_8 m c)
def reg4 := regionSegOf m 4 launch4 (V9 m (OUTS m)) (V10 m (OUTS m)) 4 (fun c => (body_obligation4 _ c).loose) (fun _ _ => rfl)
  (by decide) fun c => congrArg (Function.update (V9 m (OUTS m) c) main_v135) (outs_10 m c)
def reg5 := regionSegOf m 5 launch5 (V11 m (OUTS m)) (V12 m (OUTS m)) 4 (fun c => (body_obligation5 _ c).loose) (fun _ _ => rfl)
  (by decide) fun c => congrArg (Function.update (V11 m (OUTS m) c) main_v156) (outs_12 m c)

abbrev E : Fin 7 → Dev nD → sProp 𝕄 := fun _ c => R c

theorem hu₀ (u : UR sig nD τ) : (ownU u : sProp 𝕄)
    ⊢ |={Set.univ}=> iprop(BI.own (emb₁ u) ∗ bigSep Finset.univ fun _ : Dev nD => (iprop(emp) : sProp 𝕄)) := by
  iintro Hu; imodintro
  isplitl [Hu]
  · iapply (show (ownU u : sProp 𝕄) ⊢ BI.own (emb₁ u) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem run_post (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = V13 m (OUTS m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (segs m (OUTS m) 𝒱₀ L lv E () (pdats m) (reg0 m) (reg1 m) (reg2 m) (reg3 m) (reg4 m) (reg5 m))
    (fun c Q => by
      rewrite [main_chain c, Seg.run_eq_chain,
        show (segs m (OUTS m) 𝒱₀ L lv E () (pdats m) (reg0 m) (reg1 m) (reg2 m) (reg3 m) (reg4 m) (reg5 m) c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()),
          StableHlo.seq hostOps6 ] from rfl]
      exact .rfl)
    (fun c => by simp only [segs, Seg.pipes_host, Seg.pipes_region, Seg.pipes_nil]; decide) 0 (fun _ _ => rfl) (fun _ => iprop(emp)) _ (hu₀ _)
    (T₀ := fun c => iprop(StableHlo.held (c : Thread nD τ) (Pipeline.ucRefs τ sig) (V0 m c) ∗ R c))
    (Tₙ := fun c => StableHlo.held (c : Thread nD τ) (Pipeline.ucRefs τ sig) (V13 m (OUTS m) c))
    (hch := fun c => ⟨.rfl, .rfl, .rfl, .rfl, .rfl, .rfl, .rfl, .rfl, .rfl, .rfl, .rfl, .rfl, .rfl, sep_mono .rfl (by iintro ⟨-, HO⟩; iexact HO)⟩)
    (hinit := Pipeline.initEach L lv fun c => ?_)
    (hfin := fun c s' => ?_) (hQ := hQ)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V13 m (OUTS m) c) s') $$ [Hh HSI]
    · isplitl [Hh] <;> iassumption
    icases Hr with ⟨%h, HSI⟩
    imodintro
    isplitr; · ipureintro; exact h
    iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem value_run (ρ : Dev nD → PrngReg) : θ_run defs (onTc (τ := τ) (main (F := F))) ⟨m, fun _ => 0, ρ⟩ (fun r => ∀ c : Dev nD,
      (∀ b ∈ Pipeline.ucRefs τ sig, r.2.mem (((c : Thread nD τ)).1, b) = V13 m (OUTS m) c b) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  run_post m ρ fun s h c =>
    have a := fun (r : Ref sig .tc) (hr : ¬ (Proc.devRef .tc r : DevRef τ sig).isScoped) {x} (e : V13 m (OUTS m) c (Proc.devRef .tc r) = x) => (h c _ (mem_uc r hr)).trans e
    ⟨h c, a _ (by decide) (V13_main_arg0 m _ c),
      a _ (by decide) (V13_main_arg1 m _ c),
      a _ (by decide) (V13_main_arg2 m _ c),
      a _ (by decide) (V13_main_arg3 m _ c),
      a _ (by decide) (V13_main_arg4 m _ c),
      a _ (by decide) (V13_main_arg5 m _ c),
      a _ (by decide) (V13_main_arg6 m _ c),
      a _ (by decide) (V13_main_arg7 m _ c),
      a _ (by decide) (V13_main_arg8 m _ c),
      a _ (by decide) (V13_main_arg9 m _ c),
      a _ (by decide) (V13_main_arg10 m _ c),
      a _ (by decide) (V13_main_arg11 m _ c),
      a _ (by decide) (V13_main_arg12 m _ c),
      a _ (by decide) (V13_main_arg13 m _ c),
      a _ (by decide) (V13_main_arg14 m _ c),
      a _ (by decide) (V13_main_arg15 m _ c),
      a _ (by decide) (V13_main_arg16 m _ c),
      a _ (by decide) (V13_main_arg17 m _ c),
      a _ (by decide) (V13_main_arg18 m _ c),
      a _ (by decide) (V13_main_arg19 m _ c),
      a _ (by decide) (V13_main_arg20 m _ c),
      a _ (by decide) (V13_main_arg21 m _ c),
      a _ (by decide) (V13_main_arg22 m _ c),
      a _ (by decide) (V13_main_arg23 m _ c),
      a _ (by decide) (V13_main_arg24 m _ c),
      a _ (by decide) (V13_main_arg25 m _ c),
      a _ (by decide) (V13_main_arg26 m _ c),
      a _ (by decide) (V13_main_arg27 m _ c),
      a _ (by decide) (V13_main_arg28 m _ c),
      a _ (by decide) (V13_main_arg29 m _ c)⟩

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs (onTc (τ := τ) (main (F := F))) ⟨m, fun _ => 0, ρ⟩).mono (fun _ h c => (h c).2) (value_run m ρ)

end Cert.Kernel.Gen

end
-- ==== Proof.Reg0.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_w : Rect S128x128 := Rect.unit (s := S128x128) ![0, 0] S128x128.size inb_S128x128_S128x128_0_0
abbrev r0_b : Rect S1x128 := Rect.unit (s := S1x128) ![0, 0] S1x128.size inb_S1x128_S1x128_0_0
abbrev r0_s0 : Rect S1000x512 := Rect.unit (s := S1000x512) ![0, 0] S1000x128.size inb_S1000x512_S1000x128_0_0
abbrev r0_s1 : Rect S1000x512 := Rect.unit (s := S1000x512) ![0, 128] S1000x128.size inb_S1000x512_S1000x128_0_128
abbrev r0_s2 : Rect S1000x512 := Rect.unit (s := S1000x512) ![0, 256] S1000x128.size inb_S1000x512_S1000x128_0_256
abbrev r0_s3 : Rect S1000x512 := Rect.unit (s := S1000x512) ![0, 384] S1000x128.size inb_S1000x512_S1000x128_0_384

def out0_4 (x0 : Vec F S1000x512 .f32) (x1 : Vec F S128x128 .bf16) (x2 : Vec F S128x128 .bf16) (x3 : Vec F S1x128 .f32) : Vec F S1000x512 .f32 :=
  View.canon [⟨r0_s3, k0_pay1 (k0_pay2 (View.ld x1 r0_w)) (k0_pay6 (View.ld x0 r0_s3)) (k0_pay7 (View.ld x2 r0_w) (View.ld x3 r0_b) (View.ld x0 r0_s0) (View.ld x0 r0_s1) (View.ld x0 r0_s2) (View.ld x0 r0_s3))⟩,
    ⟨r0_s2, k0_pay10 (View.ld x1 r0_w) (View.ld x2 r0_w) (View.ld x3 r0_b) (View.ld x0 r0_s0) (View.ld x0 r0_s1) (View.ld x0 r0_s2) (View.ld x0 r0_s3)⟩,
    ⟨r0_s1, k0_pay9 (View.ld x1 r0_w) (View.ld x2 r0_w) (View.ld x3 r0_b) (View.ld x0 r0_s0) (View.ld x0 r0_s1) (View.ld x0 r0_s2) (View.ld x0 r0_s3)⟩,
    ⟨r0_s0, k0_pay8 (View.ld x1 r0_w) (View.ld x2 r0_w) (View.ld x3 r0_b) (View.ld x0 r0_s0) (View.ld x0 r0_s1) (View.ld x0 r0_s2) (View.ld x0 r0_s3)⟩]

-- The slab stores tile the output block, so reading it back gives the canonical form of the list of stores.
set_option maxHeartbeats 4000000 in
theorem sound_kernel0 (i : grid0.Coords) (arg1 arg5 : Memref sig .tc .vmem S1000x512 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x512 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out0_4 x0 x1 x2 x3)) -∗ K ⟨⟩))
      ⊢ wp frame (wpE defs₀ Variants.none c none) Set.univ (cc0_autobahn_kernel i arg1 harg1 arg2 harg2 arg3 harg3 arg4 harg4 arg5 harg5) K := by
  simp only [cc0_autobahn_kernel_eq_skeleton, cc0_autobahn_kernel_skel, k0_part1_eq_skeleton, k0_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (w : Fin cfg0.W) : (dat0 V c).A w = V c (Pipeline.arrRef spec0 w) := by
  dsimp only [dat0]

theorem after0_4 (t : Fin cfg0.N) :
    (dat0 V c).after 4 t = out0_4 (iblk0 V c 0 t) (iblk0 V c 1 t) (iblk0 V c 2 t) (iblk0 V c 3 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d
theorem before0_2 (t : Fin cfg0.N) (d) : (dat0 V c).before 2 t d = iblk0 V c 2 t :=
  (dat0 V c).before_in_eq_fetched 2 rfl (fun _ => rfl) (fun _ _ _ => rfl) (fun _ => rfl) t d
theorem before0_3 (t : Fin cfg0.N) (d) : (dat0 V c).before 3 t d = iblk0 V c 3 t :=
  (dat0 V c).before_in_eq_fetched 3 rfl (fun _ => rfl) (fun _ _ _ => rfl) (fun _ => rfl) t d

-- The inputs hold their blocks of the arrays and are left as found; the output block is `out0_4` of them.
theorem body_obligation0 : BodyObligation (dat0 (F := F) V c) (defs₀ (F := F)) Variants.none () Set.univ := fun t => by
  simp only [bigSep_W0, before0_0, before0_1, before0_2, before0_3]
  dsimp only [dat0]
  iintro ⟨HΦ, Ho, ⟨%_, H0⟩, ⟨%_, H1⟩, ⟨%_, H2⟩, ⟨%_, H3⟩, %_, H4⟩
  iapply sound_kernel0 c _ _ _ _ _ _ _ _ _ _ _ (iblk0 V c 0 t) (iblk0 V c 1 t) (iblk0 V c 2 t) (iblk0 V c 3 t)
  iframe
  isplitl [H4]; · iexists _; iexact H4
  iintro ⟨H0, H1, H2, H3, H4⟩
  iframe
  iexact Ho

end Cert.KernelIdeal.Gen

end
-- ==== Proof.Reg1.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_s0 : Rect S1000x640 := Rect.unit (s := S1000x640) ![0, 0] S1000x128.size inb_S1000x640_S1000x128_0_0
abbrev r1_s1 : Rect S1000x640 := Rect.unit (s := S1000x640) ![0, 128] S1000x128.size inb_S1000x640_S1000x128_0_128
abbrev r1_s2 : Rect S1000x640 := Rect.unit (s := S1000x640) ![0, 256] S1000x128.size inb_S1000x640_S1000x128_0_256
abbrev r1_s3 : Rect S1000x640 := Rect.unit (s := S1000x640) ![0, 384] S1000x128.size inb_S1000x640_S1000x128_0_384
abbrev r1_s4 : Rect S1000x640 := Rect.unit (s := S1000x640) ![0, 512] S1000x128.size inb_S1000x640_S1000x128_0_512

def out1_4 (x0 : Vec F S1000x640 .f32) (x1 : Vec F S128x128 .bf16) (x2 : Vec F S128x128 .bf16) (x3 : Vec F S1x128 .f32) : Vec F S1000x640 .f32 :=
  View.canon [⟨r1_s4, k1_pay3 (k1_pay4 (View.ld x1 r1_w)) (k1_pay9 (View.ld x0 r1_s4)) (k1_pay10 (View.ld x2 r1_w) (View.ld x3 r1_b) (View.ld x0 r1_s0) (View.ld x0 r1_s1) (View.ld x0 r1_s2) (View.ld x0 r1_s3) (View.ld x0 r1_s4))⟩,
    ⟨r1_s3, k1_pay2 (k1_pay4 (View.ld x1 r1_w)) (k1_pay8 (View.ld x0 r1_s3)) (k1_pay10 (View.ld x2 r1_w) (View.ld x3 r1_b) (View.ld x0 r1_s0) (View.ld x0 r1_s1) (View.ld x0 r1_s2) (View.ld x0 r1_s3) (View.ld x0 r1_s4))⟩,
    ⟨r1_s2, k1_pay1 (k1_pay4 (View.ld x1 r1_w)) (k1_pay10 (View.ld x2 r1_w) (View.ld x3 r1_b) (View.ld x0 r1_s0) (View.ld x0 r1_s1) (View.ld x0 r1_s2) (View.ld x0 r1_s3) (View.ld x0 r1_s4)) (k1_pay13 (View.ld x0 r1_s2)) (constant S1000x128 .f32 0x00000000#32)⟩,
    ⟨r1_s1, k1_pay12 (View.ld x1 r1_w) (View.ld x2 r1_w) (View.ld x3 r1_b) (View.ld x0 r1_s0) (View.ld x0 r1_s1) (View.ld x0 r1_s2) (View.ld x0 r1_s3) (View.ld x0 r1_s4)⟩,
    ⟨r1_s0, k1_pay11 (View.ld x1 r1_w) (View.ld x2 r1_w) (View.ld x3 r1_b) (View.ld x0 r1_s0) (View.ld x0 r1_s1) (View.ld x0 r1_s2) (View.ld x0 r1_s3) (View.ld x0 r1_s4)⟩]

-- The slab stores tile the output block, so reading it back gives the canonical form of the list of stores.
set_option maxHeartbeats 4000000 in
theorem sound_kernel1 (i : grid1.Coords) (arg1 arg5 : Memref sig .tc .vmem S1000x640 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x640 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out1_4 x0 x1 x2 x3)) -∗ K ⟨⟩))
      ⊢ wp frame (wpE defs₀ Variants.none c none) Set.univ (cc1_autobahn_kernel i arg1 harg1 arg2 harg2 arg3 harg3 arg4 harg4 arg5 harg5) K := by
  simp only [cc1_autobahn_kernel_eq_skeleton, cc1_autobahn_kernel_skel, k1_part1_eq_skeleton, k1_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (w : Fin cfg1.W) : (dat1 V c).A w = V c (Pipeline.arrRef spec1 w) := by
  dsimp only [dat1]

theorem after1_4 (t : Fin cfg1.N) :
    (dat1 V c).after 4 t = out1_4 (iblk1 V c 0 t) (iblk1 V c 1 t) (iblk1 V c 2 t) (iblk1 V c 3 t) := by dsimp only [dat1]

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d
theorem before1_2 (t : Fin cfg1.N) (d) : (dat1 V c).before 2 t d = iblk1 V c 2 t :=
  (dat1 V c).before_in_eq_fetched 2 rfl (fun _ => rfl) (fun _ _ _ => rfl) (fun _ => rfl) t d
theorem before1_3 (t : Fin cfg1.N) (d) : (dat1 V c).before 3 t d = iblk1 V c 3 t :=
  (dat1 V c).before_in_eq_fetched 3 rfl (fun _ => rfl) (fun _ _ _ => rfl) (fun _ => rfl) t d

-- The inputs hold their blocks of the arrays and are left as found; the output block is `out1_4` of them.
theorem body_obligation1 : BodyObligation (dat1 (F := F) V c) (defs₀ (F := F)) Variants.none () Set.univ := fun t => by
  simp only [bigSep_W1, before1_0, before1_1, before1_2, before1_3]
  dsimp only [dat1]
  iintro ⟨HΦ, Ho, ⟨%_, H0⟩, ⟨%_, H1⟩, ⟨%_, H2⟩, ⟨%_, H3⟩, %_, H4⟩
  iapply sound_kernel1 c _ _ _ _ _ _ _ _ _ _ _ (iblk1 V c 0 t) (iblk1 V c 1 t) (iblk1 V c 2 t) (iblk1 V c 3 t)
  iframe
  isplitl [H4]; · iexists _; iexact H4
  iintro ⟨H0, H1, H2, H3, H4⟩
  iframe
  iexact Ho

end Cert.KernelIdeal.Gen

end
-- ==== Proof.Reg2.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_s0 : Rect S1000x768 := Rect.unit (s := S1000x768) ![0, 0] S1000x128.size inb_S1000x768_S1000x128_0_0
abbrev r2_s1 : Rect S1000x768 := Rect.unit (s := S1000x768) ![0, 128] S1000x128.size inb_S1000x768_S1000x128_0_128
abbrev r2_s2 : Rect S1000x768 := Rect.unit (s := S1000x768) ![0, 256] S1000x128.size inb_S1000x768_S1000x128_0_256
abbrev r2_s3 : Rect S1000x768 := Rect.unit (s := S1000x768) ![0, 384] S1000x128.size inb_S1000x768_S1000x128_0_384
abbrev r2_s4 : Rect S1000x768 := Rect.unit (s := S1000x768) ![0, 512] S1000x128.size inb_S1000x768_S1000x128_0_512
abbrev r2_s5 : Rect S1000x768 := Rect.unit (s := S1000x768) ![0, 640] S1000x128.size inb_S1000x768_S1000x128_0_640

def out2_4 (x0 : Vec F S1000x768 .f32) (x1 : Vec F S128x128 .bf16) (x2 : Vec F S128x128 .bf16) (x3 : Vec F S1x128 .f32) : Vec F S1000x768 .f32 :=
  View.canon [⟨r2_s5, k2_pay4 (k2_pay5 (View.ld x1 r2_w)) (k2_pay11 (View.ld x0 r2_s5)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s4, k2_pay3 (k2_pay5 (View.ld x1 r2_w)) (k2_pay10 (View.ld x0 r2_s4)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s3, k2_pay2 (k2_pay5 (View.ld x1 r2_w)) (k2_pay9 (View.ld x0 r2_s3)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s2, k2_pay1 (k2_pay5 (View.ld x1 r2_w)) (k2_pay8 (View.ld x0 r2_s2)) (k2_pay12 (View.ld x2 r2_w) (View.ld x3 r2_b) (View.ld x0 r2_s0) (View.ld x0 r2_s1) (View.ld x0 r2_s2) (View.ld x0 r2_s3) (View.ld x0 r2_s4) (View.ld x0 r2_s5))⟩,
    ⟨r2_s1, k2_pay14 (View.ld x1 r2_w) (View.ld x2 r2_w) (View.ld x3 r2_b) (View.ld x0 r2_s0) (View.ld x0 r2_s1) (View.ld x0 r2_s2) (View.ld x0 r2_s3) (View.ld x0 r2_s4) (View.ld x0 r2_s5)⟩,
    ⟨r2_s0, k2_pay13 (View.ld x1 r2_w) (View.ld x2 r2_w) (View.ld x3 r2_b) (View.ld x0 r2_s0) (View.ld x0 r2_s1) (View.ld x0 r2_s2) (View.ld x0 r2_s3) (View.ld x0 r2_s4) (View.ld x0 r2_s5)⟩]

-- The slab stores tile the output block, so reading it back gives the canonical form of the list of stores.
set_option maxHeartbeats 4000000 in
theorem sound_kernel2 (i : grid2.Coords) (arg1 arg5 : Memref sig .tc .vmem S1000x768 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x768 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out2_4 x0 x1 x2 x3)) -∗ K ⟨⟩))
      ⊢ wp frame (wpE defs₀ Variants.none c none) Set.univ (cc2_autobahn_kernel i arg1 harg1 arg2 harg2 arg3 harg3 arg4 harg4 arg5 harg5) K := by
  simp only [cc2_autobahn_kernel_eq_skeleton, cc2_autobahn_kernel_skel, k2_part1_eq_skeleton, k2_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (w : Fin cfg2.W) : (dat2 V c).A w = V c (Pipeline.arrRef spec2 w) := by
  dsimp only [dat2]

theorem after2_4 (t : Fin cfg2.N) :
    (dat2 V c).after 4 t = out2_4 (iblk2 V c 0 t) (iblk2 V c 1 t) (iblk2 V c 2 t) (iblk2 V c 3 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d
theorem before2_2 (t : Fin cfg2.N) (d) : (dat2 V c).before 2 t d = iblk2 V c 2 t :=
  (dat2 V c).before_in_eq_fetched 2 rfl (fun _ => rfl) (fun _ _ _ => rfl) (fun _ => rfl) t d
theorem before2_3 (t : Fin cfg2.N) (d) : (dat2 V c).before 3 t d = iblk2 V c 3 t :=
  (dat2 V c).before_in_eq_fetched 3 rfl (fun _ => rfl) (fun _ _ _ => rfl) (fun _ => rfl) t d

-- The inputs hold their blocks of the arrays and are left as found; the output block is `out2_4` of them.
theorem body_obligation2 : BodyObligation (dat2 (F := F) V c) (defs₀ (F := F)) Variants.none () Set.univ := fun t => by
  simp only [bigSep_W2, before2_0, before2_1, before2_2, before2_3]
  dsimp only [dat2]
  iintro ⟨HΦ, Ho, ⟨%_, H0⟩, ⟨%_, H1⟩, ⟨%_, H2⟩, ⟨%_, H3⟩, %_, H4⟩
  iapply sound_kernel2 c _ _ _ _ _ _ _ _ _ _ _ (iblk2 V c 0 t) (iblk2 V c 1 t) (iblk2 V c 2 t) (iblk2 V c 3 t)
  iframe
  isplitl [H4]; · iexists _; iexact H4
  iintro ⟨H0, H1, H2, H3, H4⟩
  iframe
  iexact Ho

end Cert.KernelIdeal.Gen

end
-- ==== Proof.Reg3.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_s0 : Rect S1000x896 := Rect.unit (s := S1000x896) ![0, 0] S1000x128.size inb_S1000x896_S1000x128_0_0
abbrev r3_s1 : Rect S1000x896 := Rect.unit (s := S1000x896) ![0, 128] S1000x128.size inb_S1000x896_S1000x128_0_128
abbrev r3_s2 : Rect S1000x896 := Rect.unit (s := S1000x896) ![0, 256] S1000x128.size inb_S1000x896_S1000x128_0_256
abbrev r3_s3 : Rect S1000x896 := Rect.unit (s := S1000x896) ![0, 384] S1000x128.size inb_S1000x896_S1000x128_0_384
abbrev r3_s4 : Rect S1000x896 := Rect.unit (s := S1000x896) ![0, 512] S1000x128.size inb_S1000x896_S1000x128_0_512
abbrev r3_s5 : Rect S1000x896 := Rect.unit (s := S1000x896) ![0, 640] S1000x128.size inb_S1000x896_S1000x128_0_640
abbrev r3_s6 : Rect S1000x896 := Rect.unit (s := S1000x896) ![0, 768] S1000x128.size inb_S1000x896_S1000x128_0_768

def out3_4 (x0 : Vec F S1000x896 .f32) (x1 : Vec F S128x128 .bf16) (x2 : Vec F S128x128 .bf16) (x3 : Vec F S1x128 .f32) : Vec F S1000x896 .f32 :=
  View.canon [⟨r3_s6, k3_pay6 (k3_pay7 (View.ld x1 r3_w)) (k3_pay14 (View.ld x0 r3_s6)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s5, k3_pay5 (k3_pay7 (View.ld x1 r3_w)) (k3_pay13 (View.ld x0 r3_s5)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s4, k3_pay4 (k3_pay7 (View.ld x1 r3_w)) (k3_pay12 (View.ld x0 r3_s4)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s3, k3_pay3 (k3_pay7 (View.ld x1 r3_w)) (k3_pay11 (View.ld x0 r3_s3)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s2, k3_pay2 (k3_pay7 (View.ld x1 r3_w)) (k3_pay10 (View.ld x0 r3_s2)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s1, k3_pay1 (k3_pay7 (View.ld x1 r3_w)) (k3_pay9 (View.ld x0 r3_s1)) (k3_pay15 (View.ld x2 r3_w) (View.ld x3 r3_b) (View.ld x0 r3_s0) (View.ld x0 r3_s1) (View.ld x0 r3_s2) (View.ld x0 r3_s3) (View.ld x0 r3_s4) (View.ld x0 r3_s5) (View.ld x0 r3_s6))⟩,
    ⟨r3_s0, k3_pay16 (View.ld x1 r3_w) (View.ld x2 r3_w) (View.ld x3 r3_b) (View.ld x0 r3_s0) (View.ld x0 r3_s1) (View.ld x0 r3_s2) (View.ld x0 r3_s3) (View.ld x0 r3_s4) (View.ld x0 r3_s5) (View.ld x0 r3_s6)⟩]

-- The slab stores tile the output block, so reading it back gives the canonical form of the list of stores.
set_option maxHeartbeats 4000000 in
theorem sound_kernel3 (i : grid3.Coords) (arg1 arg5 : Memref sig .tc .vmem S1000x896 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x896 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out3_4 x0 x1 x2 x3)) -∗ K ⟨⟩))
      ⊢ wp frame (wpE defs₀ Variants.none c none) Set.univ (cc3_autobahn_kernel i arg1 harg1 arg2 harg2 arg3 harg3 arg4 harg4 arg5 harg5) K := by
  simp only [cc3_autobahn_kernel_eq_skeleton, cc3_autobahn_kernel_skel, k3_part1_eq_skeleton, k3_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := by
  dsimp only [dat3]

theorem after3_4 (t : Fin cfg3.N) :
    (dat3 V c).after 4 t = out3_4 (iblk3 V c 0 t) (iblk3 V c 1 t) (iblk3 V c 2 t) (iblk3 V c 3 t) := by dsimp only [dat3]

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d
theorem before3_2 (t : Fin cfg3.N) (d) : (dat3 V c).before 2 t d = iblk3 V c 2 t :=
  (dat3 V c).before_in_eq_fetched 2 rfl (fun _ => rfl) (fun _ _ _ => rfl) (fun _ => rfl) t d
theorem before3_3 (t : Fin cfg3.N) (d) : (dat3 V c).before 3 t d = iblk3 V c 3 t :=
  (dat3 V c).before_in_eq_fetched 3 rfl (fun _ => rfl) (fun _ _ _ => rfl) (fun _ => rfl) t d

-- The inputs hold their blocks of the arrays and are left as found; the output block is `out3_4` of them.
theorem body_obligation3 : BodyObligation (dat3 (F := F) V c) (defs₀ (F := F)) Variants.none () Set.univ := fun t => by
  simp only [bigSep_W3, before3_0, before3_1, before3_2, before3_3]
  dsimp only [dat3]
  iintro ⟨HΦ, Ho, ⟨%_, H0⟩, ⟨%_, H1⟩, ⟨%_, H2⟩, ⟨%_, H3⟩, %_, H4⟩
  iapply sound_kernel3 c _ _ _ _ _ _ _ _ _ _ _ (iblk3 V c 0 t) (iblk3 V c 1 t) (iblk3 V c 2 t) (iblk3 V c 3 t)
  iframe
  isplitl [H4]; · iexists _; iexact H4
  iintro ⟨H0, H1, H2, H3, H4⟩
  iframe
  iexact Ho

end Cert.KernelIdeal.Gen

end
-- ==== Proof.Reg4.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_w : Rect S128x128 := Rect.unit (s := S128x128) ![0, 0] S128x128.size inb_S128x128_S128x128_0_0
abbrev r4_b : Rect S1x128 := Rect.unit (s := S1x128) ![0, 0] S1x128.size inb_S1x128_S1x128_0_0
abbrev r4_s0 : Rect S1000x640 := Rect.unit (s := S1000x640) ![0, 0] S1000x128.size inb_S1000x640_S1000x128_0_0
abbrev r4_s1 : Rect S1000x640 := Rect.unit (s := S1000x640) ![0, 128] S1000x128.size inb_S1000x640_S1000x128_0_128
abbrev r4_s2 : Rect S1000x640 := Rect.unit (s := S1000x640) ![0, 256] S1000x128.size inb_S1000x640_S1000x128_0_256
abbrev r4_s3 : Rect S1000x640 := Rect.unit (s := S1000x640) ![0, 384] S1000x128.size inb_S1000x640_S1000x128_0_384
abbrev r4_s4 : Rect S1000x640 := Rect.unit (s := S1000x640) ![0, 512] S1000x128.size inb_S1000x640_S1000x128_0_512

def out4_4 (x0 : Vec F S1000x640 .f32) (x1 : Vec F S128x128 .bf16) (x2 : Vec F S128x128 .bf16) (x3 : Vec F S1x128 .f32) : Vec F S1000x640 .f32 :=
  View.canon [⟨r4_s4, k4_pay3 (k4_pay4 (View.ld x1 r4_w)) (k4_pay9 (View.ld x0 r4_s4)) (k4_pay10 (View.ld x2 r4_w) (View.ld x3 r4_b) (View.ld x0 r4_s0) (View.ld x0 r4_s1) (View.ld x0 r4_s2) (View.ld x0 r4_s3) (View.ld x0 r4_s4))⟩,
    ⟨r4_s3, k4_pay2 (k4_pay4 (View.ld x1 r4_w)) (k4_pay8 (View.ld x0 r4_s3)) (k4_pay10 (View.ld x2 r4_w) (View.ld x3 r4_b) (View.ld x0 r4_s0) (View.ld x0 r4_s1) (View.ld x0 r4_s2) (View.ld x0 r4_s3) (View.ld x0 r4_s4))⟩,
    ⟨r4_s2, k4_pay1 (k4_pay4 (View.ld x1 r4_w)) (k4_pay10 (View.ld x2 r4_w) (View.ld x3 r4_b) (View.ld x0 r4_s0) (View.ld x0 r4_s1) (View.ld x0 r4_s2) (View.ld x0 r4_s3) (View.ld x0 r4_s4)) (k4_pay13 (View.ld x0 r4_s2)) (constant S1000x128 .f32 0x00000000#32)⟩,
    ⟨r4_s1, k4_pay12 (View.ld x1 r4_w) (View.ld x2 r4_w) (View.ld x3 r4_b) (View.ld x0 r4_s0) (View.ld x0 r4_s1) (View.ld x0 r4_s2) (View.ld x0 r4_s3) (View.ld x0 r4_s4)⟩,
    ⟨r4_s0, k4_pay11 (View.ld x1 r4_w) (View.ld x2 r4_w) (View.ld x3 r4_b) (View.ld x0 r4_s0) (View.ld x0 r4_s1) (View.ld x0 r4_s2) (View.ld x0 r4_s3) (View.ld x0 r4_s4)⟩]

-- The slab stores tile the output block, so reading it back gives the canonical form of the list of stores.
set_option maxHeartbeats 4000000 in
theorem sound_kernel4 (i : grid4.Coords) (arg1 arg5 : Memref sig .tc .vmem S1000x640 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x640 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out4_4 x0 x1 x2 x3)) -∗ K ⟨⟩))
      ⊢ wp frame (wpE defs₀ Variants.none c none) Set.univ (cc4_autobahn_kernel i arg1 harg1 arg2 harg2 arg3 harg3 arg4 harg4 arg5 harg5) K := by
  simp only [cc4_autobahn_kernel_eq_skeleton, cc4_autobahn_kernel_skel, k4_part1_eq_skeleton, k4_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (w : Fin cfg4.W) : (dat4 V c).A w = V c (Pipeline.arrRef spec4 w) := by
  dsimp only [dat4]

theorem after4_4 (t : Fin cfg4.N) :
    (dat4 V c).after 4 t = out4_4 (iblk4 V c 0 t) (iblk4 V c 1 t) (iblk4 V c 2 t) (iblk4 V c 3 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d
theorem before4_2 (t : Fin cfg4.N) (d) : (dat4 V c).before 2 t d = iblk4 V c 2 t :=
  (dat4 V c).before_in_eq_fetched 2 rfl (fun _ => rfl) (fun _ _ _ => rfl) (fun _ => rfl) t d
theorem before4_3 (t : Fin cfg4.N) (d) : (dat4 V c).before 3 t d = iblk4 V c 3 t :=
  (dat4 V c).before_in_eq_fetched 3 rfl (fun _ => rfl) (fun _ _ _ => rfl) (fun _ => rfl) t d

-- The inputs hold their blocks of the arrays and are left as found; the output block is `out4_4` of them.
theorem body_obligation4 : BodyObligation (dat4 (F := F) V c) (defs₀ (F := F)) Variants.none () Set.univ := fun t => by
  simp only [bigSep_W4, before4_0, before4_1, before4_2, before4_3]
  dsimp only [dat4]
  iintro ⟨HΦ, Ho, ⟨%_, H0⟩, ⟨%_, H1⟩, ⟨%_, H2⟩, ⟨%_, H3⟩, %_, H4⟩
  iapply sound_kernel4 c _ _ _ _ _ _ _ _ _ _ _ (iblk4 V c 0 t) (iblk4 V c 1 t) (iblk4 V c 2 t) (iblk4 V c 3 t)
  iframe
  isplitl [H4]; · iexists _; iexact H4
  iintro ⟨H0, H1, H2, H3, H4⟩
  iframe
  iexact Ho

end Cert.KernelIdeal.Gen

end
-- ==== Proof.Reg5.lean ====
import proofs.«413924_j50869592655534_3_alg».proof.Proof.Gen.KernelIdeal.Launch
import proofs.«413924_j50869592655534_3_alg».proof.Proof.Gen.KernelIdeal.Skeleton
import proofs.«413924_j50869592655534_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_w : Rect S128x128 := Rect.unit (s := S128x128) ![0, 0] S128x128.size inb_S128x128_S128x128_0_0
abbrev r5_b : Rect S1x128 := Rect.unit (s := S1x128) ![0, 0] S1x128.size inb_S1x128_S1x128_0_0
abbrev r5_s0 : Rect S1000x768 := Rect.unit (s := S1000x768) ![0, 0] S1000x128.size inb_S1000x768_S1000x128_0_0
abbrev r5_s1 : Rect S1000x768 := Rect.unit (s := S1000x768) ![0, 128] S1000x128.size inb_S1000x768_S1000x128_0_128
abbrev r5_s2 : Rect S1000x768 := Rect.unit (s := S1000x768) ![0, 256] S1000x128.size inb_S1000x768_S1000x128_0_256
abbrev r5_s3 : Rect S1000x768 := Rect.unit (s := S1000x768) ![0, 384] S1000x128.size inb_S1000x768_S1000x128_0_384
abbrev r5_s4 : Rect S1000x768 := Rect.unit (s := S1000x768) ![0, 512] S1000x128.size inb_S1000x768_S1000x128_0_512
abbrev r5_s5 : Rect S1000x768 := Rect.unit (s := S1000x768) ![0, 640] S1000x128.size inb_S1000x768_S1000x128_0_640

def out5_4 (x0 : Vec F S1000x768 .f32) (x1 : Vec F S128x128 .bf16) (x2 : Vec F S128x128 .bf16) (x3 : Vec F S1x128 .f32) : Vec F S1000x768 .f32 :=
  View.canon [⟨r5_s5, k5_pay4 (k5_pay5 (View.ld x1 r5_w)) (k5_pay11 (View.ld x0 r5_s5)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s4, k5_pay3 (k5_pay5 (View.ld x1 r5_w)) (k5_pay10 (View.ld x0 r5_s4)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s3, k5_pay2 (k5_pay5 (View.ld x1 r5_w)) (k5_pay9 (View.ld x0 r5_s3)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s2, k5_pay1 (k5_pay5 (View.ld x1 r5_w)) (k5_pay8 (View.ld x0 r5_s2)) (k5_pay12 (View.ld x2 r5_w) (View.ld x3 r5_b) (View.ld x0 r5_s0) (View.ld x0 r5_s1) (View.ld x0 r5_s2) (View.ld x0 r5_s3) (View.ld x0 r5_s4) (View.ld x0 r5_s5))⟩,
    ⟨r5_s1, k5_pay14 (View.ld x1 r5_w) (View.ld x2 r5_w) (View.ld x3 r5_b) (View.ld x0 r5_s0) (View.ld x0 r5_s1) (View.ld x0 r5_s2) (View.ld x0 r5_s3) (View.ld x0 r5_s4) (View.ld x0 r5_s5)⟩,
    ⟨r5_s0, k5_pay13 (View.ld x1 r5_w) (View.ld x2 r5_w) (View.ld x3 r5_b) (View.ld x0 r5_s0) (View.ld x0 r5_s1) (View.ld x0 r5_s2) (View.ld x0 r5_s3) (View.ld x0 r5_s4) (View.ld x0 r5_s5)⟩]

-- The slab stores tile the output block, so reading it back gives the canonical form of the list of stores.
set_option maxHeartbeats 4000000 in
theorem sound_kernel5 (i : grid5.Coords) (arg1 arg5 : Memref sig .tc .vmem S1000x768 .f32) (arg2 arg3 : Memref sig .tc .vmem S128x128 .bf16)
    (arg4 : Memref sig .tc .vmem S1x128 .f32) (harg1 : arg1.IsWhole) (harg2 : arg2.IsWhole) (harg3 : arg3.IsWhole) (harg4 : arg4.IsWhole) (harg5 : arg5.IsWhole)
    (x0 : Vec F S1000x768 .f32) (x1 x2 : Vec F S128x128 .bf16) (x3 : Vec F S1x128 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3
            ∗ owns c.tc arg5 fullShare (out5_4 x0 x1 x2 x3)) -∗ K ⟨⟩))
      ⊢ wp frame (wpE defs₀ Variants.none c none) Set.univ (cc5_autobahn_kernel i arg1 harg1 arg2 harg2 arg3 harg3 arg4 harg4 arg5 harg5) K := by
  simp only [cc5_autobahn_kernel_eq_skeleton, cc5_autobahn_kernel_skel, k5_part1_eq_skeleton, k5_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S1000x128.size (by rfl))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (w : Fin cfg5.W) : (dat5 V c).A w = V c (Pipeline.arrRef spec5 w) := by
  dsimp only [dat5]

theorem after5_4 (t : Fin cfg5.N) :
    (dat5 V c).after 4 t = out5_4 (iblk5 V c 0 t) (iblk5 V c 1 t) (iblk5 V c 2 t) (iblk5 V c 3 t) := by dsimp only [dat5]

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d
theorem before5_3 (t : Fin cfg5.N) (d) : (dat5 V c).before 3 t d = iblk5 V c 3 t :=
  (dat5 V c).before_in_eq_fetched 3 rfl (fun _ => rfl) (fun _ _ _ => rfl) (fun _ => rfl) t d

-- The inputs hold their blocks of the arrays and are left as found; the output block is `out5_4` of them.
theorem body_obligation5 : BodyObligation (dat5 (F := F) V c) (defs₀ (F := F)) Variants.none () Set.univ := fun t => by
  simp only [bigSep_W5, before5_0, before5_1, before5_2, before5_3]
  dsimp only [dat5]
  iintro ⟨HΦ, Ho, ⟨%_, H0⟩, ⟨%_, H1⟩, ⟨%_, H2⟩, ⟨%_, H3⟩, %_, H4⟩
  iapply sound_kernel5 c _ _ _ _ _ _ _ _ _ _ _ (iblk5 V c 0 t) (iblk5 V c 1 t) (iblk5 V c 2 t) (iblk5 V c 3 t)
  iframe
  isplitl [H4]; · iexists _; iexact H4
  iintro ⟨H0, H1, H2, H3, H4⟩
  iframe
  iexact Ho

end Cert.KernelIdeal.Gen

end
-- ==== Proof.RunK.lean ====
import proofs.«413924_j50869592655534_3_alg».proof.Proof.Gen.KernelIdeal.Regions
import proofs.«413924_j50869592655534_3_alg».proof.Proof.Reg0
import proofs.«413924_j50869592655534_3_alg».proof.Proof.Reg1
import proofs.«413924_j50869592655534_3_alg».proof.Proof.Reg2
import proofs.«413924_j50869592655534_3_alg».proof.Proof.Reg3
import proofs.«413924_j50869592655534_3_alg».proof.Proof.Reg4
import proofs.«413924_j50869592655534_3_alg».proof.Proof.Reg5

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VE0 : (c : Dev nD) → (b : Ref sig .tc) → Buf (Elt F) ((c : Thread nD τ).loc b) := fun c b => V1 m c b
abbrev VE1 (outs : Outs (F := F)) : (c : Dev nD) → (b : Ref sig .tc) → Buf (Elt F) ((c : Thread nD τ).loc b) := fun c b => V3 m outs c b
abbrev VE2 (outs : Outs (F := F)) : (c : Dev nD) → (b : Ref sig .tc) → Buf (Elt F) ((c : Thread nD τ).loc b) := fun c b => V5 m outs c b
abbrev VE3 (outs : Outs (F := F)) : (c : Dev nD) → (b : Ref sig .tc) → Buf (Elt F) ((c : Thread nD τ).loc b) := fun c b => V7 m outs c b
abbrev VE4 (outs : Outs (F := F)) : (c : Dev nD) → (b : Ref sig .tc) → Buf (Elt F) ((c : Thread nD τ).loc b) := fun c b => V9 m outs c b
abbrev VE5 (outs : Outs (F := F)) : (c : Dev nD) → (b : Ref sig .tc) → Buf (Elt F) ((c : Thread nD τ).loc b) := fun c b => V11 m outs c b

theorem V3_congr {o o' : Outs (F := F)} (c : Dev nD) (h : ∀ J < 4, ∀ r, o J r c = o' J r c) : V3 m o c = V3 m o' c := by
  unfold V3 V2; rw [h 2 (by decide)]
theorem V5_congr {o o' : Outs (F := F)} (c : Dev nD) (h : ∀ J < 6, ∀ r, o J r c = o' J r c) : V5 m o c = V5 m o' c := by
  unfold V5 V4; rw [V3_congr m c fun J hJ => h J (hJ.trans (by decide)), h 4 (by decide)]
theorem V7_congr {o o' : Outs (F := F)} (c : Dev nD) (h : ∀ J < 8, ∀ r, o J r c = o' J r c) : V7 m o c = V7 m o' c := by
  unfold V7 V6; rw [V5_congr m c fun J hJ => h J (hJ.trans (by decide)), h 6 (by decide)]
theorem V9_congr {o o' : Outs (F := F)} (c : Dev nD) (h : ∀ J < 10, ∀ r, o J r c = o' J r c) : V9 m o c = V9 m o' c := by
  unfold V9 V8; rw [V7_congr m c fun J hJ => h J (hJ.trans (by decide)), h 8 (by decide)]
theorem V11_congr {o o' : Outs (F := F)} (c : Dev nD) (h : ∀ J < 12, ∀ r, o J r c = o' J r c) : V11 m o c = V11 m o' c := by
  unfold V11 V10; rw [V9_congr m c fun J hJ => h J (hJ.trans (by decide)), h 10 (by decide)]

def regionOut : ℕ → Outs (F := F) → (r : Ref sig .tc) → (c : Dev nD) → Buf (Elt F) ((c : Thread nD τ).loc r)
  | 0, o, r, c => Pipeline.withArrays spec1 c (V3 m o c) ((dat1 (VE1 m o) c).arrAt · cfg1.N) (Proc.devRef .tc r)
  | 1, o, r, c => Pipeline.withArrays spec2 c (V5 m o c) ((dat2 (VE2 m o) c).arrAt · cfg2.N) (Proc.devRef .tc r)
  | 2, o, r, c => Pipeline.withArrays spec3 c (V7 m o c) ((dat3 (VE3 m o) c).arrAt · cfg3.N) (Proc.devRef .tc r)
  | 3, o, r, c => Pipeline.withArrays spec4 c (V9 m o c) ((dat4 (VE4 m o) c).arrAt · cfg4.N) (Proc.devRef .tc r)
  | 4, o, r, c => Pipeline.withArrays spec5 c (V11 m o c) ((dat5 (VE5 m o) c).arrAt · cfg5.N) (Proc.devRef .tc r)
  | _, o, r, c => o 0 r c

def outsTo : ℕ → Outs (F := F)
  | 0 => fun _ r c => Pipeline.withArrays spec0 c (V1 m c) ((dat0 (VE0 m) c).arrAt · cfg0.N) (Proc.devRef .tc r)
  | k + 1 => fun J r c => if J = 2 * k + 4 then regionOut m k (outsTo k) r c else outsTo k J r c
def OUTS : Outs (F := F) := outsTo m 5

theorem outsTo_succ {J k : ℕ} (h : J ≠ 2 * k + 4) (r : Ref sig .tc) (c : Dev nD) : outsTo m (k + 1) J r c = outsTo m k J r c :=
  if_neg h
theorem outsTo_self (k : ℕ) (r : Ref sig .tc) (c : Dev nD) : outsTo m (k + 1) (2 * k + 4) r c = regionOut m k (outsTo m k) r c :=
  if_pos rfl
-- a later level leaves the earlier items alone
theorem outsTo_lt {J : ℕ} (n k : ℕ) (h : J < 2 * k + 4) (r : Ref sig .tc) (c : Dev nD) : outsTo m (k + n) J r c = outsTo m k J r c := by
  induction n with
  | zero => rfl
  | succ n ih => exact (outsTo_succ m (k := k + n) (by omega) r c).trans ih

theorem VE1_outs : VE1 m (OUTS m) = VE1 m (outsTo m 0) :=
  funext fun c => funext fun _ => congrFun (V3_congr m c fun _ hJ r => outsTo_lt m 5 0 hJ r c) _
theorem VE2_outs : VE2 m (OUTS m) = VE2 m (outsTo m 1) :=
  funext fun c => funext fun _ => congrFun (V5_congr m c fun _ hJ r => outsTo_lt m 4 1 hJ r c) _
theorem VE3_outs : VE3 m (OUTS m) = VE3 m (outsTo m 2) :=
  funext fun c => funext fun _ => congrFun (V7_congr m c fun _ hJ r => outsTo_lt m 3 2 hJ r c) _
theorem VE4_outs : VE4 m (OUTS m) = VE4 m (outsTo m 3) :=
  funext fun c => funext fun _ => congrFun (V9_congr m c fun _ hJ r => outsTo_lt m 2 3 hJ r c) _
theorem VE5_outs : VE5 m (OUTS m) = VE5 m (outsTo m 4) :=
  funext fun c => funext fun _ => congrFun (V11_congr m c fun _ hJ r => outsTo_lt m 1 4 hJ r c) _

theorem outs_2 (c : Dev nD) : OUTS m 2 main_v33 c = (dat0 (VE0 m) c).arrAt 4 cfg0.N :=
  (outsTo_lt m 5 0 (by decide) main_v33 c).trans (Pipeline.withArrays_arr spec0 launch0.win.arr_inj c _ ((dat0 (VE0 m) c).arrAt · cfg0.N) 4)
theorem outs_4 (c : Dev nD) : OUTS m 4 main_v54 c = (dat1 (VE1 m (OUTS m)) c).arrAt 4 cfg1.N := by
  rw [VE1_outs m]
  exact (outsTo_lt m 4 1 (by decide) main_v54 c).trans ((outsTo_self m 0 main_v54 c).trans (Pipeline.withArrays_arr spec1 launch1.win.arr_inj c _ ((dat1 (VE1 m (outsTo m 0)) c).arrAt · cfg1.N) 4))
theorem outs_6 (c : Dev nD) : OUTS m 6 main_v75 c = (dat2 (VE2 m (OUTS m)) c).arrAt 4 cfg2.N := by
  rw [VE2_outs m]
  exact (outsTo_lt m 3 2 (by decide) main_v75 c).trans ((outsTo_self m 1 main_v75 c).trans (Pipeline.withArrays_arr spec2 launch2.win.arr_inj c _ ((dat2 (VE2 m (outsTo m 1)) c).arrAt · cfg2.N) 4))
theorem outs_8 (c : Dev nD) : OUTS m 8 main_v96 c = (dat3 (VE3 m (OUTS m)) c).arrAt 4 cfg3.N := by
  rw [VE3_outs m]
  exact (outsTo_lt m 2 3 (by decide) main_v96 c).trans ((outsTo_self m 2 main_v96 c).trans (Pipeline.withArrays_arr spec3 launch3.win.arr_inj c _ ((dat3 (VE3 m (outsTo m 2)) c).arrAt · cfg3.N) 4))
theorem outs_10 (c : Dev nD) : OUTS m 10 main_v135 c = (dat4 (VE4 m (OUTS m)) c).arrAt 4 cfg4.N := by
  rw [VE4_outs m]
  exact (outsTo_lt m 1 4 (by decide) main_v135 c).trans ((outsTo_self m 3 main_v135 c).trans (Pipeline.withArrays_arr spec4 launch4.win.arr_inj c _ ((dat4 (VE4 m (outsTo m 3)) c).arrAt · cfg4.N) 4))
theorem outs_12 (c : Dev nD) : OUTS m 12 main_v156 c = (dat5 (VE5 m (OUTS m)) c).arrAt 4 cfg5.N := by
  rw [VE5_outs m]
  exact (outsTo_lt m 0 5 (by decide) main_v156 c).trans ((outsTo_self m 4 main_v156 c).trans (Pipeline.withArrays_arr spec5 launch5.win.arr_inj c _ ((dat5 (VE5 m (outsTo m 4)) c).arrAt · cfg5.N) 4))

def pdats : (p : Fin 6) → (c : Dev nD) → Dat τ (Elt F) Unit ℕ (UR sig nD τ) ℕ (cfgs p) c
  | ⟨0, _⟩ => fun c => dat0 (VE0 m) c
  | ⟨1, _⟩ => fun c => dat1 (VE1 m (OUTS m)) c
  | ⟨2, _⟩ => fun c => dat2 (VE2 m (OUTS m)) c
  | ⟨3, _⟩ => fun c => dat3 (VE3 m (OUTS m)) c
  | ⟨4, _⟩ => fun c => dat4 (VE4 m (OUTS m)) c
  | ⟨5, _⟩ => fun c => dat5 (VE5 m (OUTS m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem pdats_plain : ∀ (p : Fin 6) (c : Dev nD), (∀ w, (pdats m p c).q w = fullShare) ∧ (∀ t, (pdats m p c).owed t = 0) ∧ (∀ x, x ∈ (pdats m p c).recorded 0)
      ∧ (pdats m p c).Φ 0 = Pipeline.ΦA (cfgs p).spec c ∧ (pdats m p c).Φ (Fin.last _) = Pipeline.ΦA (cfgs p).spec c
  | ⟨0, _⟩, _ | ⟨1, _⟩, _ | ⟨2, _⟩, _ | ⟨3, _⟩, _ | ⟨4, _⟩, _ | ⟨5, _⟩, _ => ⟨fun _ => rfl, fun _ => rfl, fun _ => trivial, rfl, rfl⟩

set_option backward.isDefEq.respectTransparency.types false in
def regionSegOf (p : Fin 6) (lf : Pipeline.LaunchFacts (nD := nD) (τ := τ) cfgs p) (Vi Vo : Dev nD → Valuation τ sig (Elt F)) (o : Fin (cfgs p).W)
    (hb : ∀ c, Pipeline.BodyObligationLoose (pdats m p c) defs₀ 𝒱₀ () Set.univ)
    (hA : ∀ c w, (pdats m p c).A w = Vi c (Proc.devRef .tc (Pipeline.arrRef (cfgs p).spec w)))
    (hin : ∀ w, w ≠ o → ((cfgs p).win w).isOut = false)
    (hVo : ∀ c, Vo c = Function.update (Vi c) (Proc.devRef .tc (Pipeline.arrRef (cfgs p).spec o)) ((pdats m p c).arrAt o (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p fun c => (pdats_plain m p c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (cfgs p).spec c fun b => Vi c b
  hentry c := by
    rw [Pipeline.ownSems0_none]
    have hsplit := Pipeline.arrays_of_unscopedBufs (p := p) (pcfgs (F := F)) adm (pdats m) lf.win lf.arr_whole c
      ((pdats m p c).share_full (pdats_plain m p c).1) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_plain m p c).2.1]
      icases HO with ⟨%W, HO⟩; iexists W; isplitr; · ipureintro; exact fun x _ => Or.inl ((pdats_plain m p c).2.2.1 x)
      iexact HO
    isplitl [Hp]; · iexact Hp
    iexact Hrest
  hin c := by
    rw [(pdats_plain m p c).2.2.2.1]; unfold Pipeline.ΦA
    iintro ⟨Hp, -, Hr⟩
    isplitl [Hr]; · iexact Hr
    iexact Hp
  hout c := by
    rw [Pipeline.ownSems0_none, (pdats_plain m p c).2.2.2.2]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (fun b => Vi c b) (fun b => Vo c b) ((pdats m p c).arrAt · (cfgs p).N)
      (fun w => by
        show _ = Vo c _
        rw [hVo c]; by_cases h : w = o
        · rw [h]; exact (Function.update_self _ _ (Vi c)).symm
        · rw [Function.update_of_ne fun e => h (lf.win.arr_inj (Proc.devRef_injective _ e)), (pdats m p c).arrAt_in w (hin w h)]; exact hA c w)
      fun b hb => by
        show Vo c _ = _
        rw [hVo c]; exact Function.update_of_ne (fun e => hb (Finset.mem_image.mpr ⟨o, Finset.mem_univ _, (Proc.devRef_injective _ e).symm⟩)) _ _
    rw [Pipeline.unscopedBufs_held] at hjoin
    unfold Pipeline.Dat.owesAt Pipeline.owesWithin; rw [(pdats_plain m p c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regionSegOf m 0 launch0 (V1 m) (V2 m (OUTS m)) 4 (fun c => (body_obligation0 _ c).loose) (fun _ _ => rfl)
  (by decide) fun c => congrArg (Function.update (V1 m c) main_v33) (outs_2 m c)
def reg1 := regionSegOf m 1 launch1 (V3 m (OUTS m)) (V4 m (OUTS m)) 4 (fun c => (body_obligation1 _ c).loose) (fun _ _ => rfl)
  (by decide) fun c => congrArg (Function.update (V3 m (OUTS m) c) main_v54) (outs_4 m c)
def reg2 := regionSegOf m 2 launch2 (V5 m (OUTS m)) (V6 m (OUTS m)) 4 (fun c => (body_obligation2 _ c).loose) (fun _ _ => rfl)
  (by decide) fun c => congrArg (Function.update (V5 m (OUTS m) c) main_v75) (outs_6 m c)
def reg3 := regionSegOf m 3 launch3 (V7 m (OUTS m)) (V8 m (OUTS m)) 4 (fun c => (body_obligation3 _ c).loose) (fun _ _ => rfl)
  (by decide) fun c => congrArg (Function.update (V7 m (OUTS m) c) main_v96) (outs_8 m c)
def reg4 := regionSegOf m 4 launch4 (V9 m (OUTS m)) (V10 m (OUTS m)) 4 (fun c => (body_obligation4 _ c).loose) (fun _ _ => rfl)
  (by decide) fun c => congrArg (Function.update (V9 m (OUTS m) c) main_v135) (outs_10 m c)
def reg5 := regionSegOf m 5 launch5 (V11 m (OUTS m)) (V12 m (OUTS m)) 4 (fun c => (body_obligation5 _ c).loose) (fun _ _ => rfl)
  (by decide) fun c => congrArg (Function.update (V11 m (OUTS m) c) main_v156) (outs_12 m c)

abbrev E : Fin 7 → Dev nD → sProp 𝕄 := fun _ c => R c

theorem hu₀ (u : UR sig nD τ) : (ownU u : sProp 𝕄)
    ⊢ |={Set.univ}=> iprop(BI.own (emb₁ u) ∗ bigSep Finset.univ fun _ : Dev nD => (iprop(emp) : sProp 𝕄)) := by
  iintro Hu; imodintro
  isplitl [Hu]
  · iapply (show (ownU u : sProp 𝕄) ⊢ BI.own (emb₁ u) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem run_post (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = V13 m (OUTS m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (segs m (OUTS m) 𝒱₀ L lv E () (pdats m) (reg0 m) (reg1 m) (reg2 m) (reg3 m) (reg4 m) (reg5 m))
    (fun c Q => by
      rewrite [main_chain c, Seg.run_eq_chain,
        show (segs m (OUTS m) 𝒱₀ L lv E () (pdats m) (reg0 m) (reg1 m) (reg2 m) (reg3 m) (reg4 m) (reg5 m) c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()),
          StableHlo.seq hostOps6 ] from rfl]
      exact .rfl)
    (fun c => by simp only [segs, Seg.pipes_host, Seg.pipes_region, Seg.pipes_nil]; decide) 0 (fun _ _ => rfl) (fun _ => iprop(emp)) _ (hu₀ _)
    (T₀ := fun c => iprop(StableHlo.held (c : Thread nD τ) (Pipeline.ucRefs τ sig) (V0 m c) ∗ R c))
    (Tₙ := fun c => StableHlo.held (c : Thread nD τ) (Pipeline.ucRefs τ sig) (V13 m (OUTS m) c))
    (hch := fun c => ⟨.rfl, .rfl, .rfl, .rfl, .rfl, .rfl, .rfl, .rfl, .rfl, .rfl, .rfl, .rfl, .rfl, sep_mono .rfl (by iintro ⟨-, HO⟩; iexact HO)⟩)
    (hinit := Pipeline.initEach L lv fun c => ?_)
    (hfin := fun c s' => ?_) (hQ := hQ)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V13 m (OUTS m) c) s') $$ [Hh HSI]
    · isplitl [Hh] <;> iassumption
    icases Hr with ⟨%h, HSI⟩
    imodintro
    isplitr; · ipureintro; exact h
    iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem value_run (ρ : Dev nD → PrngReg) : θ_run defs (onTc (τ := τ) (main (F := F))) ⟨m, fun _ => 0, ρ⟩ (fun r => ∀ c : Dev nD,
      (∀ b ∈ Pipeline.ucRefs τ sig, r.2.mem (((c : Thread nD τ)).1, b) = V13 m (OUTS m) c b) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  run_post m ρ fun s h c =>
    have a := fun (r : Ref sig .tc) (hr : ¬ (Proc.devRef .tc r : DevRef τ sig).isScoped) {x} (e : V13 m (OUTS m) c (Proc.devRef .tc r) = x) => (h c _ (mem_uc r hr)).trans e
    ⟨h c, a _ (by decide) (V13_main_arg0 m _ c),
      a _ (by decide) (V13_main_arg1 m _ c),
      a _ (by decide) (V13_main_arg2 m _ c),
      a _ (by decide) (V13_main_arg3 m _ c),
      a _ (by decide) (V13_main_arg4 m _ c),
      a _ (by decide) (V13_main_arg5 m _ c),
      a _ (by decide) (V13_main_arg6 m _ c),
      a _ (by decide) (V13_main_arg7 m _ c),
      a _ (by decide) (V13_main_arg8 m _ c),
      a _ (by decide) (V13_main_arg9 m _ c),
      a _ (by decide) (V13_main_arg10 m _ c),
      a _ (by decide) (V13_main_arg11 m _ c),
      a _ (by decide) (V13_main_arg12 m _ c),
      a _ (by decide) (V13_main_arg13 m _ c),
      a _ (by decide) (V13_main_arg14 m _ c),
      a _ (by decide) (V13_main_arg15 m _ c),
      a _ (by decide) (V13_main_arg16 m _ c),
      a _ (by decide) (V13_main_arg17 m _ c),
      a _ (by decide) (V13_main_arg18 m _ c),
      a _ (by decide) (V13_main_arg19 m _ c),
      a _ (by decide) (V13_main_arg20 m _ c),
      a _ (by decide) (V13_main_arg21 m _ c),
      a _ (by decide) (V13_main_arg22 m _ c),
      a _ (by decide) (V13_main_arg23 m _ c),
      a _ (by decide) (V13_main_arg24 m _ c),
      a _ (by decide) (V13_main_arg25 m _ c),
      a _ (by decide) (V13_main_arg26 m _ c),
      a _ (by decide) (V13_main_arg27 m _ c),
      a _ (by decide) (V13_main_arg28 m _ c),
      a _ (by decide) (V13_main_arg29 m _ c)⟩

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs (onTc (τ := τ) (main (F := F))) ⟨m, fun _ => 0, ρ⟩).mono (fun _ h c => (h c).2) (value_run m ρ)

end Cert.KernelIdeal.Gen

end
-- ==== Proof.LibScatterLand.lean ====
import Idealize.ShloMosaic.PureOps.Dims

namespace Idealize.ShloMosaic.ScatterLand

open Idealize.ShloMosaic

variable {s si u : Shape} (d : ScatterDims s si u)

-- An update lands where, on every axis, start plus window coordinate is the target's coordinate.
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hv := congrArg Fin.val (congrFun (Option.some.inj h) a)
      have := hh a
      simp only at hv
      omega
    · cases h
  · intro h
    rw [dif_pos fun a => by have := h a; have := (i a).isLt; omega]
    refine congrArg some (funext fun a => Fin.ext ?_)
    have := h a
    show (d.start j idx a + d.window j a).toNat = (i a).val
    omega

end Idealize.ShloMosaic.ScatterLand
-- ==== Proof.LibHostScatterAdd.lean ====
import Idealize.ShloMosaic.Lib.ValueIdx
import Idealize.ShloMosaic.PureOps.Ideal
import Idealize.ShloMosaic.PureOps.Ideal.Laws
import proofs.«413924_j50869592655534_3_alg».proof.Proof.LibScatterLand

noncomputable section

open scoped BigOperators

namespace Cert.RefValue

open Idealize.ShloMosaic Idealize.ShloMosaic.ValueIdx

theorem scatter_rows_lands {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (idx : IVec ⟨2, ![n, 1]⟩ w) (e : Fin n) (q : Fin C) (k : Fin N) (j : Fin C) :
    d.resultIdx? (ix2 e q) idx = some (ix2 k j)
      ↔ (idx (ix2 e (0 : Fin 1))).toInt = (k.val : Int) ∧ q = j := by
  obtain ⟨uw, ins, sdo, ivd, wf⟩ := d
  dsimp only at huw hins hmap hiv
  subst huw hins hmap hiv
  rw [ScatterLand.resultIdx?_eq_some_iff]
  have s0 : ScatterDims.start ⟨[1], [0], [0], 1, wf⟩ (ix2 e q) idx 0 + (ScatterDims.window ⟨[1], [0], [0], 1, wf⟩ (ix2 e q) 0 : Int) = (idx (ix2 e (0 : Fin 1))).toInt := by
    unfold ScatterDims.start ScatterDims.window
    rw [dif_pos (by simp), dif_neg (by simp [ScatterDims.sKept, Shape.kept]), Nat.cast_zero, add_zero]
    exact congrArg (fun X => (idx X).toInt) (funext fun b => match b with | ⟨0, _⟩ => rfl | ⟨1, _⟩ => rfl)
  have s1 : ScatterDims.start ⟨[1], [0], [0], 1, wf⟩ (ix2 e q) idx 1 + (ScatterDims.window ⟨[1], [0], [0], 1, wf⟩ (ix2 e q) 1 : Int) = (q.val : Int) := by
    unfold ScatterDims.start ScatterDims.window
    rw [dif_neg (by simp), dif_pos (by simp [ScatterDims.sKept, Shape.kept]), zero_add]
    rfl
  exact ⟨fun h => ⟨s0.symm.trans (h 0), Fin.ext (Int.ofNat_inj.mp (s1.symm.trans (h 1)))⟩,
    fun ⟨h0, hq⟩ a => match a with
      | ⟨0, _⟩ => s0.trans h0
      | ⟨1, _⟩ => s1.trans (congrArg (fun t : Fin C => (t.val : Int)) hq)⟩

-- An update row lands on (k, j) only through its own column j, so the inner sum over columns keeps one term.
theorem host_scatterAdd_rows_apply {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : FVec Ideal ⟨2, ![N, C]⟩ .f32) (idx : IVec ⟨2, ![n, 1]⟩ w) (upd : FVec Ideal ⟨2, ![n, C]⟩ .f32)
    (k : Fin N) (j : Fin C) :
    Host.scatterAdd (F := Ideal) d x idx upd (ix2 k j)
      = x (ix2 k j) + ∑ e : Fin n, if (idx (ix2 e (0 : Fin 1))).toInt = (k.val : Int) then upd (ix2 e j) else 0 := by
  show Ideal.hostScatterAdd d x idx upd (ix2 k j) = _
  unfold Ideal.hostScatterAdd
  refine congrArg (x (ix2 k j) + ·) ?_
  rw [Finset.sum_filter, sum_idx2]
  refine Finset.sum_congr rfl fun e _ => ?_
  rw [Finset.sum_congr rfl fun q _ => if_congr (scatter_rows_lands d huw hins hmap hiv idx e q k j) rfl rfl]
  by_cases hA : (idx (ix2 e (0 : Fin 1))).toInt = (k.val : Int)
  · rw [if_pos hA]
    simp only [hA, true_and]
    rw [Finset.sum_ite_eq' Finset.univ j (fun q => upd (ix2 e q)), if_pos (Finset.mem_univ j)]
  · rw [if_neg hA]
    exact Finset.sum_eq_zero fun q _ => if_neg fun h => hA h.1

end Cert.RefValue

end
-- ==== Proof.LayerMath.lean ====
import Idealize.ShloMosaic.PureOps.Ideal

noncomputable section

open scoped BigOperators

namespace Cert.Layer

def IsFin (x : EReal) : Prop := ∃ r : ℝ, x = (r : EReal)

theorem IsFin.zero : IsFin 0 := ⟨0, by simp⟩

theorem IsFin.add {x y : EReal} (hx : IsFin x) (hy : IsFin y) : IsFin (x + y) := by
  obtain ⟨r, rfl⟩ := hx
  obtain ⟨s, rfl⟩ := hy
  exact ⟨r + s, (EReal.coe_add r s).symm⟩

theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

-- A finite sum of reals is the real sum, seen in the extended reals.
theorem IsFin.sum {ι : Type*} (s : Finset ι) (f : ι → EReal) (h : ∀ i ∈ s, IsFin (f i)) : IsFin (∑ i ∈ s, f i) := by
  choose! r hr using (h : ∀ i ∈ s, ∃ r : ℝ, f i = r)
  exact ⟨∑ i ∈ s, r i, (Finset.sum_congr rfl hr).trans (coe_sum s r).symm⟩

theorem IsFin.ite {p : Prop} [Decidable p] {x y : EReal} (hx : IsFin x) (hy : IsFin y) : IsFin (if p then x else y) := by
  split <;> assumption

def lo (c : Fin 128) : Fin 256 := ⟨c.val, by omega⟩
def hi (c : Fin 128) : Fin 256 := ⟨128 + c.val, by omega⟩

variable {k : ℕ}

def wide (X : Fin k → Fin 128 → EReal) (j : Fin k) (c : Fin 256) : EReal :=
  if h : c.val < 128 then X j ⟨c.val, h⟩ else ∑ j', X j' ⟨c.val - 128, by omega⟩

def refRow (X : Fin k → Fin 128 → EReal) (wl wg : Fin 256 → Fin 128 → EReal) (b : Fin 128 → EReal)
    (j : Fin k) (d : Fin 128) : EReal :=
  ((∑ c : Fin 256, wide X j c * wl c d) + ∑ c : Fin 256, (∑ j', wide X j' c) * wg c d) + b d

def kerRow (X : Fin k → Fin 128 → EReal) (wl wg : Fin 256 → Fin 128 → EReal) (b : Fin 128 → EReal)
    (j : Fin k) (d : Fin 128) : EReal :=
  (∑ c : Fin 128, X j c * wl (lo c) d)
    + ((∑ c : Fin 128, (∑ j', X j' c) * ((wl (hi c) d + wg (lo c) d) + ((k : ℝ) : EReal) * wg (hi c) d)) + b d)

theorem sum_split {M : Type*} [AddCommMonoid M] (f : Fin 256 → M) :
    ∑ c : Fin 256, f c = (∑ c : Fin 128, f (lo c)) + ∑ c : Fin 128, f (hi c) :=
  Fin.sum_univ_add (a := 128) (b := 128) f

theorem wide_lo (X : Fin k → Fin 128 → EReal) (j : Fin k) (c : Fin 128) : wide X j (lo c) = X j c := by
  unfold wide lo
  rw [dif_pos c.isLt]

theorem wide_hi (X : Fin k → Fin 128 → EReal) (j : Fin k) (c : Fin 128) :
    wide X j (hi c) = ∑ j', X j' c := by
  unfold wide hi
  rw [dif_neg (by simp)]
  refine Finset.sum_congr rfl (fun j' _ => ?_)
  congr 1
  exact Fin.ext (by simp)

theorem ker_eq_ref (X : Fin k → Fin 128 → EReal) (wl wg : Fin 256 → Fin 128 → EReal) (b : Fin 128 → EReal)
    (hX : ∀ j c, IsFin (X j c)) (hwl : ∀ c d, IsFin (wl c d)) (hwg : ∀ c d, IsFin (wg c d))
    (j : Fin k) (d : Fin 128) :
    kerRow X wl wg b j d = refRow X wl wg b j d := by
  choose x hx using hX
  choose a ha using hwl
  choose g hg using hwg
  obtain rfl : X = fun j c => ((x j c : ℝ) : EReal) := by funext j c; exact hx j c
  obtain rfl : wl = fun c d => ((a c d : ℝ) : EReal) := by funext c d; exact ha c d
  obtain rfl : wg = fun c d => ((g c d : ℝ) : EReal) := by funext c d; exact hg c d
  unfold kerRow refRow
  rw [← add_assoc]
  refine congrArg (fun t => t + b d) ?_
  rw [sum_split (fun c => wide _ j c * _), sum_split (fun c => (∑ j', wide _ j' c) * _)]
  simp only [wide_lo, wide_hi]
  simp only [← coe_sum, ← EReal.coe_mul, ← EReal.coe_add]
  refine congrArg (fun t : ℝ => (t : EReal)) ?_
  simp only [Finset.sum_const, Finset.card_univ, Fintype.card_fin, nsmul_eq_mul]
  simp only [← Finset.sum_add_distrib]
  refine Finset.sum_congr rfl (fun c _ => ?_)
  ring

theorem sum4 (f : Fin 4 → EReal) : ∑ j, f j = ((f 0 + f 1) + f 2) + f 3 := Fin.sum_univ_four f

theorem sum5 (f : Fin 5 → EReal) : ∑ j, f j = (((f 0 + f 1) + f 2) + f 3) + f 4 := Fin.sum_univ_five f

theorem sum6 (f : Fin 6 → EReal) : ∑ j, f j = ((((f 0 + f 1) + f 2) + f 3) + f 4) + f 5 := Fin.sum_univ_six f

theorem sum7 (f : Fin 7 → EReal) : ∑ j, f j = (((((f 0 + f 1) + f 2) + f 3) + f 4) + f 5) + f 6 := Fin.sum_univ_seven f

def blockRow (X : Fin k → Fin 128 → EReal) (wt wc : Fin 128 → Fin 128 → EReal) (b : Fin 128 → EReal)
    (j : Fin k) (d : Fin 128) : EReal :=
  (∑ c : Fin 128, X j c * wt c d) + ((∑ c : Fin 128, (∑ j', X j' c) * wc c d) + b d)

theorem kerRow_eq_blockRow (X : Fin k → Fin 128 → EReal) (wl wg : Fin 256 → Fin 128 → EReal) (b : Fin 128 → EReal)
    (j : Fin k) (d : Fin 128) :
    kerRow X wl wg b j d
      = blockRow X (fun c d => wl (lo c) d) (fun c d => (wl (hi c) d + wg (lo c) d) + ((k : ℝ) : EReal) * wg (hi c) d) b j d := rfl

end Cert.Layer

end
-- ==== Proof.PoolEq.lean ====
import proofs.«413924_j50869592655534_3_alg».proof.KernelIdeal
import proofs.«413924_j50869592655534_3_alg».proof.ReferenceIdeal
import proofs.«413924_j50869592655534_3_alg».proof.Proof.LibHostScatterAdd
import proofs.«413924_j50869592655534_3_alg».proof.Proof.LayerMath
import Idealize.ShloMosaic.Lib.Pipeline.Value
import Idealize.ShloMosaic.Lib.ValueIdx

noncomputable section

open scoped BigOperators

namespace Cert.KernelIdeal.Pool

open Idealize.ShloMosaic Cert.KernelIdeal

variable [Facts]
open Facts₀ Facts

variable {F : FTy → Type} [FloatOps F]

def poolC (a5 : (⟨S10000x5x128, .f32⟩ : BufTy).Contents (Elt F)) (a6 : (⟨S10000x6x128, .f32⟩ : BufTy).Contents (Elt F)) (n5 : (⟨S10000x5, .i32⟩ : BufTy).Contents (Elt F)) (n6 : (⟨S10000x6, .i32⟩ : BufTy).Contents (Elt F)) : (⟨S50000x128, .f32⟩ : BufTy).Contents (Elt F) :=
  Host.scatterAdd scatter_S50000x128_S110000x1_S110000x128_1_0_0_1 (broadcastInDim S50000x128 ![] bcast_S_S50000x128 (constant S_ .f32 0x00000000#32)) (broadcastInDim S110000x1 ![0] bcast_S110000_S110000x1_0 (select (cmpi .slt (concatenate S110000 0 [⟨S50000, (shapeCast _ n5 shapeCasts_S10000x5_S50000)⟩, ⟨S60000, (shapeCast _ n6 shapeCasts_S10000x6_S60000)⟩] concatenates_S50000_S60000_S110000_d0) (broadcastInDim S110000 ![] bcast_S_S110000 (constantI S_ 32 0#32))) (addi (concatenate S110000 0 [⟨S50000, (shapeCast _ n5 shapeCasts_S10000x5_S50000)⟩, ⟨S60000, (shapeCast _ n6 shapeCasts_S10000x6_S60000)⟩] concatenates_S50000_S60000_S110000_d0) (broadcastInDim S110000 ![] bcast_S_S110000 (constantI S_ 32 50000#32))) (concatenate S110000 0 [⟨S50000, (shapeCast _ n5 shapeCasts_S10000x5_S50000)⟩, ⟨S60000, (shapeCast _ n6 shapeCasts_S10000x6_S60000)⟩] concatenates_S50000_S60000_S110000_d0))) (concatenate S110000x128 0 [⟨S50000x128, (shapeCast _ a5 shapeCasts_S10000x5x128_S50000x128)⟩, ⟨S60000x128, (shapeCast _ a6 shapeCasts_S10000x6x128_S60000x128)⟩] concatenates_S50000x128_S60000x128_S110000x128_d0)

def poolP (b4 : (⟨S15000x4x128, .f32⟩ : BufTy).Contents (Elt F)) (b5 : (⟨S15000x5x128, .f32⟩ : BufTy).Contents (Elt F)) (b6 : (⟨S15000x6x128, .f32⟩ : BufTy).Contents (Elt F)) (b7 : (⟨S15000x7x128, .f32⟩ : BufTy).Contents (Elt F)) (p4 : (⟨S15000x4, .i32⟩ : BufTy).Contents (Elt F)) (p5 : (⟨S15000x5, .i32⟩ : BufTy).Contents (Elt F)) (p6 : (⟨S15000x6, .i32⟩ : BufTy).Contents (Elt F)) (p7 : (⟨S15000x7, .i32⟩ : BufTy).Contents (Elt F)) : (⟨S50000x128, .f32⟩ : BufTy).Contents (Elt F) :=
  Host.scatterAdd scatter_S50000x128_S330000x1_S330000x128_1_0_0_1 (broadcastInDim S50000x128 ![] bcast_S_S50000x128 (constant S_ .f32 0x00000000#32)) (broadcastInDim S330000x1 ![0] bcast_S330000_S330000x1_0 (select (cmpi .slt (concatenate S330000 0 [⟨S60000, (shapeCast _ p4 shapeCasts_S15000x4_S60000)⟩, ⟨S75000, (shapeCast _ p5 shapeCasts_S15000x5_S75000)⟩, ⟨S90000, (shapeCast _ p6 shapeCasts_S15000x6_S90000)⟩, ⟨S105000, (shapeCast _ p7 shapeCasts_S15000x7_S105000)⟩] concatenates_S60000_S75000_S90000_S105000_S330000_d0) (broadcastInDim S330000 ![] bcast_S_S330000 (constantI S_ 32 0#32))) (addi (concatenate S330000 0 [⟨S60000, (shapeCast _ p4 shapeCasts_S15000x4_S60000)⟩, ⟨S75000, (shapeCast _ p5 shapeCasts_S15000x5_S75000)⟩, ⟨S90000, (shapeCast _ p6 shapeCasts_S15000x6_S90000)⟩, ⟨S105000, (shapeCast _ p7 shapeCasts_S15000x7_S105000)⟩] concatenates_S60000_S75000_S90000_S105000_S330000_d0) (broadcastInDim S330000 ![] bcast_S_S330000 (constantI S_ 32 50000#32))) (concatenate S330000 0 [⟨S60000, (shapeCast _ p4 shapeCasts_S15000x4_S60000)⟩, ⟨S75000, (shapeCast _ p5 shapeCasts_S15000x5_S75000)⟩, ⟨S90000, (shapeCast _ p6 shapeCasts_S15000x6_S90000)⟩, ⟨S105000, (shapeCast _ p7 shapeCasts_S15000x7_S105000)⟩] concatenates_S60000_S75000_S90000_S105000_S330000_d0))) (concatenate S330000x128 0 [⟨S60000x128, (shapeCast _ b4 shapeCasts_S15000x4x128_S60000x128)⟩, ⟨S75000x128, (shapeCast _ b5 shapeCasts_S15000x5x128_S75000x128)⟩, ⟨S90000x128, (shapeCast _ b6 shapeCasts_S15000x6x128_S90000x128)⟩, ⟨S105000x128, (shapeCast _ b7 shapeCasts_S15000x7x128_S105000x128)⟩] concatenates_S60000x128_S75000x128_S90000x128_S105000x128_S330000x128_d0)

end Cert.KernelIdeal.Pool

namespace Cert.ReferenceIdeal.Pool

open Idealize.ShloMosaic Cert.ReferenceIdeal

variable [Facts]
open Facts₀ Facts

variable {F : FTy → Type} [FloatOps F]

def poolC (a5 : (⟨S10000x5x128, .f32⟩ : BufTy).Contents (Elt F)) (a6 : (⟨S10000x6x128, .f32⟩ : BufTy).Contents (Elt F)) (n5 : (⟨S10000x5, .i32⟩ : BufTy).Contents (Elt F)) (n6 : (⟨S10000x6, .i32⟩ : BufTy).Contents (Elt F)) : (⟨S50000x128, .f32⟩ : BufTy).Contents (Elt F) :=
  (Host.scatterAdd scatter_S50000x128_S60000x1_S60000x128_1_0_0_1 (Host.scatterAdd scatter_S50000x128_S50000x1_S50000x128_1_0_0_1 (broadcastInDim S50000x128 ![] bcast_S_S50000x128 (constant S_ .f32 0x00000000#32)) (broadcastInDim S50000x1 ![0] bcast_S50000_S50000x1_0 (select (cmpi .slt (shapeCast _ n5 shapeCasts_S10000x5_S50000) (broadcastInDim S50000 ![] bcast_S_S50000 (constantI S_ 32 0#32))) (addi (shapeCast _ n5 shapeCasts_S10000x5_S50000) (broadcastInDim S50000 ![] bcast_S_S50000 (constantI S_ 32 50000#32))) (shapeCast _ n5 shapeCasts_S10000x5_S50000))) (shapeCast _ a5 shapeCasts_S10000x5x128_S50000x128)) (broadcastInDim S60000x1 ![0] bcast_S60000_S60000x1_0 (select (cmpi .slt (shapeCast _ n6 shapeCasts_S10000x6_S60000) (broadcastInDim S60000 ![] bcast_S_S60000 (constantI S_ 32 0#32))) (addi (shapeCast _ n6 shapeCasts_S10000x6_S60000) (broadcastInDim S60000 ![] bcast_S_S60000 (constantI S_ 32 50000#32))) (shapeCast _ n6 shapeCasts_S10000x6_S60000))) (shapeCast _ a6 shapeCasts_S10000x6x128_S60000x128))

def poolP (b4 : (⟨S15000x4x128, .f32⟩ : BufTy).Contents (Elt F)) (b5 : (⟨S15000x5x128, .f32⟩ : BufTy).Contents (Elt F)) (b6 : (⟨S15000x6x128, .f32⟩ : BufTy).Contents (Elt F)) (b7 : (⟨S15000x7x128, .f32⟩ : BufTy).Contents (Elt F)) (p4 : (⟨S15000x4, .i32⟩ : BufTy).Contents (Elt F)) (p5 : (⟨S15000x5, .i32⟩ : BufTy).Contents (Elt F)) (p6 : (⟨S15000x6, .i32⟩ : BufTy).Contents (Elt F)) (p7 : (⟨S15000x7, .i32⟩ : BufTy).Contents (Elt F)) : (⟨S50000x128, .f32⟩ : BufTy).Contents (Elt F) :=
  (Host.scatterAdd scatter_S50000x128_S105000x1_S105000x128_1_0_0_1 (Host.scatterAdd scatter_S50000x128_S90000x1_S90000x128_1_0_0_1 (Host.scatterAdd scatter_S50000x128_S75000x1_S75000x128_1_0_0_1 (Host.scatterAdd scatter_S50000x128_S60000x1_S60000x128_1_0_0_1 (broadcastInDim S50000x128 ![] bcast_S_S50000x128 (constant S_ .f32 0x00000000#32)) (broadcastInDim S60000x1 ![0] bcast_S60000_S60000x1_0 (select (cmpi .slt (shapeCast _ p4 shapeCasts_S15000x4_S60000) (broadcastInDim S60000 ![] bcast_S_S60000 (constantI S_ 32 0#32))) (addi (shapeCast _ p4 shapeCasts_S15000x4_S60000) (broadcastInDim S60000 ![] bcast_S_S60000 (constantI S_ 32 50000#32))) (shapeCast _ p4 shapeCasts_S15000x4_S60000))) (shapeCast _ b4 shapeCasts_S15000x4x128_S60000x128)) (broadcastInDim S75000x1 ![0] bcast_S75000_S75000x1_0 (select (cmpi .slt (shapeCast _ p5 shapeCasts_S15000x5_S75000) (broadcastInDim S75000 ![] bcast_S_S75000 (constantI S_ 32 0#32))) (addi (shapeCast _ p5 shapeCasts_S15000x5_S75000) (broadcastInDim S75000 ![] bcast_S_S75000 (constantI S_ 32 50000#32))) (shapeCast _ p5 shapeCasts_S15000x5_S75000))) (shapeCast _ b5 shapeCasts_S15000x5x128_S75000x128)) (broadcastInDim S90000x1 ![0] bcast_S90000_S90000x1_0 (select (cmpi .slt (shapeCast _ p6 shapeCasts_S15000x6_S90000) (broadcastInDim S90000 ![] bcast_S_S90000 (constantI S_ 32 0#32))) (addi (shapeCast _ p6 shapeCasts_S15000x6_S90000) (broadcastInDim S90000 ![] bcast_S_S90000 (constantI S_ 32 50000#32))) (shapeCast _ p6 shapeCasts_S15000x6_S90000))) (shapeCast _ b6 shapeCasts_S15000x6x128_S90000x128)) (broadcastInDim S105000x1 ![0] bcast_S105000_S105000x1_0 (select (cmpi .slt (shapeCast _ p7 shapeCasts_S15000x7_S105000) (broadcastInDim S105000 ![] bcast_S_S105000 (constantI S_ 32 0#32))) (addi (shapeCast _ p7 shapeCasts_S15000x7_S105000) (broadcastInDim S105000 ![] bcast_S_S105000 (constantI S_ 32 50000#32))) (shapeCast _ p7 shapeCasts_S15000x7_S105000))) (shapeCast _ b7 shapeCasts_S15000x7x128_S105000x128))

end Cert.ReferenceIdeal.Pool

namespace Cert.Pool

open Idealize.ShloMosaic Idealize.ShloMosaic.ValueIdx Cert.Layer Cert.RefValue

def wrap (w : BitVec 32) : BitVec 32 := Scalar.select (IntOp.cmpi .slt w 0#32) (IntOp.addi w 50000#32) w

theorem col_apply {n : Nat} (v : IVec ⟨1, ![n]⟩ 32)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2)) (e : Fin n) :
    broadcastInDim ⟨2, ![n, 1]⟩ (![0] : Fin 1 → Fin 2) hb1
        (select (cmpi .slt v (broadcastInDim ⟨1, ![n]⟩ (![] : Fin 0 → Fin 1) hb0 (constantI ⟨0, ![]⟩ 32 0#32)))
          (addi v (broadcastInDim ⟨1, ![n]⟩ (![] : Fin 0 → Fin 1) hb0 (constantI ⟨0, ![]⟩ 32 50000#32))) v) (ix2 e (0 : Fin 1))
      = wrap (v (ix1 e)) := by
  refine (broadcastInDim_apply _ hb1 _ _ (ix1 e) fun a => ?_).trans rfl
  match a with
  | ⟨0, _⟩ =>
    show e.val = if n = 1 then 0 else e.val
    have := e.isLt
    split <;> omega

-- Rows laid end to end: the updates of the last piece are summed apart from those of the pieces before it.
theorem peel {n1 n2 : Nat} {x y : EReal} {k : Int} {I : Fin (n1 + n2) → BitVec 32} {V : Fin (n1 + n2) → EReal}
    {I2 : Fin n2 → BitVec 32} {V2 : Fin n2 → EReal}
    (hI : ∀ e, I (Fin.natAdd n1 e) = I2 e) (hV : ∀ e, V (Fin.natAdd n1 e) = V2 e)
    (h : x + ∑ e : Fin n1, (if (I (Fin.castAdd n2 e)).toInt = k then V (Fin.castAdd n2 e) else 0) = y) :
    x + ∑ e, (if (I e).toInt = k then V e else 0) = y + ∑ e, if (I2 e).toInt = k then V2 e else 0 := by
  rw [Fin.sum_univ_add, ← add_assoc, h]
  simp only [hI, hV]

theorem concat_vec_piece {α : Type} {N : Nat} (xs : List ((s : Shape) × (s.Idx → α)))
    (h : Shape.Concatenates (xs.map (·.1)) ⟨1, ![N]⟩ (0 : Fin 1)) (k : Nat) (hk : k < xs.length) {m : Nat}
    (x : (⟨1, ![m]⟩ : Shape).Idx → α) (hxk : xs[k] = ⟨⟨1, ![m]⟩, x⟩) (pre : Nat)
    (hpre : (((xs.take k).map (·.1)).map fun s : Shape =>
      if h : s.rank = 1 then s.size ((0 : Fin 1).cast h.symm) else 0).sum = pre)
    (e : Fin m) (E : Fin N) (hE : pre + e.val = E.val) :
    concatenate ⟨1, ![N]⟩ (0 : Fin 1) xs h (ix1 E) = x (ix1 e) :=
  concatenate_apply_piece (t := ⟨1, ![N]⟩) (0 : Fin 1) xs h (ix1 E) k hk _ x hxk rfl pre hpre (ix1 e)
    (fun b hb => absurd (Subsingleton.elim _ _) hb) (by exact hE)

theorem concat_rows_piece {α : Type} {N C : Nat} (xs : List ((s : Shape) × (s.Idx → α)))
    (h : Shape.Concatenates (xs.map (·.1)) ⟨2, ![N, C]⟩ (0 : Fin 2)) (k : Nat) (hk : k < xs.length) {m : Nat}
    (x : (⟨2, ![m, C]⟩ : Shape).Idx → α) (hxk : xs[k] = ⟨⟨2, ![m, C]⟩, x⟩) (pre : Nat)
    (hpre : (((xs.take k).map (·.1)).map fun s : Shape =>
      if h : s.rank = 2 then s.size ((0 : Fin 2).cast h.symm) else 0).sum = pre)
    (e : Fin m) (E : Fin N) (hE : pre + e.val = E.val) (j : Fin C) :
    concatenate ⟨2, ![N, C]⟩ (0 : Fin 2) xs h (ix2 E j) = x (ix2 e j) :=
  concatenate_apply_piece (t := ⟨2, ![N, C]⟩) (0 : Fin 2) xs h (ix2 E j) k hk _ x hxk rfl pre hpre (ix2 e j)
    (fun b hb => by
      match b with
      | ⟨0, _⟩ => exact absurd rfl hb
      | ⟨1, _⟩ => rfl) (by exact hE)

theorem zero_table_isFin {s : Shape} (hb : (⟨0, ![]⟩ : Shape).BroadcastsInDim s (![] : Fin 0 → Fin s.rank)) (i : s.Idx) :
    IsFin (broadcastInDim s (![] : Fin 0 → Fin s.rank) hb (constant (F := Ideal) ⟨0, ![]⟩ .f32 0x00000000#32) i) := by
  show IsFin (Ideal.ofBits .f32 0x00000000#32)
  rw [Ideal.ofBits_zero_f32]
  exact IsFin.zero

theorem scatter_rows_isFin {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : FVec Ideal ⟨2, ![N, C]⟩ .f32) (idx : IVec ⟨2, ![n, 1]⟩ w) (upd : FVec Ideal ⟨2, ![n, C]⟩ .f32)
    (hx : ∀ i, IsFin (x i)) (hu : ∀ i, IsFin (upd i)) (i : (⟨2, ![N, C]⟩ : Shape).Idx) :
    IsFin (Host.scatterAdd (F := Ideal) d x idx upd i) := by
  obtain ⟨k, j, rfl⟩ : ∃ k j, i = ix2 k j := ⟨i 0, i 1, eq_ix2 i⟩
  rw [host_scatterAdd_rows_apply d huw hins hmap hiv]
  exact IsFin.add (hx _) (IsFin.sum _ _ fun e _ => IsFin.ite (hu _) IsFin.zero)

variable [Cert.KernelIdeal.Facts] [Cert.ReferenceIdeal.Facts]

theorem poolC_eq (a5 : FVec Ideal Cert.KernelIdeal.S10000x5x128 .f32) (a6 : FVec Ideal Cert.KernelIdeal.S10000x6x128 .f32)
    (n5 : IVec Cert.KernelIdeal.S10000x5 32) (n6 : IVec Cert.KernelIdeal.S10000x6 32) :
    Cert.KernelIdeal.Pool.poolC (F := Ideal) a5 a6 n5 n6 = Cert.ReferenceIdeal.Pool.poolC (F := Ideal) a5 a6 n5 n6 := by
  funext i
  obtain ⟨k, j, rfl⟩ : ∃ k j, i = ix2 k j := ⟨i 0, i 1, eq_ix2 i⟩
  unfold Cert.KernelIdeal.Pool.poolC Cert.ReferenceIdeal.Pool.poolC
  rw [host_scatterAdd_rows_apply Cert.KernelIdeal.scatter_S50000x128_S110000x1_S110000x128_1_0_0_1 rfl rfl rfl rfl,
    host_scatterAdd_rows_apply Cert.ReferenceIdeal.scatter_S50000x128_S60000x1_S60000x128_1_0_0_1 rfl rfl rfl rfl,
    host_scatterAdd_rows_apply Cert.ReferenceIdeal.scatter_S50000x128_S50000x1_S50000x128_1_0_0_1 rfl rfl rfl rfl]
  refine peel (n1 := 50000) (n2 := 60000) ?_ ?_ (peel (n1 := 0) (n2 := 50000) ?_ ?_ (by simp))
  · exact fun e => (col_apply _ _ _ _).trans
      ((congrArg wrap (concat_vec_piece _ _ 1 (by simp) _ rfl 50000 rfl e _ rfl)).trans (col_apply _ _ _ e).symm)
  · exact fun e => concat_rows_piece _ _ 1 (by simp) _ rfl 50000 rfl e _ rfl j
  · exact fun e => (col_apply _ _ _ _).trans
      ((congrArg wrap (concat_vec_piece _ _ 0 (by simp) _ rfl 0 rfl e _ rfl)).trans (col_apply _ _ _ e).symm)
  · exact fun e => concat_rows_piece _ _ 0 (by simp) _ rfl 0 rfl e _ rfl j

theorem poolP_eq (b4 : FVec Ideal Cert.KernelIdeal.S15000x4x128 .f32) (b5 : FVec Ideal Cert.KernelIdeal.S15000x5x128 .f32)
    (b6 : FVec Ideal Cert.KernelIdeal.S15000x6x128 .f32) (b7 : FVec Ideal Cert.KernelIdeal.S15000x7x128 .f32)
    (p4 : IVec Cert.KernelIdeal.S15000x4 32) (p5 : IVec Cert.KernelIdeal.S15000x5 32)
    (p6 : IVec Cert.KernelIdeal.S15000x6 32) (p7 : IVec Cert.KernelIdeal.S15000x7 32) :
    Cert.KernelIdeal.Pool.poolP (F := Ideal) b4 b5 b6 b7 p4 p5 p6 p7 = Cert.ReferenceIdeal.Pool.poolP (F := Ideal) b4 b5 b6 b7 p4 p5 p6 p7 := by
  funext i
  obtain ⟨k, j, rfl⟩ : ∃ k j, i = ix2 k j := ⟨i 0, i 1, eq_ix2 i⟩
  unfold Cert.KernelIdeal.Pool.poolP Cert.ReferenceIdeal.Pool.poolP
  rw [host_scatterAdd_rows_apply Cert.KernelIdeal.scatter_S50000x128_S330000x1_S330000x128_1_0_0_1 rfl rfl rfl rfl,
    host_scatterAdd_rows_apply Cert.ReferenceIdeal.scatter_S50000x128_S105000x1_S105000x128_1_0_0_1 rfl rfl rfl rfl,
    host_scatterAdd_rows_apply Cert.ReferenceIdeal.scatter_S50000x128_S90000x1_S90000x128_1_0_0_1 rfl rfl rfl rfl,
    host_scatterAdd_rows_apply Cert.ReferenceIdeal.scatter_S50000x128_S75000x1_S75000x128_1_0_0_1 rfl rfl rfl rfl,
    host_scatterAdd_rows_apply Cert.ReferenceIdeal.scatter_S50000x128_S60000x1_S60000x128_1_0_0_1 rfl rfl rfl rfl]
  refine peel (n1 := 60000 + 75000 + 90000) (n2 := 105000) ?_ ?_
    (peel (n1 := 60000 + 75000) (n2 := 90000) ?_ ?_
      (peel (n1 := 60000) (n2 := 75000) ?_ ?_ (peel (n1 := 0) (n2 := 60000) ?_ ?_ (by simp))))
  · exact fun e => (col_apply _ _ _ _).trans
      ((congrArg wrap (concat_vec_piece _ _ 3 (by simp) _ rfl (60000 + 75000 + 90000) rfl e _ rfl)).trans (col_apply _ _ _ e).symm)
  · exact fun e => concat_rows_piece _ _ 3 (by simp) _ rfl (60000 + 75000 + 90000) rfl e _ rfl j
  · exact fun e => (col_apply _ _ _ _).trans
      ((congrArg wrap (concat_vec_piece _ _ 2 (by simp) _ rfl (60000 + 75000) rfl e _ rfl)).trans (col_apply _ _ _ e).symm)
  · exact fun e => concat_rows_piece _ _ 2 (by simp) _ rfl (60000 + 75000) rfl e _ rfl j
  · exact fun e => (col_apply _ _ _ _).trans
      ((congrArg wrap (concat_vec_piece _ _ 1 (by simp) _ rfl 60000 rfl e _ rfl)).trans (col_apply _ _ _ e).symm)
  · exact fun e => concat_rows_piece _ _ 1 (by simp) _ rfl 60000 rfl e _ rfl j
  · exact fun e => (col_apply _ _ _ _).trans
      ((congrArg wrap (concat_vec_piece _ _ 0 (by simp) _ rfl 0 rfl e _ rfl)).trans (col_apply _ _ _ e).symm)
  · exact fun e => concat_rows_piece _ _ 0 (by simp) _ rfl 0 rfl e _ rfl j

theorem poolC_fin (a5 : FVec Ideal Cert.ReferenceIdeal.S10000x5x128 .f32) (a6 : FVec Ideal Cert.ReferenceIdeal.S10000x6x128 .f32)
    (n5 : IVec Cert.ReferenceIdeal.S10000x5 32) (n6 : IVec Cert.ReferenceIdeal.S10000x6 32)
    (h5 : ∀ i, IsFin (a5 i)) (h6 : ∀ i, IsFin (a6 i)) (i : Cert.ReferenceIdeal.S50000x128.Idx) :
    IsFin (Cert.ReferenceIdeal.Pool.poolC (F := Ideal) a5 a6 n5 n6 i) := by
  unfold Cert.ReferenceIdeal.Pool.poolC
  exact scatter_rows_isFin Cert.ReferenceIdeal.scatter_S50000x128_S60000x1_S60000x128_1_0_0_1 rfl rfl rfl rfl _ _ _
    (scatter_rows_isFin Cert.ReferenceIdeal.scatter_S50000x128_S50000x1_S50000x128_1_0_0_1 rfl rfl rfl rfl _ _ _
      (zero_table_isFin _) (fun _ => h5 _))
    (fun _ => h6 _) i

theorem poolP_fin (b4 : FVec Ideal Cert.ReferenceIdeal.S15000x4x128 .f32) (b5 : FVec Ideal Cert.ReferenceIdeal.S15000x5x128 .f32)
    (b6 : FVec Ideal Cert.ReferenceIdeal.S15000x6x128 .f32) (b7 : FVec Ideal Cert.ReferenceIdeal.S15000x7x128 .f32)
    (p4 : IVec Cert.ReferenceIdeal.S15000x4 32) (p5 : IVec Cert.ReferenceIdeal.S15000x5 32)
    (p6 : IVec Cert.ReferenceIdeal.S15000x6 32) (p7 : IVec Cert.ReferenceIdeal.S15000x7 32)
    (h4 : ∀ i, IsFin (b4 i)) (h5 : ∀ i, IsFin (b5 i)) (h6 : ∀ i, IsFin (b6 i)) (h7 : ∀ i, IsFin (b7 i))
    (i : Cert.ReferenceIdeal.S50000x128.Idx) :
    IsFin (Cert.ReferenceIdeal.Pool.poolP (F := Ideal) b4 b5 b6 b7 p4 p5 p6 p7 i) := by
  unfold Cert.ReferenceIdeal.Pool.poolP
  exact scatter_rows_isFin Cert.ReferenceIdeal.scatter_S50000x128_S105000x1_S105000x128_1_0_0_1 rfl rfl rfl rfl _ _ _
    (scatter_rows_isFin Cert.ReferenceIdeal.scatter_S50000x128_S90000x1_S90000x128_1_0_0_1 rfl rfl rfl rfl _ _ _
      (scatter_rows_isFin Cert.ReferenceIdeal.scatter_S50000x128_S75000x1_S75000x128_1_0_0_1 rfl rfl rfl rfl _ _ _
        (scatter_rows_isFin Cert.ReferenceIdeal.scatter_S50000x128_S60000x1_S60000x128_1_0_0_1 rfl rfl rfl rfl _ _ _
          (zero_table_isFin _) (fun _ => h4 _))
        (fun _ => h5 _))
      (fun _ => h6 _))
    (fun _ => h7 _) i

end Cert.Pool

end
-- ==== Proof.RefRead.lean ====
import proofs.«413924_j50869592655534_3_alg».proof.Proof.Gen.ReferenceIdeal.Run
import proofs.«413924_j50869592655534_3_alg».proof.Proof.PoolEq
import proofs.«413924_j50869592655534_3_alg».proof.Proof.LayerMath
import Idealize.ShloMosaic.Lib.ValueIdx
import Idealize.ShloMosaic.Lib.Pipeline.Value
import Idealize.ShloMosaic.PureOps.Ideal.Laws
import Idealize.ShloMosaic.Lib.IdealHost
import Idealize.ShloMosaic.Lib.StackMember

noncomputable section

namespace Cert.ReferenceIdeal.RefValue

open Cert.ReferenceIdeal Cert.ReferenceIdeal.Value Idealize.ShloMosaic Idealize.ShloMosaic.ValueIdx
open Idealize.ShloMosaic.TcCoe Idealize.SL.Sem Idealize.ShloMosaic.StableHlo

section Generic
variable {N K C D : Nat}

theorem dot3_apply (w : DotDims.WF ⟨3, ![N, K, C]⟩ ⟨2, ![C, D]⟩ ⟨3, ![N, K, D]⟩ [2] [0] [0, 1] [1] [] [])
    (prec : Option ContractPrecision) (A : FVec Ideal ⟨3, ![N, K, C]⟩ .f32) (B : FVec Ideal ⟨2, ![C, D]⟩ .f32)
    (r : Fin N) (j : Fin K) (d : Fin D) :
    Host.dotGeneral (⟨[2], [0], [0, 1], [1], [], [], w⟩ : DotDims _ _ _) prec A B (ix3 r j d)
      = ∑ c : Fin C, A (ix3 r j c) * B (ix2 c d) := by
  show FloatOps.dotGeneral _ prec _ A B (ix3 r j d) = _
  rw [Ideal.dotGeneral_apply,
    ← Equiv.sum_comp (contrEquiv1 (⟨[2], [0], [0, 1], [1], [], [], w⟩ : DotDims _ _ _) C rfl rfl).symm]
  refine Finset.sum_congr rfl fun c _ => ?_
  have cv := contrEquiv1_symm_val
    (⟨[2], [0], [0, 1], [1], [], [], w⟩ : DotDims ⟨3, ![N, K, C]⟩ ⟨2, ![C, D]⟩ ⟨3, ![N, K, D]⟩) C rfl rfl c
  congr 2 <;> funext ax <;> apply Fin.ext
  · match ax with
    | ⟨0, _⟩ => simp [DotDims.lhsIdx]; rfl
    | ⟨1, _⟩ => simp [DotDims.lhsIdx]; rfl
    | ⟨2, _⟩ => simp [DotDims.lhsIdx]; exact cv
  · match ax with
    | ⟨0, _⟩ => simp [DotDims.rhsIdx]; exact cv
    | ⟨1, _⟩ => simp [DotDims.rhsIdx]; rfl

theorem reduceMid_apply (h' : (⟨3, ![N, K, C]⟩ : Shape).ReducesTo [1] ⟨2, ![N, C]⟩) (hu : 0 < (⟨0, ![]⟩ : Shape).numel)
    (X : FVec Ideal ⟨3, ![N, K, C]⟩ .f32) (r : Fin N) (c : Fin C) :
    Host.reduceAdd X (constant ⟨0, ![]⟩ .f32 0x00000000#32) h' hu (ix2 r c) = ∑ j : Fin K, X (ix3 r j c) := by
  have h : (⟨3, ![N, K, C]⟩ : Shape).Reduces [1] ⟨2, ![N, C]⟩ := ⟨h'.1, Nat.two_pos, h'.2⟩
  rw [hostReduceAdd_apply, Ideal.hostReduceAdd_single h' h, constant_apply, Ideal.ofBits_zero_f32, zero_add]
  refine Finset.sum_congr rfl fun k _ => congrArg X ?_
  funext ax; apply Fin.ext
  match ax with
  | ⟨0, _⟩ => rfl
  | ⟨1, _⟩ => rfl
  | ⟨2, _⟩ => rfl

-- On an axis of size one the only coordinate is 0.
theorem bval {n : Nat} (c : Fin n) : c.val = if n = 1 then 0 else c.val := by
  split
  · have := c.isLt; omega
  · rfl

variable {F : FTy → Type} [FloatOps F]
  (w3 : DotDims.WF ⟨3, ![N, K, 256]⟩ ⟨2, ![256, 128]⟩ ⟨3, ![N, K, 128]⟩ [2] [0] [0, 1] [1] [] [])
  (hc : Shape.Concatenates [(⟨3, ![N, K, 128]⟩ : Shape), ⟨3, ![N, K, 128]⟩] ⟨3, ![N, K, 256]⟩ 2)
  (hr1 : (⟨3, ![N, K, 128]⟩ : Shape).ReducesTo [1] ⟨2, ![N, 128]⟩)
  (hr2 : (⟨3, ![N, K, 256]⟩ : Shape).ReducesTo [1] ⟨2, ![N, 256]⟩)
  (hu : 0 < (⟨0, ![]⟩ : Shape).numel)
  (b1 : (⟨2, ![N, 128]⟩ : Shape).BroadcastsInDim ⟨3, ![N, 1, 128]⟩ ![0, 2])
  (b2 : (⟨3, ![N, 1, 128]⟩ : Shape).BroadcastsInDim ⟨3, ![N, K, 128]⟩ ![0, 1, 2])
  (b3 : (⟨1, ![128]⟩ : Shape).BroadcastsInDim ⟨3, ![1, 1, 128]⟩ ![2])
  (b4 : (⟨3, ![1, 1, 128]⟩ : Shape).BroadcastsInDim ⟨3, ![N, K, 128]⟩ ![0, 1, 2])

theorem bcastMid_apply {α : Type} (Y : (⟨2, ![N, 128]⟩ : Shape).Idx → α) (r : Fin N) (j : Fin K) (c : Fin 128) :
    broadcastInDim ⟨3, ![N, K, 128]⟩ ![0, 1, 2] b2 (broadcastInDim ⟨3, ![N, 1, 128]⟩ ![0, 2] b1 Y) (ix3 r j c) = Y (ix2 r c) := by
  rw [broadcastInDim_apply ![0, 1, 2] b2 _ (ix3 r j c) (ix3 r (0 : Fin 1) c) (by
      intro a
      match a with
      | ⟨0, _⟩ => exact bval r
      | ⟨1, _⟩ => rfl
      | ⟨2, _⟩ => rfl),
    broadcastInDim_apply ![0, 2] b1 Y (ix3 r (0 : Fin 1) c) (ix2 r c) (by
      intro a
      match a with
      | ⟨0, _⟩ => exact bval r
      | ⟨1, _⟩ => rfl)]

theorem bcastBias_apply {α : Type} (v : (⟨1, ![128]⟩ : Shape).Idx → α) (r : Fin N) (j : Fin K) (c : Fin 128) :
    broadcastInDim ⟨3, ![N, K, 128]⟩ ![0, 1, 2] b4 (broadcastInDim ⟨3, ![1, 1, 128]⟩ ![2] b3 v) (ix3 r j c) = v (ix1 c) := by
  rw [broadcastInDim_apply ![0, 1, 2] b4 _ (ix3 r j c) (ix3 (0 : Fin 1) (0 : Fin 1) c) (by
      intro a
      match a with
      | ⟨0, _⟩ => rfl
      | ⟨1, _⟩ => rfl
      | ⟨2, _⟩ => rfl),
    broadcastInDim_apply ![2] b3 v (ix3 (0 : Fin 1) (0 : Fin 1) c) (ix1 c) (by
      intro a
      match a with
      | ⟨0, _⟩ => rfl)]

theorem cat_apply {α : Type} (X Y : (⟨3, ![N, K, 128]⟩ : Shape).Idx → α) (r : Fin N) (j : Fin K) (c : Fin 256) :
    concatenate ⟨3, ![N, K, 256]⟩ 2 [⟨⟨3, ![N, K, 128]⟩, X⟩, ⟨⟨3, ![N, K, 128]⟩, Y⟩] hc (ix3 r j c)
      = if h : c.val < 128 then X (ix3 r j ⟨c.val, h⟩) else Y (ix3 r j ⟨c.val - 128, by omega⟩) := by
  split
  · next h =>
    exact concatenate_pair_apply_left 2 X Y hc (ix3 r j c) rfl (ix3 r j ⟨c.val, h⟩) (fun b =>
      match b with
      | ⟨0, _⟩ => rfl
      | ⟨1, _⟩ => rfl
      | ⟨2, _⟩ => rfl)
  · next h =>
    exact concatenate_pair_apply_right 2 X Y hc (ix3 r j c) rfl rfl (ix3 r j ⟨c.val - 128, by omega⟩) (fun b hb =>
      match b, hb with
      | ⟨0, _⟩, _ => rfl
      | ⟨1, _⟩, _ => rfl
      | ⟨2, _⟩, hb => absurd rfl hb) (by
        show (c.val - 128) + 128 = c.val
        omega)

-- Every position's 128 channels, followed by the 128 channel sums over the positions.
def wideG (X : FVec F ⟨3, ![N, K, 128]⟩ .f32) : FVec F ⟨3, ![N, K, 256]⟩ .f32 :=
  concatenate ⟨3, ![N, K, 256]⟩ 2 [⟨⟨3, ![N, K, 128]⟩, X⟩, ⟨⟨3, ![N, K, 128]⟩,
    broadcastInDim ⟨3, ![N, K, 128]⟩ ![0, 1, 2] b2 (broadcastInDim ⟨3, ![N, 1, 128]⟩ ![0, 2] b1
      (Host.reduceAdd X (constant ⟨0, ![]⟩ .f32 0x00000000#32) hr1 hu))⟩] hc

-- The widened rows times the first map, plus their sum over positions times the second map at every position, plus the bias.
def layerG (X : FVec F ⟨3, ![N, K, 128]⟩ .f32) (wl wg : FVec F ⟨2, ![256, 128]⟩ .f32) (b : FVec F ⟨1, ![128]⟩ .f32) :
    FVec F ⟨3, ![N, K, 128]⟩ .f32 :=
  addf (addf (Host.dotGeneral (⟨[2], [0], [0, 1], [1], [], [], w3⟩ : DotDims _ _ _) none (wideG hc hr1 hu b1 b2 X) wl)
      (broadcastInDim ⟨3, ![N, K, 128]⟩ ![0, 1, 2] b2 (broadcastInDim ⟨3, ![N, 1, 128]⟩ ![0, 2] b1
        (Host.dotGeneral (DotDims.plain N 256 128) none
          (Host.reduceAdd (wideG hc hr1 hu b1 b2 X) (constant ⟨0, ![]⟩ .f32 0x00000000#32) hr2 hu) wg))))
    (broadcastInDim ⟨3, ![N, K, 128]⟩ ![0, 1, 2] b4 (broadcastInDim ⟨3, ![1, 1, 128]⟩ ![2] b3 b))

theorem layer_apply (X : FVec Ideal ⟨3, ![N, K, 128]⟩ .f32) (wl wg : FVec Ideal ⟨2, ![256, 128]⟩ .f32)
    (b : FVec Ideal ⟨1, ![128]⟩ .f32) (r : Fin N) (j : Fin K) (d : Fin 128) :
    layerG w3 hc hr1 hr2 hu b1 b2 b3 b4 X wl wg b (ix3 r j d)
      = Cert.Layer.refRow (fun j c => X (ix3 r j c)) (fun c d => wl (ix2 c d)) (fun c d => wg (ix2 c d))
          (fun d => b (ix1 d)) j d := by
  have hcat : ∀ (j : Fin K) (c : Fin 256),
      wideG hc hr1 hu b1 b2 X (ix3 r j c) = Cert.Layer.wide (fun j c => X (ix3 r j c)) j c := by
    intro j c
    unfold wideG
    rw [cat_apply]
    unfold Cert.Layer.wide
    split
    · rfl
    · rw [bcastMid_apply, reduceMid_apply]
  unfold layerG
  rw [addf_apply, addf_apply, dot3_apply, bcastMid_apply, StackMember.dotGeneral_plain_apply, bcastBias_apply]
  unfold Cert.Layer.refRow
  simp only [hcat, reduceMid_apply]

end Generic

variable [Facts]
open Facts₀ Facts

variable {F : FTy → Type} [FloatOps F]

def gath_p4 (pool : (⟨S50000x128, .f32⟩ : BufTy).Contents (Elt F)) (idx : (⟨S15000x4, .i32⟩ : BufTy).Contents (Elt F)) : (⟨S15000x4x128, .f32⟩ : BufTy).Contents (Elt F) :=
  Host.gather gather_S50000x128_S15000x4x1_S15000x4x128_2_0_n_n_0_2_1128 pool (broadcastInDim S15000x4x1 ![0, 1] bcast_S15000x4_S15000x4x1_0_1 (select (cmpi .slt idx (broadcastInDim S15000x4 ![] bcast_S_S15000x4 (constantI S_ 32 0#32))) (addi idx (broadcastInDim S15000x4 ![] bcast_S_S15000x4 (constantI S_ 32 50000#32))) idx))

def layer_p4 (X : (⟨S15000x4x128, .f32⟩ : BufTy).Contents (Elt F)) (wl wg : (⟨S256x128, .f32⟩ : BufTy).Contents (Elt F)) (b : (⟨S128, .f32⟩ : BufTy).Contents (Elt F)) : (⟨S15000x4x128, .f32⟩ : BufTy).Contents (Elt F) :=
  layerG dot_S15000x4x256_S256x128_S15000x4x128_2_0_01_1_n_n_wf concatenates_S15000x4x128_S15000x4x128_S15000x4x256_d2 reducesTo_S15000x4x128_S15000x128_d1 reducesTo_S15000x4x256_S15000x256_d1 h_S_ bcast_S15000x128_S15000x1x128_0_2 bcast_S15000x1x128_S15000x4x128_0_1_2 bcast_S128_S1x1x128_2 bcast_S1x1x128_S15000x4x128_0_1_2 X wl wg b

def gath_p5 (pool : (⟨S50000x128, .f32⟩ : BufTy).Contents (Elt F)) (idx : (⟨S15000x5, .i32⟩ : BufTy).Contents (Elt F)) : (⟨S15000x5x128, .f32⟩ : BufTy).Contents (Elt F) :=
  Host.gather gather_S50000x128_S15000x5x1_S15000x5x128_2_0_n_n_0_2_1128 pool (broadcastInDim S15000x5x1 ![0, 1] bcast_S15000x5_S15000x5x1_0_1 (select (cmpi .slt idx (broadcastInDim S15000x5 ![] bcast_S_S15000x5 (constantI S_ 32 0#32))) (addi idx (broadcastInDim S15000x5 ![] bcast_S_S15000x5 (constantI S_ 32 50000#32))) idx))

def layer_p5 (X : (⟨S15000x5x128, .f32⟩ : BufTy).Contents (Elt F)) (wl wg : (⟨S256x128, .f32⟩ : BufTy).Contents (Elt F)) (b : (⟨S128, .f32⟩ : BufTy).Contents (Elt F)) : (⟨S15000x5x128, .f32⟩ : BufTy).Contents (Elt F) :=
  layerG dot_S15000x5x256_S256x128_S15000x5x128_2_0_01_1_n_n_wf concatenates_S15000x5x128_S15000x5x128_S15000x5x256_d2 reducesTo_S15000x5x128_S15000x128_d1 reducesTo_S15000x5x256_S15000x256_d1 h_S_ bcast_S15000x128_S15000x1x128_0_2 bcast_S15000x1x128_S15000x5x128_0_1_2 bcast_S128_S1x1x128_2 bcast_S1x1x128_S15000x5x128_0_1_2 X wl wg b

def gath_p6 (pool : (⟨S50000x128, .f32⟩ : BufTy).Contents (Elt F)) (idx : (⟨S15000x6, .i32⟩ : BufTy).Contents (Elt F)) : (⟨S15000x6x128, .f32⟩ : BufTy).Contents (Elt F) :=
  Host.gather gather_S50000x128_S15000x6x1_S15000x6x128_2_0_n_n_0_2_1128 pool (broadcastInDim S15000x6x1 ![0, 1] bcast_S15000x6_S15000x6x1_0_1 (select (cmpi .slt idx (broadcastInDim S15000x6 ![] bcast_S_S15000x6 (constantI S_ 32 0#32))) (addi idx (broadcastInDim S15000x6 ![] bcast_S_S15000x6 (constantI S_ 32 50000#32))) idx))

def layer_p6 (X : (⟨S15000x6x128, .f32⟩ : BufTy).Contents (Elt F)) (wl wg : (⟨S256x128, .f32⟩ : BufTy).Contents (Elt F)) (b : (⟨S128, .f32⟩ : BufTy).Contents (Elt F)) : (⟨S15000x6x128, .f32⟩ : BufTy).Contents (Elt F) :=
  layerG dot_S15000x6x256_S256x128_S15000x6x128_2_0_01_1_n_n_wf concatenates_S15000x6x128_S15000x6x128_S15000x6x256_d2 reducesTo_S15000x6x128_S15000x128_d1 reducesTo_S15000x6x256_S15000x256_d1 h_S_ bcast_S15000x128_S15000x1x128_0_2 bcast_S15000x1x128_S15000x6x128_0_1_2 bcast_S128_S1x1x128_2 bcast_S1x1x128_S15000x6x128_0_1_2 X wl wg b

def gath_p7 (pool : (⟨S50000x128, .f32⟩ : BufTy).Contents (Elt F)) (idx : (⟨S15000x7, .i32⟩ : BufTy).Contents (Elt F)) : (⟨S15000x7x128, .f32⟩ : BufTy).Contents (Elt F) :=
  Host.gather gather_S50000x128_S15000x7x1_S15000x7x128_2_0_n_n_0_2_1128 pool (broadcastInDim S15000x7x1 ![0, 1] bcast_S15000x7_S15000x7x1_0_1 (select (cmpi .slt idx (broadcastInDim S15000x7 ![] bcast_S_S15000x7 (constantI S_ 32 0#32))) (addi idx (broadcastInDim S15000x7 ![] bcast_S_S15000x7 (constantI S_ 32 50000#32))) idx))

def layer_p7 (X : (⟨S15000x7x128, .f32⟩ : BufTy).Contents (Elt F)) (wl wg : (⟨S256x128, .f32⟩ : BufTy).Contents (Elt F)) (b : (⟨S128, .f32⟩ : BufTy).Contents (Elt F)) : (⟨S15000x7x128, .f32⟩ : BufTy).Contents (Elt F) :=
  layerG dot_S15000x7x256_S256x128_S15000x7x128_2_0_01_1_n_n_wf concatenates_S15000x7x128_S15000x7x128_S15000x7x256_d2 reducesTo_S15000x7x128_S15000x128_d1 reducesTo_S15000x7x256_S15000x256_d1 h_S_ bcast_S15000x128_S15000x1x128_0_2 bcast_S15000x1x128_S15000x7x128_0_1_2 bcast_S128_S1x1x128_2 bcast_S1x1x128_S15000x7x128_0_1_2 X wl wg b

def gath_c5 (pool : (⟨S50000x128, .f32⟩ : BufTy).Contents (Elt F)) (idx : (⟨S10000x5, .i32⟩ : BufTy).Contents (Elt F)) : (⟨S10000x5x128, .f32⟩ : BufTy).Contents (Elt F) :=
  Host.gather gather_S50000x128_S10000x5x1_S10000x5x128_2_0_n_n_0_2_1128 pool (broadcastInDim S10000x5x1 ![0, 1] bcast_S10000x5_S10000x5x1_0_1 (select (cmpi .slt idx (broadcastInDim S10000x5 ![] bcast_S_S10000x5 (constantI S_ 32 0#32))) (addi idx (broadcastInDim S10000x5 ![] bcast_S_S10000x5 (constantI S_ 32 50000#32))) idx))

def layer_c5 (X : (⟨S10000x5x128, .f32⟩ : BufTy).Contents (Elt F)) (wl wg : (⟨S256x128, .f32⟩ : BufTy).Contents (Elt F)) (b : (⟨S128, .f32⟩ : BufTy).Contents (Elt F)) : (⟨S10000x5x128, .f32⟩ : BufTy).Contents (Elt F) :=
  layerG dot_S10000x5x256_S256x128_S10000x5x128_2_0_01_1_n_n_wf concatenates_S10000x5x128_S10000x5x128_S10000x5x256_d2 reducesTo_S10000x5x128_S10000x128_d1 reducesTo_S10000x5x256_S10000x256_d1 h_S_ bcast_S10000x128_S10000x1x128_0_2 bcast_S10000x1x128_S10000x5x128_0_1_2 bcast_S128_S1x1x128_2 bcast_S1x1x128_S10000x5x128_0_1_2 X wl wg b

def gath_c6 (pool : (⟨S50000x128, .f32⟩ : BufTy).Contents (Elt F)) (idx : (⟨S10000x6, .i32⟩ : BufTy).Contents (Elt F)) : (⟨S10000x6x128, .f32⟩ : BufTy).Contents (Elt F) :=
  Host.gather gather_S50000x128_S10000x6x1_S10000x6x128_2_0_n_n_0_2_1128 pool (broadcastInDim S10000x6x1 ![0, 1] bcast_S10000x6_S10000x6x1_0_1 (select (cmpi .slt idx (broadcastInDim S10000x6 ![] bcast_S_S10000x6 (constantI S_ 32 0#32))) (addi idx (broadcastInDim S10000x6 ![] bcast_S_S10000x6 (constantI S_ 32 50000#32))) idx))

def layer_c6 (X : (⟨S10000x6x128, .f32⟩ : BufTy).Contents (Elt F)) (wl wg : (⟨S256x128, .f32⟩ : BufTy).Contents (Elt F)) (b : (⟨S128, .f32⟩ : BufTy).Contents (Elt F)) : (⟨S10000x6x128, .f32⟩ : BufTy).Contents (Elt F) :=
  layerG dot_S10000x6x256_S256x128_S10000x6x128_2_0_01_1_n_n_wf concatenates_S10000x6x128_S10000x6x128_S10000x6x256_d2 reducesTo_S10000x6x128_S10000x128_d1 reducesTo_S10000x6x256_S10000x256_d1 h_S_ bcast_S10000x128_S10000x1x128_0_2 bcast_S10000x1x128_S10000x6x128_0_1_2 bcast_S128_S1x1x128_2 bcast_S1x1x128_S10000x6x128_0_1_2 X wl wg b

theorem run_layers (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155) = layer_c5 (gath_c5 (Cert.ReferenceIdeal.Pool.poolP (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg26)) (m ((c.tc : Thread nD τ).loc main_arg27)) (m ((c.tc : Thread nD τ).loc main_arg28)) (m ((c.tc : Thread nD τ).loc main_arg29))) (m ((c.tc : Thread nD τ).loc main_arg24))) (m ((c.tc : Thread nD τ).loc main_arg6)) (m ((c.tc : Thread nD τ).loc main_arg7)) (m ((c.tc : Thread nD τ).loc main_arg8))
      ∧ r.2.mem ((c.tc : Thread nD τ).loc main_v175) = layer_c6 (gath_c6 (Cert.ReferenceIdeal.Pool.poolP (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg26)) (m ((c.tc : Thread nD τ).loc main_arg27)) (m ((c.tc : Thread nD τ).loc main_arg28)) (m ((c.tc : Thread nD τ).loc main_arg29))) (m ((c.tc : Thread nD τ).loc main_arg25))) (m ((c.tc : Thread nD τ).loc main_arg9)) (m ((c.tc : Thread nD τ).loc main_arg10)) (m ((c.tc : Thread nD τ).loc main_arg11))
      ∧ r.2.mem ((c.tc : Thread nD τ).loc main_v38) = layer_p4 (gath_p4 (Cert.ReferenceIdeal.Pool.poolC (m ((c.tc : Thread nD τ).loc main_arg0)) (m ((c.tc : Thread nD τ).loc main_arg1)) (m ((c.tc : Thread nD τ).loc main_arg24)) (m ((c.tc : Thread nD τ).loc main_arg25))) (m ((c.tc : Thread nD τ).loc main_arg26))) (m ((c.tc : Thread nD τ).loc main_arg12)) (m ((c.tc : Thread nD τ).loc main_arg13)) (m ((c.tc : Thread nD τ).loc main_arg14))
      ∧ r.2.mem ((c.tc : Thread nD τ).loc main_v58) = layer_p5 (gath_p5 (Cert.ReferenceIdeal.Pool.poolC (m ((c.tc : Thread nD τ).loc main_arg0)) (m ((c.tc : Thread nD τ).loc main_arg1)) (m ((c.tc : Thread nD τ).loc main_arg24)) (m ((c.tc : Thread nD τ).loc main_arg25))) (m ((c.tc : Thread nD τ).loc main_arg27))) (m ((c.tc : Thread nD τ).loc main_arg15)) (m ((c.tc : Thread nD τ).loc main_arg16)) (m ((c.tc : Thread nD τ).loc main_arg17))
      ∧ r.2.mem ((c.tc : Thread nD τ).loc main_v78) = layer_p6 (gath_p6 (Cert.ReferenceIdeal.Pool.poolC (m ((c.tc : Thread nD τ).loc main_arg0)) (m ((c.tc : Thread nD τ).loc main_arg1)) (m ((c.tc : Thread nD τ).loc main_arg24)) (m ((c.tc : Thread nD τ).loc main_arg25))) (m ((c.tc : Thread nD τ).loc main_arg28))) (m ((c.tc : Thread nD τ).loc main_arg18)) (m ((c.tc : Thread nD τ).loc main_arg19)) (m ((c.tc : Thread nD τ).loc main_arg20))
      ∧ r.2.mem ((c.tc : Thread nD τ).loc main_v98) = layer_p7 (gath_p7 (Cert.ReferenceIdeal.Pool.poolC (m ((c.tc : Thread nD τ).loc main_arg0)) (m ((c.tc : Thread nD τ).loc main_arg1)) (m ((c.tc : Thread nD τ).loc main_arg24)) (m ((c.tc : Thread nD τ).loc main_arg25))) (m ((c.tc : Thread nD τ).loc main_arg29))) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c).1.trans (by rfl),
      (h c).2.1.trans (by rfl),
      (h c).2.2.1.trans (by rfl),
      (h c).2.2.2.1.trans (by rfl),
      (h c).2.2.2.2.1.trans (by rfl),
      (h c).2.2.2.2.2.1.trans (by rfl),
      (h c).2.2.2.2.2.2⟩)
    (Value.run m ρ)

end Cert.ReferenceIdeal.RefValue

end
-- ==== Proof.Carry.lean ====
import proofs.«413924_j50869592655534_3_alg».proof.Proof.Gen.KernelIdeal.Regions

namespace Cert.KernelIdeal.Gen

open Idealize.ShloMosaic Idealize.ShloMosaic.TcCoe

variable {F : FTy → Type} [FloatOps F]

variable {m : (ℓ : Loc nD τ sig) → Buf (Elt F) ℓ} {outs : Outs (F := F)} {c : Dev nD} {r : Ref sig .tc}

-- A buffer that neither of two consecutive items writes holds after both what it held before them.
theorem s2 {x} (p : V0 m c r = x) (h : r ∉ hostOps0_W := by decide) (g : r ∉ [main_v33] := by decide) : V2 m outs c r = x :=
  ((V2_of m outs c r g).trans (V1_of m c r h)).trans p
theorem s4 {x} (p : V2 m outs c r = x) (h : r ∉ hostOps1_W := by decide) (g : r ∉ [main_v54] := by decide) : V4 m outs c r = x :=
  ((V4_of m outs c r g).trans (V3_of m outs c r h)).trans p
theorem s6 {x} (p : V4 m outs c r = x) (h : r ∉ hostOps2_W := by decide) (g : r ∉ [main_v75] := by decide) : V6 m outs c r = x :=
  ((V6_of m outs c r g).trans (V5_of m outs c r h)).trans p
theorem s8 {x} (p : V6 m outs c r = x) (h : r ∉ hostOps3_W := by decide) (g : r ∉ [main_v96] := by decide) : V8 m outs c r = x :=
  ((V8_of m outs c r g).trans (V7_of m outs c r h)).trans p
theorem s10 {x} (p : V8 m outs c r = x) (h : r ∉ hostOps4_W := by decide) (g : r ∉ [main_v135] := by decide) : V10 m outs c r = x :=
  ((V10_of m outs c r g).trans (V9_of m outs c r h)).trans p
theorem s12 {x} (p : V10 m outs c r = x) (h : r ∉ hostOps5_W := by decide) (g : r ∉ [main_v156] := by decide) : V12 m outs c r = x :=
  ((V12_of m outs c r g).trans (V11_of m outs c r h)).trans p

variable (m outs c)

theorem V2_arg27 : V2 m outs c main_arg27 = m ((c : Thread nD τ).loc main_arg27) :=
  s2 rfl
theorem V2_arg15 : V2 m outs c main_arg15 = m ((c : Thread nD τ).loc main_arg15) :=
  s2 rfl
theorem V2_arg16 : V2 m outs c main_arg16 = m ((c : Thread nD τ).loc main_arg16) :=
  s2 rfl
theorem V2_arg17 : V2 m outs c main_arg17 = m ((c : Thread nD τ).loc main_arg17) :=
  s2 rfl
theorem V4_arg28 : V4 m outs c main_arg28 = m ((c : Thread nD τ).loc main_arg28) :=
  s4 (s2 rfl)
theorem V4_arg18 : V4 m outs c main_arg18 = m ((c : Thread nD τ).loc main_arg18) :=
  s4 (s2 rfl)
theorem V4_arg19 : V4 m outs c main_arg19 = m ((c : Thread nD τ).loc main_arg19) :=
  s4 (s2 rfl)
theorem V4_arg20 : V4 m outs c main_arg20 = m ((c : Thread nD τ).loc main_arg20) :=
  s4 (s2 rfl)
theorem V6_arg29 : V6 m outs c main_arg29 = m ((c : Thread nD τ).loc main_arg29) :=
  s6 (s4 (s2 rfl))
theorem V6_arg21 : V6 m outs c main_arg21 = m ((c : Thread nD τ).loc main_arg21) :=
  s6 (s4 (s2 rfl))
theorem V6_arg22 : V6 m outs c main_arg22 = m ((c : Thread nD τ).loc main_arg22) :=
  s6 (s4 (s2 rfl))
theorem V6_arg23 : V6 m outs c main_arg23 = m ((c : Thread nD τ).loc main_arg23) :=
  s6 (s4 (s2 rfl))
theorem V8_arg2 : V8 m outs c main_arg2 = m ((c : Thread nD τ).loc main_arg2) :=
  s8 (s6 (s4 (s2 rfl)))
theorem V8_arg3 : V8 m outs c main_arg3 = m ((c : Thread nD τ).loc main_arg3) :=
  s8 (s6 (s4 (s2 rfl)))
theorem V8_arg4 : V8 m outs c main_arg4 = m ((c : Thread nD τ).loc main_arg4) :=
  s8 (s6 (s4 (s2 rfl)))
theorem V8_arg5 : V8 m outs c main_arg5 = m ((c : Thread nD τ).loc main_arg5) :=
  s8 (s6 (s4 (s2 rfl)))
theorem V8_arg26 : V8 m outs c main_arg26 = m ((c : Thread nD τ).loc main_arg26) :=
  s8 (s6 (s4 (s2 rfl)))
theorem V8_arg27 : V8 m outs c main_arg27 = m ((c : Thread nD τ).loc main_arg27) :=
  s8 (s6 (s4 (s2 rfl)))
theorem V8_arg28 : V8 m outs c main_arg28 = m ((c : Thread nD τ).loc main_arg28) :=
  s8 (s6 (s4 (s2 rfl)))
theorem V8_arg29 : V8 m outs c main_arg29 = m ((c : Thread nD τ).loc main_arg29) :=
  s8 (s6 (s4 (s2 rfl)))
theorem V8_arg24 : V8 m outs c main_arg24 = m ((c : Thread nD τ).loc main_arg24) :=
  s8 (s6 (s4 (s2 rfl)))
theorem V8_arg6 : V8 m outs c main_arg6 = m ((c : Thread nD τ).loc main_arg6) :=
  s8 (s6 (s4 (s2 rfl)))
theorem V8_arg7 : V8 m outs c main_arg7 = m ((c : Thread nD τ).loc main_arg7) :=
  s8 (s6 (s4 (s2 rfl)))
theorem V8_arg8 : V8 m outs c main_arg8 = m ((c : Thread nD τ).loc main_arg8) :=
  s8 (s6 (s4 (s2 rfl)))
theorem V10_arg25 : V10 m outs c main_arg25 = m ((c : Thread nD τ).loc main_arg25) :=
  s10 (s8 (s6 (s4 (s2 rfl))))
theorem V10_arg9 : V10 m outs c main_arg9 = m ((c : Thread nD τ).loc main_arg9) :=
  s10 (s8 (s6 (s4 (s2 rfl))))
theorem V10_arg10 : V10 m outs c main_arg10 = m ((c : Thread nD τ).loc main_arg10) :=
  s10 (s8 (s6 (s4 (s2 rfl))))
theorem V10_arg11 : V10 m outs c main_arg11 = m ((c : Thread nD τ).loc main_arg11) :=
  s10 (s8 (s6 (s4 (s2 rfl))))

theorem V2_v13 : V2 m outs c main_v13 = V1 m c main_v13 :=
  V2_of m outs c _ (by decide)
theorem V4_v13 : V4 m outs c main_v13 = V1 m c main_v13 :=
  s4 (V2_v13 m outs c)
theorem V6_v13 : V6 m outs c main_v13 = V1 m c main_v13 :=
  s6 (V4_v13 m outs c)

theorem V10_v115 : V10 m outs c main_v115 = V9 m outs c main_v115 :=
  V10_of m outs c _ (by decide)

theorem V2_v33 : V2 m outs c main_v33 = outs 2 main_v33 c :=
  Function.update_self _ _ _
theorem V4_v54 : V4 m outs c main_v54 = outs 4 main_v54 c :=
  Function.update_self _ _ _
theorem V6_v75 : V6 m outs c main_v75 = outs 6 main_v75 c :=
  Function.update_self _ _ _
theorem V8_v96 : V8 m outs c main_v96 = outs 8 main_v96 c :=
  Function.update_self _ _ _
theorem V10_v135 : V10 m outs c main_v135 = outs 10 main_v135 c :=
  Function.update_self _ _ _
theorem V12_v156 : V12 m outs c main_v156 = outs 12 main_v156 c :=
  Function.update_self _ _ _

theorem V13_v136 : V13 m outs c main_v136 = V11 m outs c main_v136 :=
  (V13_of m outs c _ (by decide)).trans (V12_of m outs c _ (by decide))
theorem V13_v97 : V13 m outs c main_v97 = V9 m outs c main_v97 :=
  (V13_of m outs c _ (by decide)).trans (s12 (V10_of m outs c _ (by decide)))
theorem V13_v76 : V13 m outs c main_v76 = V7 m outs c main_v76 :=
  (V13_of m outs c _ (by decide)).trans (s12 (s10 (V8_of m outs c _ (by decide))))
theorem V13_v55 : V13 m outs c main_v55 = V5 m outs c main_v55 :=
  (V13_of m outs c _ (by decide)).trans (s12 (s10 (s8 (V6_of m outs c _ (by decide)))))
theorem V13_v34 : V13 m outs c main_v34 = V3 m outs c main_v34 :=
  (V13_of m outs c _ (by decide)).trans (s12 (s10 (s8 (s6 (V4_of m outs c _ (by decide))))))

end Cert.KernelIdeal.Gen
-- ==== Proof.HostDefs.lean ====
import proofs.«413924_j50869592655534_3_alg».proof.KernelIdeal
import proofs.«413924_j50869592655534_3_alg».proof.Proof.LayerMath
import Idealize.ShloMosaic.Lib.ValueLayout
import Idealize.ShloMosaic.Lib.IdealHost

noncomputable section

namespace Cert.KernelIdeal.HostVal

open Idealize.ShloMosaic Idealize.ShloMosaic.ValueIdx

variable [Facts]
open Facts₀ Facts

variable {F : FTy → Type} [FloatOps F]

def wTop (w : (⟨S256x128, .f32⟩ : BufTy).Contents (Elt F)) : (⟨S128x128, .bf16⟩ : BufTy).Contents (Elt F) :=
  truncf .bf16 (extractStridedSlice S128x128 ![0, 0] w slices_S256x128_S128x128_0_0) bitsLt_bf16_f32

def wComb (k : BitVec 32) (wl wg : (⟨S256x128, .f32⟩ : BufTy).Contents (Elt F)) : (⟨S128x128, .bf16⟩ : BufTy).Contents (Elt F) :=
  truncf .bf16 (addf (addf (extractStridedSlice S128x128 ![128, 0] wl slices_S256x128_S128x128_128_0) (extractStridedSlice S128x128 ![0, 0] wg slices_S256x128_S128x128_0_0)) (mulf (broadcastInDim S128x128 ![] bcast_S_S128x128 (constant S_ .f32 k)) (extractStridedSlice S128x128 ![128, 0] wg slices_S256x128_S128x128_128_0))) bitsLt_bf16_f32

def wComb4 := wComb (F := F) 0x40800000#32
def wComb5 := wComb (F := F) 0x40A00000#32
def wComb6 := wComb (F := F) 0x40C00000#32
def wComb7 := wComb (F := F) 0x40E00000#32

def biasRow (b : (⟨S128, .f32⟩ : BufTy).Contents (Elt F)) : (⟨S1x128, .f32⟩ : BufTy).Contents (Elt F) :=
  shapeCast S1x128 b shapeCasts_S128_S1x128

def gath_p4 (pool : (⟨S50000x128, .f32⟩ : BufTy).Contents (Elt F)) (idx : (⟨S15000x4, .i32⟩ : BufTy).Contents (Elt F)) : (⟨S15000x4x128, .f32⟩ : BufTy).Contents (Elt F) :=
  Host.gather gather_S50000x128_S15000x4x1_S15000x4x128_2_0_n_n_0_2_1128 pool (broadcastInDim S15000x4x1 ![0, 1] bcast_S15000x4_S15000x4x1_0_1 (select (cmpi .slt idx (broadcastInDim S15000x4 ![] bcast_S_S15000x4 (constantI S_ 32 0#32))) (addi idx (broadcastInDim S15000x4 ![] bcast_S_S15000x4 (constantI S_ 32 50000#32))) idx))

def rows_p4 (X : (⟨S15000x4x128, .f32⟩ : BufTy).Contents (Elt F)) : (⟨S15000x512, .f32⟩ : BufTy).Contents (Elt F) :=
  shapeCast S15000x512 X shapeCasts_S15000x4x128_S15000x512

def res_p4 (O : (⟨S15000x512, .f32⟩ : BufTy).Contents (Elt F)) : (⟨S15000x4x128, .f32⟩ : BufTy).Contents (Elt F) :=
  shapeCast S15000x4x128 O shapeCasts_S15000x512_S15000x4x128

def gath_p5 (pool : (⟨S50000x128, .f32⟩ : BufTy).Contents (Elt F)) (idx : (⟨S15000x5, .i32⟩ : BufTy).Contents (Elt F)) : (⟨S15000x5x128, .f32⟩ : BufTy).Contents (Elt F) :=
  Host.gather gather_S50000x128_S15000x5x1_S15000x5x128_2_0_n_n_0_2_1128 pool (broadcastInDim S15000x5x1 ![0, 1] bcast_S15000x5_S15000x5x1_0_1 (select (cmpi .slt idx (broadcastInDim S15000x5 ![] bcast_S_S15000x5 (constantI S_ 32 0#32))) (addi idx (broadcastInDim S15000x5 ![] bcast_S_S15000x5 (constantI S_ 32 50000#32))) idx))

def rows_p5 (X : (⟨S15000x5x128, .f32⟩ : BufTy).Contents (Elt F)) : (⟨S15000x640, .f32⟩ : BufTy).Contents (Elt F) :=
  shapeCast S15000x640 X shapeCasts_S15000x5x128_S15000x640

def res_p5 (O : (⟨S15000x640, .f32⟩ : BufTy).Contents (Elt F)) : (⟨S15000x5x128, .f32⟩ : BufTy).Contents (Elt F) :=
  shapeCast S15000x5x128 O shapeCasts_S15000x640_S15000x5x128

def gath_p6 (pool : (⟨S50000x128, .f32⟩ : BufTy).Contents (Elt F)) (idx : (⟨S15000x6, .i32⟩ : BufTy).Contents (Elt F)) : (⟨S15000x6x128, .f32⟩ : BufTy).Contents (Elt F) :=
  Host.gather gather_S50000x128_S15000x6x1_S15000x6x128_2_0_n_n_0_2_1128 pool (broadcastInDim S15000x6x1 ![0, 1] bcast_S15000x6_S15000x6x1_0_1 (select (cmpi .slt idx (broadcastInDim S15000x6 ![] bcast_S_S15000x6 (constantI S_ 32 0#32))) (addi idx (broadcastInDim S15000x6 ![] bcast_S_S15000x6 (constantI S_ 32 50000#32))) idx))

def rows_p6 (X : (⟨S15000x6x128, .f32⟩ : BufTy).Contents (Elt F)) : (⟨S15000x768, .f32⟩ : BufTy).Contents (Elt F) :=
  shapeCast S15000x768 X shapeCasts_S15000x6x128_S15000x768

def res_p6 (O : (⟨S15000x768, .f32⟩ : BufTy).Contents (Elt F)) : (⟨S15000x6x128, .f32⟩ : BufTy).Contents (Elt F) :=
  shapeCast S15000x6x128 O shapeCasts_S15000x768_S15000x6x128

def gath_p7 (pool : (⟨S50000x128, .f32⟩ : BufTy).Contents (Elt F)) (idx : (⟨S15000x7, .i32⟩ : BufTy).Contents (Elt F)) : (⟨S15000x7x128, .f32⟩ : BufTy).Contents (Elt F) :=
  Host.gather gather_S50000x128_S15000x7x1_S15000x7x128_2_0_n_n_0_2_1128 pool (broadcastInDim S15000x7x1 ![0, 1] bcast_S15000x7_S15000x7x1_0_1 (select (cmpi .slt idx (broadcastInDim S15000x7 ![] bcast_S_S15000x7 (constantI S_ 32 0#32))) (addi idx (broadcastInDim S15000x7 ![] bcast_S_S15000x7 (constantI S_ 32 50000#32))) idx))

def rows_p7 (X : (⟨S15000x7x128, .f32⟩ : BufTy).Contents (Elt F)) : (⟨S15000x896, .f32⟩ : BufTy).Contents (Elt F) :=
  shapeCast S15000x896 X shapeCasts_S15000x7x128_S15000x896

def res_p7 (O : (⟨S15000x896, .f32⟩ : BufTy).Contents (Elt F)) : (⟨S15000x7x128, .f32⟩ : BufTy).Contents (Elt F) :=
  shapeCast S15000x7x128 O shapeCasts_S15000x896_S15000x7x128

def gath_c5 (pool : (⟨S50000x128, .f32⟩ : BufTy).Contents (Elt F)) (idx : (⟨S10000x5, .i32⟩ : BufTy).Contents (Elt F)) : (⟨S10000x5x128, .f32⟩ : BufTy).Contents (Elt F) :=
  Host.gather gather_S50000x128_S10000x5x1_S10000x5x128_2_0_n_n_0_2_1128 pool (broadcastInDim S10000x5x1 ![0, 1] bcast_S10000x5_S10000x5x1_0_1 (select (cmpi .slt idx (broadcastInDim S10000x5 ![] bcast_S_S10000x5 (constantI S_ 32 0#32))) (addi idx (broadcastInDim S10000x5 ![] bcast_S_S10000x5 (constantI S_ 32 50000#32))) idx))

def rows_c5 (X : (⟨S10000x5x128, .f32⟩ : BufTy).Contents (Elt F)) : (⟨S10000x640, .f32⟩ : BufTy).Contents (Elt F) :=
  shapeCast S10000x640 X shapeCasts_S10000x5x128_S10000x640

def res_c5 (O : (⟨S10000x640, .f32⟩ : BufTy).Contents (Elt F)) : (⟨S10000x5x128, .f32⟩ : BufTy).Contents (Elt F) :=
  shapeCast S10000x5x128 O shapeCasts_S10000x640_S10000x5x128

def gath_c6 (pool : (⟨S50000x128, .f32⟩ : BufTy).Contents (Elt F)) (idx : (⟨S10000x6, .i32⟩ : BufTy).Contents (Elt F)) : (⟨S10000x6x128, .f32⟩ : BufTy).Contents (Elt F) :=
  Host.gather gather_S50000x128_S10000x6x1_S10000x6x128_2_0_n_n_0_2_1128 pool (broadcastInDim S10000x6x1 ![0, 1] bcast_S10000x6_S10000x6x1_0_1 (select (cmpi .slt idx (broadcastInDim S10000x6 ![] bcast_S_S10000x6 (constantI S_ 32 0#32))) (addi idx (broadcastInDim S10000x6 ![] bcast_S_S10000x6 (constantI S_ 32 50000#32))) idx))

def rows_c6 (X : (⟨S10000x6x128, .f32⟩ : BufTy).Contents (Elt F)) : (⟨S10000x768, .f32⟩ : BufTy).Contents (Elt F) :=
  shapeCast S10000x768 X shapeCasts_S10000x6x128_S10000x768

def res_c6 (O : (⟨S10000x768, .f32⟩ : BufTy).Contents (Elt F)) : (⟨S10000x6x128, .f32⟩ : BufTy).Contents (Elt F) :=
  shapeCast S10000x6x128 O shapeCasts_S10000x768_S10000x6x128

section
variable (w wl wg : (⟨S256x128, .f32⟩ : BufTy).Contents (Elt Ideal)) (c d : Fin 128)

theorem wTop_apply :
    wTop (F := Ideal) w (ix2 c d) = w (ix2 (Cert.Layer.lo c) d) :=
  slice2_axis0_apply 0 w slices_S256x128_S128x128_0_0 c d _ (Nat.zero_add _).symm

-- Each slice reads its map 0 or 128 rows down, and the scalar constant reads as the number k at every entry.
theorem wComb_apply (b : BitVec 32) (k : ℕ)
    (hk : Ideal.ofBits .f32 b = ((k : ℝ) : EReal) := by simp [Ideal.ofBits, Ideal.ieee, -EReal.coe_mul]; norm_num) :
    wComb (F := Ideal) b wl wg (ix2 c d)
      = (wl (ix2 (Cert.Layer.hi c) d) + wg (ix2 (Cert.Layer.lo c) d)) + ((k : ℝ) : EReal) * wg (ix2 (Cert.Layer.hi c) d) := by
  unfold wComb
  rw [truncf_apply, addf_apply, addf_apply, mulf_apply, slice2_axis0_apply 128 wl _ c d (Cert.Layer.hi c) rfl,
    slice2_axis0_apply 0 wg _ c d (Cert.Layer.lo c) (Nat.zero_add _).symm, slice2_axis0_apply 128 wg _ c d (Cert.Layer.hi c) rfl,
    broadcastInDim_scalar_apply, constant_apply, hk]

theorem wComb4_apply :
    wComb4 (F := Ideal) wl wg (ix2 c d)
      = (wl (ix2 (Cert.Layer.hi c) d) + wg (ix2 (Cert.Layer.lo c) d)) + (((4 : ℕ) : ℝ) : EReal) * wg (ix2 (Cert.Layer.hi c) d) :=
  wComb_apply wl wg c d _ 4

theorem wComb5_apply :
    wComb5 (F := Ideal) wl wg (ix2 c d)
      = (wl (ix2 (Cert.Layer.hi c) d) + wg (ix2 (Cert.Layer.lo c) d)) + (((5 : ℕ) : ℝ) : EReal) * wg (ix2 (Cert.Layer.hi c) d) :=
  wComb_apply wl wg c d _ 5

theorem wComb6_apply :
    wComb6 (F := Ideal) wl wg (ix2 c d)
      = (wl (ix2 (Cert.Layer.hi c) d) + wg (ix2 (Cert.Layer.lo c) d)) + (((6 : ℕ) : ℝ) : EReal) * wg (ix2 (Cert.Layer.hi c) d) :=
  wComb_apply wl wg c d _ 6

theorem wComb7_apply :
    wComb7 (F := Ideal) wl wg (ix2 c d)
      = (wl (ix2 (Cert.Layer.hi c) d) + wg (ix2 (Cert.Layer.lo c) d)) + (((7 : ℕ) : ℝ) : EReal) * wg (ix2 (Cert.Layer.hi c) d) :=
  wComb_apply wl wg c d _ 7

end

theorem biasRow_apply (b : (⟨S128, .f32⟩ : BufTy).Contents (Elt Ideal)) (d : Fin 128) :
    biasRow (F := Ideal) b (ix2 (0 : Fin 1) d) = b (ix1 d) :=
  shapeCast_a_1a_apply b _ 0 d

-- Row-major, position j channel c of row r sits at column 128 j + c of that row.
theorem lay_apply {α : Type} {n k w : ℕ} (X : (⟨3, ![n, k, 128]⟩ : Shape).Idx → α)
    (h : (⟨3, ![n, k, 128]⟩ : Shape).ShapeCasts ⟨2, ![n, w]⟩) (r : Fin n) (j : Fin k) (c : Fin 128) (p : 128 * j.val + c.val < w) (hw : w = 128 * k) :
    shapeCast ⟨2, ![n, w]⟩ X h (ix2 r ⟨128 * j.val + c.val, p⟩) = X (ix3 r j c) :=
  shapeCast_apply X h _ _ (by
    rw [Shape.rowMajor_val_three, Shape.rowMajor_val_two]
    show (r.val * k + j.val) * 128 + c.val = r.val * w + (128 * j.val + c.val)
    rw [hw]; ring)

theorem cut_apply {α : Type} {n k w : ℕ} (O : (⟨2, ![n, w]⟩ : Shape).Idx → α)
    (h : (⟨2, ![n, w]⟩ : Shape).ShapeCasts ⟨3, ![n, k, 128]⟩) (r : Fin n) (j : Fin k) (d : Fin 128) (p : 128 * j.val + d.val < w) (hw : w = 128 * k) :
    shapeCast ⟨3, ![n, k, 128]⟩ O h (ix3 r j d) = O (ix2 r ⟨128 * j.val + d.val, p⟩) :=
  shapeCast_apply O h _ _ (by
    rw [Shape.rowMajor_val_three, Shape.rowMajor_val_two]
    show r.val * w + (128 * j.val + d.val) = (r.val * k + j.val) * 128 + d.val
    rw [hw]; ring)

theorem rows_p4_apply (X : (⟨S15000x4x128, .f32⟩ : BufTy).Contents (Elt Ideal)) (r : Fin 15000) (j : Fin 4) (c : Fin 128) :
    rows_p4 (F := Ideal) X (ix2 r ⟨128 * j.val + c.val, by omega⟩) = X (ix3 r j c) :=
  lay_apply X _ r j c _ rfl

theorem res_p4_apply (O : (⟨S15000x512, .f32⟩ : BufTy).Contents (Elt Ideal)) (r : Fin 15000) (j : Fin 4) (d : Fin 128) :
    res_p4 (F := Ideal) O (ix3 r j d) = O (ix2 r ⟨128 * j.val + d.val, by omega⟩) :=
  cut_apply O _ r j d _ rfl

theorem rows_p5_apply (X : (⟨S15000x5x128, .f32⟩ : BufTy).Contents (Elt Ideal)) (r : Fin 15000) (j : Fin 5) (c : Fin 128) :
    rows_p5 (F := Ideal) X (ix2 r ⟨128 * j.val + c.val, by omega⟩) = X (ix3 r j c) :=
  lay_apply X _ r j c _ rfl

theorem res_p5_apply (O : (⟨S15000x640, .f32⟩ : BufTy).Contents (Elt Ideal)) (r : Fin 15000) (j : Fin 5) (d : Fin 128) :
    res_p5 (F := Ideal) O (ix3 r j d) = O (ix2 r ⟨128 * j.val + d.val, by omega⟩) :=
  cut_apply O _ r j d _ rfl

theorem rows_p6_apply (X : (⟨S15000x6x128, .f32⟩ : BufTy).Contents (Elt Ideal)) (r : Fin 15000) (j : Fin 6) (c : Fin 128) :
    rows_p6 (F := Ideal) X (ix2 r ⟨128 * j.val + c.val, by omega⟩) = X (ix3 r j c) :=
  lay_apply X _ r j c _ rfl

theorem res_p6_apply (O : (⟨S15000x768, .f32⟩ : BufTy).Contents (Elt Ideal)) (r : Fin 15000) (j : Fin 6) (d : Fin 128) :
    res_p6 (F := Ideal) O (ix3 r j d) = O (ix2 r ⟨128 * j.val + d.val, by omega⟩) :=
  cut_apply O _ r j d _ rfl

theorem rows_p7_apply (X : (⟨S15000x7x128, .f32⟩ : BufTy).Contents (Elt Ideal)) (r : Fin 15000) (j : Fin 7) (c : Fin 128) :
    rows_p7 (F := Ideal) X (ix2 r ⟨128 * j.val + c.val, by omega⟩) = X (ix3 r j c) :=
  lay_apply X _ r j c _ rfl

theorem res_p7_apply (O : (⟨S15000x896, .f32⟩ : BufTy).Contents (Elt Ideal)) (r : Fin 15000) (j : Fin 7) (d : Fin 128) :
    res_p7 (F := Ideal) O (ix3 r j d) = O (ix2 r ⟨128 * j.val + d.val, by omega⟩) :=
  cut_apply O _ r j d _ rfl

theorem rows_c5_apply (X : (⟨S10000x5x128, .f32⟩ : BufTy).Contents (Elt Ideal)) (r : Fin 10000) (j : Fin 5) (c : Fin 128) :
    rows_c5 (F := Ideal) X (ix2 r ⟨128 * j.val + c.val, by omega⟩) = X (ix3 r j c) :=
  lay_apply X _ r j c _ rfl

theorem res_c5_apply (O : (⟨S10000x640, .f32⟩ : BufTy).Contents (Elt Ideal)) (r : Fin 10000) (j : Fin 5) (d : Fin 128) :
    res_c5 (F := Ideal) O (ix3 r j d) = O (ix2 r ⟨128 * j.val + d.val, by omega⟩) :=
  cut_apply O _ r j d _ rfl

theorem rows_c6_apply (X : (⟨S10000x6x128, .f32⟩ : BufTy).Contents (Elt Ideal)) (r : Fin 10000) (j : Fin 6) (c : Fin 128) :
    rows_c6 (F := Ideal) X (ix2 r ⟨128 * j.val + c.val, by omega⟩) = X (ix3 r j c) :=
  lay_apply X _ r j c _ rfl

theorem res_c6_apply (O : (⟨S10000x768, .f32⟩ : BufTy).Contents (Elt Ideal)) (r : Fin 10000) (j : Fin 6) (d : Fin 128) :
    res_c6 (F := Ideal) O (ix3 r j d) = O (ix2 r ⟨128 * j.val + d.val, by omega⟩) :=
  cut_apply O _ r j d _ rfl

end Cert.KernelIdeal.HostVal
-- ==== Proof.KHost0.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h0_v13 :
    after hostOps0 W (Proc.devRef .tc main_v13)
      = Pool.poolC (W (Proc.devRef .tc main_arg0)) (W (Proc.devRef .tc main_arg1)) (W (Proc.devRef .tc main_arg24)) (W (Proc.devRef .tc main_arg25)) := by
  dsimp only [hostOps0]; after_results; rfl

theorem h0_v32 :
    after hostOps0 W (Proc.devRef .tc main_v32)
      = rows_p4 (gath_p4 (Pool.poolC (W (Proc.devRef .tc main_arg0)) (W (Proc.devRef .tc main_arg1)) (W (Proc.devRef .tc main_arg24)) (W (Proc.devRef .tc main_arg25))) (W (Proc.devRef .tc main_arg26))) := by
  dsimp only [hostOps0]; after_results; rfl

theorem h0_v22 :
    after hostOps0 W (Proc.devRef .tc main_v22)
      = wTop (W (Proc.devRef .tc main_arg12)) := by
  dsimp only [hostOps0]; after_results; rfl

theorem h0_v30 :
    after hostOps0 W (Proc.devRef .tc main_v30)
      = wComb4 (W (Proc.devRef .tc main_arg12)) (W (Proc.devRef .tc main_arg13)) := by
  dsimp only [hostOps0]; after_results; rfl

theorem h0_v31 :
    after hostOps0 W (Proc.devRef .tc main_v31)
      = biasRow (W (Proc.devRef .tc main_arg14)) := by
  dsimp only [hostOps0]; after_results; rfl

end Cert.KernelIdeal.HostVal
-- ==== Proof.KHost1.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h1_v34 :
    after hostOps1 W (Proc.devRef .tc main_v34)
      = res_p4 (W (Proc.devRef .tc main_v33)) := by
  dsimp only [hostOps1]; after_results; rfl

theorem h1_v53 :
    after hostOps1 W (Proc.devRef .tc main_v53)
      = rows_p5 (gath_p5 (W (Proc.devRef .tc main_v13)) (W (Proc.devRef .tc main_arg27))) := by
  dsimp only [hostOps1]; after_results; rfl

theorem h1_v43 :
    after hostOps1 W (Proc.devRef .tc main_v43)
      = wTop (W (Proc.devRef .tc main_arg15)) := by
  dsimp only [hostOps1]; after_results; rfl

theorem h1_v51 :
    after hostOps1 W (Proc.devRef .tc main_v51)
      = wComb5 (W (Proc.devRef .tc main_arg15)) (W (Proc.devRef .tc main_arg16)) := by
  dsimp only [hostOps1]; after_results; rfl

theorem h1_v52 :
    after hostOps1 W (Proc.devRef .tc main_v52)
      = biasRow (W (Proc.devRef .tc main_arg17)) := by
  dsimp only [hostOps1]; after_results; rfl

end Cert.KernelIdeal.HostVal
-- ==== Proof.KHost2.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h2_v55 :
    after hostOps2 W (Proc.devRef .tc main_v55)
      = res_p5 (W (Proc.devRef .tc main_v54)) := by
  dsimp only [hostOps2]; after_results; rfl

theorem h2_v74 :
    after hostOps2 W (Proc.devRef .tc main_v74)
      = rows_p6 (gath_p6 (W (Proc.devRef .tc main_v13)) (W (Proc.devRef .tc main_arg28))) := by
  dsimp only [hostOps2]; after_results; rfl

theorem h2_v64 :
    after hostOps2 W (Proc.devRef .tc main_v64)
      = wTop (W (Proc.devRef .tc main_arg18)) := by
  dsimp only [hostOps2]; after_results; rfl

theorem h2_v72 :
    after hostOps2 W (Proc.devRef .tc main_v72)
      = wComb6 (W (Proc.devRef .tc main_arg18)) (W (Proc.devRef .tc main_arg19)) := by
  dsimp only [hostOps2]; after_results; rfl

theorem h2_v73 :
    after hostOps2 W (Proc.devRef .tc main_v73)
      = biasRow (W (Proc.devRef .tc main_arg20)) := by
  dsimp only [hostOps2]; after_results; rfl

end Cert.KernelIdeal.HostVal
-- ==== Proof.KHost3.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h3_v76 :
    after hostOps3 W (Proc.devRef .tc main_v76)
      = res_p6 (W (Proc.devRef .tc main_v75)) := by
  dsimp only [hostOps3]; after_results; rfl

theorem h3_v95 :
    after hostOps3 W (Proc.devRef .tc main_v95)
      = rows_p7 (gath_p7 (W (Proc.devRef .tc main_v13)) (W (Proc.devRef .tc main_arg29))) := by
  dsimp only [hostOps3]; after_results; rfl

theorem h3_v85 :
    after hostOps3 W (Proc.devRef .tc main_v85)
      = wTop (W (Proc.devRef .tc main_arg21)) := by
  dsimp only [hostOps3]; after_results; rfl

theorem h3_v93 :
    after hostOps3 W (Proc.devRef .tc main_v93)
      = wComb7 (W (Proc.devRef .tc main_arg21)) (W (Proc.devRef .tc main_arg22)) := by
  dsimp only [hostOps3]; after_results; rfl

theorem h3_v94 :
    after hostOps3 W (Proc.devRef .tc main_v94)
      = biasRow (W (Proc.devRef .tc main_arg23)) := by
  dsimp only [hostOps3]; after_results; rfl

end Cert.KernelIdeal.HostVal
-- ==== Proof.KHost4.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h4_v97 :
    after hostOps4 W (Proc.devRef .tc main_v97)
      = res_p7 (W (Proc.devRef .tc main_v96)) := by
  dsimp only [hostOps4]; after_results; rfl

theorem h4_v115 :
    after hostOps4 W (Proc.devRef .tc main_v115)
      = Pool.poolP (W (Proc.devRef .tc main_arg2)) (W (Proc.devRef .tc main_arg3)) (W (Proc.devRef .tc main_arg4)) (W (Proc.devRef .tc main_arg5)) (W (Proc.devRef .tc main_arg26)) (W (Proc.devRef .tc main_arg27)) (W (Proc.devRef .tc main_arg28)) (W (Proc.devRef .tc main_arg29)) := by
  dsimp only [hostOps4]; after_results; rfl

theorem h4_v134 :
    after hostOps4 W (Proc.devRef .tc main_v134)
      = rows_c5 (gath_c5 (Pool.poolP (W (Proc.devRef .tc main_arg2)) (W (Proc.devRef .tc main_arg3)) (W (Proc.devRef .tc main_arg4)) (W (Proc.devRef .tc main_arg5)) (W (Proc.devRef .tc main_arg26)) (W (Proc.devRef .tc main_arg27)) (W (Proc.devRef .tc main_arg28)) (W (Proc.devRef .tc main_arg29))) (W (Proc.devRef .tc main_arg24))) := by
  dsimp only [hostOps4]; after_results; rfl

theorem h4_v124 :
    after hostOps4 W (Proc.devRef .tc main_v124)
      = wTop (W (Proc.devRef .tc main_arg6)) := by
  dsimp only [hostOps4]; after_results; rfl

theorem h4_v132 :
    after hostOps4 W (Proc.devRef .tc main_v132)
      = wComb5 (W (Proc.devRef .tc main_arg6)) (W (Proc.devRef .tc main_arg7)) := by
  dsimp only [hostOps4]; after_results; rfl

theorem h4_v133 :
    after hostOps4 W (Proc.devRef .tc main_v133)
      = biasRow (W (Proc.devRef .tc main_arg8)) := by
  dsimp only [hostOps4]; after_results; rfl

end Cert.KernelIdeal.HostVal
-- ==== Proof.KHost5.lean ====
import proofs.«413924_j50869592655534_3_alg».proof.Proof.Gen.KernelIdeal.Launch
import proofs.«413924_j50869592655534_3_alg».proof.Proof.PoolEq
import proofs.«413924_j50869592655534_3_alg».proof.Proof.HostDefs

set_option maxHeartbeats 2000000

namespace Cert.KernelIdeal.HostVal

open Idealize.ShloMosaic Idealize.ShloMosaic.StableHlo Cert.KernelIdeal.Gen

variable [Facts] {F : FTy → Type} [FloatOps F] (W : Valuation τ sig (Elt F))

theorem h5_v136 :
    after hostOps5 W (Proc.devRef .tc main_v136)
      = res_c5 (W (Proc.devRef .tc main_v135)) := by
  dsimp only [hostOps5]; after_results; rfl

theorem h5_v155 :
    after hostOps5 W (Proc.devRef .tc main_v155)
      = rows_c6 (gath_c6 (W (Proc.devRef .tc main_v115)) (W (Proc.devRef .tc main_arg25))) := by
  dsimp only [hostOps5]; after_results; rfl

theorem h5_v145 :
    after hostOps5 W (Proc.devRef .tc main_v145)
      = wTop (W (Proc.devRef .tc main_arg9)) := by
  dsimp only [hostOps5]; after_results; rfl

theorem h5_v153 :
    after hostOps5 W (Proc.devRef .tc main_v153)
      = wComb6 (W (Proc.devRef .tc main_arg9)) (W (Proc.devRef .tc main_arg10)) := by
  dsimp only [hostOps5]; after_results; rfl

theorem h5_v154 :
    after hostOps5 W (Proc.devRef .tc main_v154)
      = biasRow (W (Proc.devRef .tc main_arg11)) := by
  dsimp only [hostOps5]; after_results; rfl

end Cert.KernelIdeal.HostVal
-- ==== Proof.KHost6.lean ====
import proofs.«413924_j50869592655534_3_alg».proof.Proof.Gen.KernelIdeal.Launch
import proofs.«413924_j50869592655534_3_alg».proof.Proof.PoolEq
import proofs.«413924_j50869592655534_3_alg».proof.Proof.HostDefs

namespace Cert.KernelIdeal.HostVal

open Idealize.ShloMosaic Idealize.ShloMosaic.StableHlo Cert.KernelIdeal.Gen

variable [Facts] {F : FTy → Type} [FloatOps F] (W : Valuation τ sig (Elt F))

theorem h6_v157 :
    after hostOps6 W (Proc.devRef .tc main_v157)
      = res_c6 (W (Proc.devRef .tc main_v156)) := by
  dsimp only [hostOps6]; after_results; rfl

end Cert.KernelIdeal.HostVal
-- ==== Proof.KernelHost.lean ====
import proofs.«413924_j50869592655534_3_alg».proof.Proof.KHost0
import proofs.«413924_j50869592655534_3_alg».proof.Proof.KHost1
import proofs.«413924_j50869592655534_3_alg».proof.Proof.KHost2
import proofs.«413924_j50869592655534_3_alg».proof.Proof.KHost3
import proofs.«413924_j50869592655534_3_alg».proof.Proof.KHost4
import proofs.«413924_j50869592655534_3_alg».proof.Proof.KHost5
import proofs.«413924_j50869592655534_3_alg».proof.Proof.KHost6
-- ==== Proof.Reg0Val.lean ====
import proofs.«413924_j50869592655534_3_alg».proof.Proof.Reg0
import proofs.«413924_j50869592655534_3_alg».proof.Proof.LayerMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx
open Idealize.SL.Sem
open scoped BigOperators

theorem matmul_at (a : FVec Ideal S1000x128 .bf16) (w : FVec Ideal S128x128 .bf16) (p : Fin 1000) (q : Fin 128) :
    matmul dot_S1000x128_S128x128_S1000x128_1_0_0_1_n_n none a w (constant S1000x128 .f32 0x00000000#32) (ix2 p q)
      = ∑ c : Fin 128, a (ix2 p c) * w (ix2 c q) := by
  show FloatOps.matmul _ none a w _ (ix2 p q) = _
  rw [Ideal.matmul_constant_zero_apply, ← Equiv.sum_comp (contrEquiv1 _ 128 rfl rfl).symm]
  refine Finset.sum_congr rfl fun c _ => ?_
  have hk := contrEquiv1_symm_val dot_S1000x128_S128x128_S1000x128_1_0_0_1_n_n 128 rfl rfl c
  congr 2 <;> funext ax <;> apply Fin.ext <;> match ax with
    | ⟨0, _⟩ => first | rfl | exact hk
    | ⟨1, _⟩ => first | rfl | exact hk

theorem blockRow_congr {k : ℕ} {X X' : Fin k → Fin 128 → EReal} {wt wt' wc wc' : Fin 128 → Fin 128 → EReal}
    {b b' : Fin 128 → EReal} {j j' : Fin k} {d d' : Fin 128} (hX : ∀ j a, X j a = X' j a) (hwt : ∀ a d, wt a d = wt' a d)
    (hwc : ∀ a d, wc a d = wc' a d) (hb : ∀ d, b d = b' d) (hj : j.val = j'.val) (hd : d.val = d'.val) :
    Cert.Layer.blockRow X wt wc b j d = Cert.Layer.blockRow X' wt' wc' b' j' d' := by
  obtain rfl := Fin.ext hj
  obtain rfl := Fin.ext hd
  simp only [Cert.Layer.blockRow, hX, hwt, hwc, hb]

section Slab
variable {Val : EltTy → Type} {e : EltTy} {R n m : Nat}

theorem slab_emb (o : Nat)
    (inb : ∀ a, (![0, o] : Fin 2 → Nat) a + (![R, m] : Fin 2 → Nat) a ≤ (⟨2, ![R, n]⟩ : Shape).size a)
    (p : Fin R) (q : Fin m) (k : Fin n) (hk : k.val = o + q.val) :
    (Rect.unit (s := ⟨2, ![R, n]⟩) ![0, o] ![R, m] inb).emb (ix2 p q) = ix2 p k :=
  Shape.idx_ext₂ (by show 0 + 1 * p.val = p.val; omega) (by show o + 1 * q.val = k.val; omega)

theorem ld_slab (o : Nat)
    (inb : ∀ a, (![0, o] : Fin 2 → Nat) a + (![R, m] : Fin 2 → Nat) a ≤ (⟨2, ![R, n]⟩ : Shape).size a)
    (x : (⟨2, ![R, n]⟩ : Shape).Idx → Val e) (p : Fin R) (q : Fin m) (k : Fin n) (hk : k.val = o + q.val) :
    View.ld x (Rect.unit (s := ⟨2, ![R, n]⟩) ![0, o] ![R, m] inb) (ix2 p q) = x (ix2 p k) :=
  congrArg x (slab_emb o inb p q k hk)

variable [∀ e, Nonempty (Val e)]

theorem slab_in (o : Nat)
    (inb : ∀ a, (![0, o] : Fin 2 → Nat) a + (![R, m] : Fin 2 → Nat) a ≤ (⟨2, ![R, n]⟩ : Shape).size a)
    (w : (⟨2, ![R, m]⟩ : Shape).Idx → Val e) (L : List (View.Piece Val ⟨2, ![R, n]⟩ e)) (p : Fin R) (q : Fin m) (k : Fin n)
    (hk : k.val = o + q.val) :
    View.canon (⟨Rect.unit (s := ⟨2, ![R, n]⟩) ![0, o] ![R, m] inb, w⟩ :: L) (ix2 p k) = w (ix2 p q) := by
  rw [← slab_emb o inb p q k hk]
  exact View.canon_cons_emb (Rect.unit _ _ inb) w L _

theorem slab_out (o : Nat)
    (inb : ∀ a, (![0, o] : Fin 2 → Nat) a + (![R, m] : Fin 2 → Nat) a ≤ (⟨2, ![R, n]⟩ : Shape).size a)
    (w : (⟨2, ![R, m]⟩ : Shape).Idx → Val e) (L : List (View.Piece Val ⟨2, ![R, n]⟩ e)) (p : Fin R) (k : Fin n)
    (h : k.val < o ∨ o + m ≤ k.val) :
    View.canon (⟨Rect.unit (s := ⟨2, ![R, n]⟩) ![0, o] ![R, m] inb, w⟩ :: L) (ix2 p k) = View.canon L (ix2 p k) := by
  refine View.canon_cons_of_not_mem _ L fun hm => ?_
  have c : o ≤ k.val ∧ k.val < o + m := (Rect.mem_set_unit (inb := inb)).1 hm 1
  omega

end Slab

theorem hz0 : (![0, 0] : Fin 2 → Nat) = fun _ => 0 := funext fun a => by fin_cases a <;> rfl

section Rows

variable (k : ℕ) {R R' : ℕ}

/-- Each row of 128·k channels goes to its transform, read at slab (i 1) / 128 and channel (i 1) % 128. -/
def rowG (x0 : Vec Ideal ⟨2, ![R, 128 * k]⟩ .f32) (x1 x2 : Vec Ideal S128x128 .bf16) (x3 : Vec Ideal S1x128 .f32) :
    Vec Ideal ⟨2, ![R, 128 * k]⟩ .f32 := fun i =>
  Cert.Layer.blockRow (fun (j : Fin k) (a : Fin 128) => x0 (ix2 (⟨(i 0).val, idx2_lt0 i⟩ : Fin R) ⟨128 * j.val + a.val, by omega⟩))
    (fun a d => x1 (ix2 a d)) (fun a d => x2 (ix2 a d)) (fun d => x3 (ix2 (0 : Fin 1) d))
    ⟨(i 1).val / 128, by have := idx2_lt1 i; omega⟩ ⟨(i 1).val % 128, Nat.mod_lt _ (by decide)⟩

theorem rowG_at (x0 : Vec Ideal ⟨2, ![R, 128 * k]⟩ .f32) (x1 x2 : Vec Ideal S128x128 .bf16) (x3 : Vec Ideal S1x128 .f32)
    (r : Fin R) (j : Fin k) (d : Fin 128) (q : Fin (128 * k)) (h : q.val = 128 * j.val + d.val) :
    rowG k x0 x1 x2 x3 (ix2 r q)
      = Cert.Layer.blockRow (fun (j : Fin k) (a : Fin 128) => x0 (ix2 r ⟨128 * j.val + a.val, by omega⟩)) (fun a d => x1 (ix2 a d))
          (fun a d => x2 (ix2 a d)) (fun d => x3 (ix2 (0 : Fin 1) d)) j d :=
  blockRow_congr (fun _ _ => rfl) (fun _ _ => rfl) (fun _ _ => rfl) (fun _ => rfl)
    (by show q.val / 128 = j.val; omega) (by show q.val % 128 = d.val; omega)

/-- The transform of a row depends on that row, the two maps and the bias alone. -/
theorem rowG_congr {x0 : Vec Ideal ⟨2, ![R, 128 * k]⟩ .f32} {x0' : Vec Ideal ⟨2, ![R', 128 * k]⟩ .f32}
    {x1 x1' x2 x2' : Vec Ideal S128x128 .bf16} {x3 x3' : Vec Ideal S1x128 .f32}
    {y : (⟨2, ![R, 128 * k]⟩ : Shape).Idx} {y' : (⟨2, ![R', 128 * k]⟩ : Shape).Idx}
    (h0 : ∀ q : Fin (128 * k), x0 (ix2 (⟨(y 0).val, idx2_lt0 y⟩ : Fin R) q) = x0' (ix2 (⟨(y' 0).val, idx2_lt0 y'⟩ : Fin R') q))
    (h1 : ∀ a d, x1 (ix2 a d) = x1' (ix2 a d)) (h2 : ∀ a d, x2 (ix2 a d) = x2' (ix2 a d))
    (h3 : ∀ d, x3 (ix2 (0 : Fin 1) d) = x3' (ix2 (0 : Fin 1) d)) (hy : (y 1).val = (y' 1).val) :
    rowG k x0 x1 x2 x3 y = rowG k x0' x1' x2' x3' y' :=
  blockRow_congr (fun _ _ => h0 _) h1 h2 h3 (congrArg (· / 128) hy) (congrArg (· % 128) hy)

theorem ldS_at {n : ℕ} (o : ℕ) (inb : ∀ a, (![0, o] : Fin 2 → ℕ) a + (![1000, 128] : Fin 2 → ℕ) a ≤ (⟨2, ![1000, n]⟩ : Shape).size a)
    (x : Vec Ideal ⟨2, ![1000, n]⟩ .f32) (h : S1000x128.ShapeCasts S1000x128) (p : Fin 1000) (c : Fin 128) (q : Fin n)
    (hq : q.val = o + c.val) :
    shapeCast S1000x128 (View.ld x (Rect.unit (s := ⟨2, ![1000, n]⟩) ![0, o] ![1000, 128] inb) : Vec Ideal S1000x128 .f32) h (ix2 p c)
      = x (ix2 p q) :=
  (congrFun (shapeCast_self _ h) _).trans (ld_slab o inb x p c q hq)

/-- Slab j's entry is the first map on slab j, plus the combined map on the sum of the slabs, plus the bias. -/
theorem slab_row (x0 : Vec Ideal ⟨2, ![1000, 128 * k]⟩ .f32) (x1 x2 : Vec Ideal S128x128 .bf16) (x3 : Vec Ideal S1x128 .f32)
    (p : Fin 1000) {T : FVec Ideal S1000x128 .f32}
    (hT : ∀ c : Fin 128, T (ix2 p c) = ∑ j' : Fin k, x0 (ix2 p ⟨128 * j'.val + c.val, by omega⟩)) (j : Fin k)
    {inb : ∀ a, (![0, 128 * j.val] : Fin 2 → ℕ) a + (![1000, 128] : Fin 2 → ℕ) a ≤ (⟨2, ![1000, 128 * k]⟩ : Shape).size a}
    {h1 : S1000x128.ShapeCasts S1000x128} {h2 h3 : S128x128.ShapeCasts S128x128} {h4 : S1x128.ShapeCasts S1x128}
    {h5 : S1x128.Broadcasts S1000x128} {L : List (View.Piece (Elt Ideal) ⟨2, ![1000, 128 * k]⟩ .f32)}
    (hL : ∀ q : Fin (128 * k), q.val < 128 * j.val → View.canon L (ix2 p q) = rowG k x0 x1 x2 x3 (ix2 p q))
    (q : Fin (128 * k)) (hq : q.val < 128 * j.val + 128) :
    View.canon (⟨Rect.unit (s := ⟨2, ![1000, 128 * k]⟩) ![0, 128 * j.val] ![1000, 128] inb,
        addf (matmul dot_S1000x128_S128x128_S1000x128_1_0_0_1_n_n none
            (truncf .bf16 (shapeCast S1000x128 (View.ld x0 (Rect.unit (s := ⟨2, ![1000, 128 * k]⟩) ![0, 128 * j.val] ![1000, 128] inb)
              : Vec Ideal S1000x128 .f32) h1 : FVec Ideal S1000x128 .f32) bitsLt_bf16_f32)
            (shapeCast S128x128 x1 h2 : FVec Ideal S128x128 .bf16) (constant S1000x128 .f32 0x00000000#32))
          (addf (matmul dot_S1000x128_S128x128_S1000x128_1_0_0_1_n_n none (truncf .bf16 T bitsLt_bf16_f32)
            (shapeCast S128x128 x2 h3 : FVec Ideal S128x128 .bf16) (constant S1000x128 .f32 0x00000000#32))
            (broadcastTo S1000x128 (shapeCast S1x128 x3 h4 : FVec Ideal S1x128 .f32) h5))⟩
        :: L) (ix2 p q) = rowG k x0 x1 x2 x3 (ix2 p q) := by
  by_cases h : q.val < 128 * j.val
  · exact (slab_out _ inb _ L p q (Or.inl h)).trans (hL q h)
  · obtain ⟨d, hd⟩ : ∃ d : Fin 128, q.val = 128 * j.val + d.val :=
      ⟨⟨q.val - 128 * j.val, by omega⟩, by show q.val = 128 * j.val + (q.val - 128 * j.val); omega⟩
    refine (slab_in _ inb _ L p d q hd).trans ?_
    rw [rowG_at k x0 x1 x2 x3 p j d q hd]
    simp only [shapeCast_self]
    refine (congrArg₂ (· + ·) (matmul_at _ _ p _) (congrArg₂ (· + ·) (matmul_at _ _ p _) (broadcastTo_1b_ab_apply _ _ p _))).trans ?_
    simp only [truncf_apply, hT, fun c : Fin 128 => ldS_at _ inb x0 h1 p c ⟨128 * j.val + c.val, by omega⟩ rfl]
    rfl

end Rows

theorem out0_4_idx (x0 : Vec Ideal S1000x512 .f32) (x1 x2 : Vec Ideal S128x128 .bf16) (x3 : Vec Ideal S1x128 .f32)
    (y : S1000x512.Idx) : out0_4 x0 x1 x2 x3 y = rowG 4 x0 x1 x2 x3 y := by
  rw [eq_ix2 y]
  unfold out0_4
  simp only [View.ld_unit_zero (S := S128x128) hz0, View.ld_unit_zero (S := S1x128) hz0]
  refine slab_row 4 x0 x1 x2 x3 _ ?hT 3 (slab_row 4 x0 x1 x2 x3 _ ?hT 2 (slab_row 4 x0 x1 x2 x3 _ ?hT 1
    (slab_row 4 x0 x1 x2 x3 _ ?hT 0 fun _ h => (Nat.not_lt_zero _ h).elim))) _ (idx2_lt1 y)
  intro c
  rw [Cert.Layer.sum4]
  iterate 3 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr0 (c : Dev nD) : Vec Ideal S15000x512 .f32 := V c main_v32
abbrev wtarr0 (c : Dev nD) : Vec Ideal S128x128 .bf16 := V c main_v22
abbrev wcarr0 (c : Dev nD) : Vec Ideal S128x128 .bf16 := V c main_v30
abbrev barr0 (c : Dev nD) : Vec Ideal S1x128 .f32 := V c main_v31

theorem idx0 : ∀ t : Fin cfg0.N, win0_0.index t (0 : Fin 2) = win0_4.index t (0 : Fin 2)
    ∧ win0_0.index t (1 : Fin 2) = 0 ∧ win0_4.index t (0 : Fin 2) = t.val ∧ win0_4.index t (1 : Fin 2) = 0
    ∧ ∀ a : Fin 2, win0_1.index t a = 0 ∧ win0_2.index t a = 0 ∧ win0_3.index t a = 0 :=
  (by decide +kernel : ∀ t : Fin grid0.N, _)

theorem flushed0_eq (c : Dev nD) (t : Fin cfg0.N) :
    (dat0 (F := Ideal) V c).flushed 4 t
      = ((cfg0.win 4).blk t).view.read (Elt Ideal) (rowG 4 (xarr0 V c) (wtarr0 V c) (wcarr0 V c) (barr0 V c)) := by
  show (cfg0.win 4).cut (grid0.coords t) ((dat0 (F := Ideal) V c).after 4 t) = _
  rw [after0_4]
  obtain ⟨e00, e01, e40, e41, ez⟩ := idx0 t
  funext y
  show out0_4 _ _ _ _ y = rowG 4 _ _ _ _ (((cfg0.win 4).blk t).view.emb y)
  refine (out0_4_idx _ _ _ _ y).trans (rowG_congr 4 (fun q => ?_) (fun a d => ?_) (fun a d => ?_) (fun d => ?_) ?_)
  · refine congrArg (V c main_v32) (Shape.idx_ext₂ ?_ ?_)
    · show win0_0.index t (0 : Fin 2) * 1000 + 1 * (y 0).val = win0_4.index t (0 : Fin 2) * 1000 + 1 * (y 0).val
      rw [e00]
    · show win0_0.index t (1 : Fin 2) * 512 + 1 * q.val = q.val
      omega
  · exact congrArg _ (funext fun ax => Fin.ext (Pipeline.Window.rect_emb_val_of_index_zero win0_1 t ax (ez ax).1 _))
  · exact congrArg _ (funext fun ax => Fin.ext (Pipeline.Window.rect_emb_val_of_index_zero win0_2 t ax (ez ax).2.1 _))
  · exact congrArg _ (funext fun ax => Fin.ext (Pipeline.Window.rect_emb_val_of_index_zero win0_3 t ax (ez ax).2.2 _))
  · show (y 1).val = win0_4.index t (1 : Fin 2) * 512 + 1 * (y 1).val
    omega

theorem cover0 (i : S15000x512.Idx) :
    ∃ t : Fin cfg0.N, (cfg0.win 4).flush t = true ∧ i ∈ ((cfg0.win 4).blk t).view.set := by
  have h0 : (i 0).val < 15000 := idx2_lt0 i
  have h1 : (i 1).val < 512 := idx2_lt1 i
  have ht : (i 0).val / 1000 < cfg0.N := by show (i 0).val / 1000 < 15; omega
  have e0 : win0_4.index ⟨_, ht⟩ (0 : Fin 2) = (i 0).val / 1000 := (idx0 _).2.2.1
  have e1 : win0_4.index ⟨_, ht⟩ (1 : Fin 2) = 0 := (idx0 _).2.2.2.1
  refine ⟨⟨_, ht⟩, flush0_4 _, ?_⟩
  show i ∈ ((View.whole main_v33).slice (win0_4.rect ⟨_, ht⟩)).set
  rw [View.set_slice_whole, Rect.mem_set_unit]
  intro a
  match a with
  | ⟨0, _⟩ =>
    show win0_4.index _ (0 : Fin 2) * 1000 ≤ (i 0).val ∧ (i 0).val < win0_4.index _ (0 : Fin 2) * 1000 + 1000
    omega
  | ⟨1, _⟩ =>
    show win0_4.index _ (1 : Fin 2) * 512 ≤ (i 1).val ∧ (i 1).val < win0_4.index _ (1 : Fin 2) * 512 + 512
    omega

theorem final0 (c : Dev nD) (r : Fin 15000) (j : Fin 4) (d : Fin 128) :
    ((dat0 (F := Ideal) V c).arrAt 4 cfg0.N : Vec Ideal S15000x512 .f32) (ix2 r ⟨128 * j.val + d.val, by omega⟩)
      = Cert.Layer.blockRow (fun (j : Fin 4) (a : Fin 128) => xarr0 V c (ix2 r ⟨128 * j.val + a.val, by omega⟩)) (fun a d => wtarr0 V c (ix2 a d))
          (fun a d => wcarr0 V c (ix2 a d)) (fun d => barr0 V c (ix2 (0 : Fin 1) d)) j d :=
  (congrFun ((dat0 (F := Ideal) V c).arrAt_eq_of_cover 4 (rowG 4 (xarr0 V c) (wtarr0 V c) (wcarr0 V c) (barr0 V c))
    (fun t _ => flushed0_eq V c t) cover0) _).trans (rowG_at 4 _ _ _ _ r j d _ rfl)

end Array

end Cert.KernelIdeal.Gen

end
-- ==== Proof.Reg4Val.lean ====
import proofs.«413924_j50869592655534_3_alg».proof.Proof.Reg0Val
import proofs.«413924_j50869592655534_3_alg».proof.Proof.Reg4

noncomputable section

namespace Cert.KernelIdeal.Gen

open Idealize.ShloMosaic Idealize.ShloMosaic.TcCoe Idealize.ShloMosaic.ValueIdx

theorem out4_4_idx (x0 : Vec Ideal S1000x640 .f32) (x1 x2 : Vec Ideal S128x128 .bf16) (x3 : Vec Ideal S1x128 .f32)
    (y : S1000x640.Idx) : out4_4 x0 x1 x2 x3 y = rowG 5 x0 x1 x2 x3 y := by
  rw [eq_ix2 y]
  unfold out4_4
  simp only [View.ld_unit_zero (S := S128x128) hz0, View.ld_unit_zero (S := S1x128) hz0]
  refine slab_row 5 x0 x1 x2 x3 _ ?hT 4 (slab_row 5 x0 x1 x2 x3 _ ?hT 3 (slab_row 5 x0 x1 x2 x3 _ ?hT 2
    (slab_row 5 x0 x1 x2 x3 _ ?hT 1 (slab_row 5 x0 x1 x2 x3 _ ?hT 0 fun _ h => (Nat.not_lt_zero _ h).elim)))) _ (idx2_lt1 y)
  intro c
  rw [Cert.Layer.sum5]
  iterate 4 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr4 (c : Dev nD) : Vec Ideal S10000x640 .f32 := V c main_v134
abbrev wtarr4 (c : Dev nD) : Vec Ideal S128x128 .bf16 := V c main_v124
abbrev wcarr4 (c : Dev nD) : Vec Ideal S128x128 .bf16 := V c main_v132
abbrev barr4 (c : Dev nD) : Vec Ideal S1x128 .f32 := V c main_v133

theorem idx4 : ∀ t : Fin cfg4.N, win4_0.index t (0 : Fin 2) = win4_4.index t (0 : Fin 2)
    ∧ win4_0.index t (1 : Fin 2) = 0 ∧ win4_4.index t (0 : Fin 2) = t.val ∧ win4_4.index t (1 : Fin 2) = 0
    ∧ ∀ a : Fin 2, win4_1.index t a = 0 ∧ win4_2.index t a = 0 ∧ win4_3.index t a = 0 :=
  (by decide +kernel : ∀ t : Fin grid4.N, _)

theorem flushed4_eq (c : Dev nD) (t : Fin cfg4.N) :
    (dat4 (F := Ideal) V c).flushed 4 t
      = ((cfg4.win 4).blk t).view.read (Elt Ideal) (rowG 5 (xarr4 V c) (wtarr4 V c) (wcarr4 V c) (barr4 V c)) := by
  show (cfg4.win 4).cut (grid4.coords t) ((dat4 (F := Ideal) V c).after 4 t) = _
  rw [after4_4]
  obtain ⟨e00, e01, e40, e41, ez⟩ := idx4 t
  funext y
  show out4_4 _ _ _ _ y = rowG 5 _ _ _ _ (((cfg4.win 4).blk t).view.emb y)
  refine (out4_4_idx _ _ _ _ y).trans (rowG_congr 5 (fun q => ?_) (fun a d => ?_) (fun a d => ?_) (fun d => ?_) ?_)
  · refine congrArg (V c main_v134) (Shape.idx_ext₂ ?_ ?_)
    · show win4_0.index t (0 : Fin 2) * 1000 + 1 * (y 0).val = win4_4.index t (0 : Fin 2) * 1000 + 1 * (y 0).val
      rw [e00]
    · show win4_0.index t (1 : Fin 2) * 640 + 1 * q.val = q.val
      omega
  · exact congrArg _ (funext fun ax => Fin.ext (Pipeline.Window.rect_emb_val_of_index_zero win4_1 t ax (ez ax).1 _))
  · exact congrArg _ (funext fun ax => Fin.ext (Pipeline.Window.rect_emb_val_of_index_zero win4_2 t ax (ez ax).2.1 _))
  · exact congrArg _ (funext fun ax => Fin.ext (Pipeline.Window.rect_emb_val_of_index_zero win4_3 t ax (ez ax).2.2 _))
  · show (y 1).val = win4_4.index t (1 : Fin 2) * 640 + 1 * (y 1).val
    omega

theorem cover4 (i : S10000x640.Idx) :
    ∃ t : Fin cfg4.N, (cfg4.win 4).flush t = true ∧ i ∈ ((cfg4.win 4).blk t).view.set := by
  have h0 : (i 0).val < 10000 := idx2_lt0 i
  have h1 : (i 1).val < 640 := idx2_lt1 i
  have ht : (i 0).val / 1000 < cfg4.N := by show (i 0).val / 1000 < 10; omega
  have e0 : win4_4.index ⟨_, ht⟩ (0 : Fin 2) = (i 0).val / 1000 := (idx4 _).2.2.1
  have e1 : win4_4.index ⟨_, ht⟩ (1 : Fin 2) = 0 := (idx4 _).2.2.2.1
  refine ⟨⟨_, ht⟩, flush4_4 _, ?_⟩
  show i ∈ ((View.whole main_v135).slice (win4_4.rect ⟨_, ht⟩)).set
  rw [View.set_slice_whole, Rect.mem_set_unit]
  intro a
  match a with
  | ⟨0, _⟩ =>
    show win4_4.index _ (0 : Fin 2) * 1000 ≤ (i 0).val ∧ (i 0).val < win4_4.index _ (0 : Fin 2) * 1000 + 1000
    omega
  | ⟨1, _⟩ =>
    show win4_4.index _ (1 : Fin 2) * 640 ≤ (i 1).val ∧ (i 1).val < win4_4.index _ (1 : Fin 2) * 640 + 640
    omega

theorem final4 (c : Dev nD) (r : Fin 10000) (j : Fin 5) (d : Fin 128) :
    ((dat4 (F := Ideal) V c).arrAt 4 cfg4.N : Vec Ideal S10000x640 .f32) (ix2 r ⟨128 * j.val + d.val, by omega⟩)
      = Cert.Layer.blockRow (fun (j : Fin 5) (a : Fin 128) => xarr4 V c (ix2 r ⟨128 * j.val + a.val, by omega⟩)) (fun a d => wtarr4 V c (ix2 a d))
          (fun a d => wcarr4 V c (ix2 a d)) (fun d => barr4 V c (ix2 (0 : Fin 1) d)) j d :=
  (congrFun ((dat4 (F := Ideal) V c).arrAt_eq_of_cover 4 (rowG 5 (xarr4 V c) (wtarr4 V c) (wcarr4 V c) (barr4 V c))
    (fun t _ => flushed4_eq V c t) cover4) _).trans (rowG_at 5 _ _ _ _ r j d _ rfl)

end Array

end Cert.KernelIdeal.Gen

end
-- ==== Proof.TagP4a.lean ====
import proofs.«413924_j50869592655534_3_alg».proof.Proof.PoolEq
import proofs.«413924_j50869592655534_3_alg».proof.Proof.RefRead
import proofs.«413924_j50869592655534_3_alg».proof.Proof.HostDefs
import proofs.«413924_j50869592655534_3_alg».proof.Proof.LayerMath

namespace Cert.Bridge

open Idealize.ShloMosaic Idealize.ShloMosaic.ValueIdx

-- Every index of a rank-3 array is a triple of coordinates.
theorem ext3 {α : Type} {n0 n1 n2 : Nat} {A B : (⟨3, ![n0, n1, n2]⟩ : Shape).Idx → α}
    (h : ∀ r j d, A (ix3 r j d) = B (ix3 r j d)) : A = B :=
  funext fun i => eq_ix3 i ▸ h _ _ _

end Cert.Bridge
-- ==== Proof.PreFin.lean ====
import proofs.«413924_j50869592655534_3_alg».proof.Defs
import proofs.«413924_j50869592655534_3_alg».proof.Proof.Gen.Pre_finite_inputs
import proofs.«413924_j50869592655534_3_alg».proof.Proof.LayerMath
import Idealize.ShloMosaic.Lib.ReduceAll
import Idealize.ShloMosaic.Lib.ValueIdx
import Idealize.ShloMosaic.PureOps.Ideal

noncomputable section

namespace Cert.PreFin

open Idealize.ShloMosaic Idealize.SL.Sem
open Cert.Layer (IsFin)
open Cert.Pre_finite_inputs (S_)

variable {S : Shape} {a b : IVec S 1}

theorem fst (e : andi a b = fun _ => 1#1) : a = fun _ => 1#1 :=
  funext fun i => (IntOp.andi_eq_one.1 (congrFun e i)).1

theorem snd (e : andi a b = fun _ => 1#1) : b = fun _ => 1#1 :=
  funext fun i => (IntOp.andi_eq_one.1 (congrFun e i)).2

-- An extended real with max x (-x) < ⊤ is neither infinity, and the conjunction over all entries is 1 only if each is.
theorem fin {axes : List (Fin S.rank)} {x : FVec Ideal S .f32} {hb : S_.BroadcastsInDim S ![]}
    {hr : S.ReducesTo axes S_} {hS : 0 < S_.numel}
    (e : Host.reduce IntOp.andi (cmpf .olt (Host.absf x) (broadcastInDim S ![] hb (constant S_ .f32 0x7F800000#32)))
      (constantI S_ 1 1#1) hr hS = fun _ => 1#1) (i : S.Idx) : IsFin (x i) := by
  have h : Ideal.cmp .olt (max (x i : EReal) (-(x i : EReal))) (Ideal.ofBits .f32 0x7F800000#32) = 1#1 :=
    Host.reduce_andi_eq_one _ _ hr hS _ (congrFun e ValueIdx.ix0) i (ValueIdx.eq_ix0 _)
  generalize (x i : EReal) = y at h ⊢
  induction y using EReal.rec with
  | coe r => exact ⟨r, rfl⟩
  | _ => simp [Ideal.cmp, Ideal.ofBits, Ideal.ieee] at h

open Cert.KernelIdeal

variable [hPre_finite_inputs : Cert.Pre_finite_inputs.Facts] (m : (ℓ : Loc nD τ sig) → Buf (Elt Ideal) ℓ)
  (h : Cert.Pre_KernelIdeal m) (c : Dev nD)
include h

theorem fin_arg0 : ∀ i, IsFin (m (c.tc.loc main_arg0) i) :=
  fin (fst (fst (fst (fst (fst (fst (fst (fst (fst (fst (fst (fst (fst (fst (fst (fst (fst (fst (fst (fst (fst (fst (fst (h c))))))))))))))))))))))))

theorem fin_arg1 : ∀ i, IsFin (m (c.tc.loc main_arg1) i) :=
  fin (snd (fst (fst (fst (fst (fst (fst (fst (fst (fst (fst (fst (fst (fst (fst (fst (fst (fst (fst (fst (fst (fst (fst (h c))))))))))))))))))))))))

theorem fin_arg2 : ∀ i, IsFin (m (c.tc.loc main_arg2) i) :=
  fin (snd (fst (fst (fst (fst (fst (fst (fst (fst (fst (fst (fst (fst (fst (fst (fst (fst (fst (fst (fst (fst (fst (h c)))))))))))))))))))))))

theorem fin_arg3 : ∀ i, IsFin (m (c.tc.loc main_arg3) i) :=
  fin (snd (fst (fst (fst (fst (fst (fst (fst (fst (fst (fst (fst (fst (fst (fst (fst (fst (fst (fst (fst (fst (h c))))))))))))))))))))))

theorem fin_arg4 : ∀ i, IsFin (m (c.tc.loc main_arg4) i) :=
  fin (snd (fst (fst (fst (fst (fst (fst (fst (fst (fst (fst (fst (fst (fst (fst (fst (fst (fst (fst (fst (h c)))))))))))))))))))))

theorem fin_arg5 : ∀ i, IsFin (m (c.tc.loc main_arg5) i) :=
  fin (snd (fst (fst (fst (fst (fst (fst (fst (fst (fst (fst (fst (fst (fst (fst (fst (fst (fst (fst (h c))))))))))))))))))))

theorem fin_arg6 : ∀ i, IsFin (m (c.tc.loc main_arg6) i) :=
  fin (snd (fst (fst (fst (fst (fst (fst (fst (fst (fst (fst (fst (fst (fst (fst (fst (fst (fst (h c)))))))))))))))))))

theorem fin_arg7 : ∀ i, IsFin (m (c.tc.loc main_arg7) i) :=
  fin (snd (fst (fst (fst (fst (fst (fst (fst (fst (fst (fst (fst (fst (fst (fst (fst (fst (h c))))))))))))))))))

theorem fin_arg9 : ∀ i, IsFin (m (c.tc.loc main_arg9) i) :=
  fin (snd (fst (fst (fst (fst (fst (fst (fst (fst (fst (fst (fst (fst (fst (fst (h c))))))))))))))))

theorem fin_arg10 : ∀ i, IsFin (m (c.tc.loc main_arg10) i) :=
  fin (snd (fst (fst (fst (fst (fst (fst (fst (fst (fst (fst (fst (fst (fst (h c)))))))))))))))

theorem fin_arg12 : ∀ i, IsFin (m (c.tc.loc main_arg12) i) :=
  fin (snd (fst (fst (fst (fst (fst (fst (fst (fst (fst (fst (fst (h c)))))))))))))

theorem fin_arg13 : ∀ i, IsFin (m (c.tc.loc main_arg13) i) :=
  fin (snd (fst (fst (fst (fst (fst (fst (fst (fst (fst (fst (h c))))))))))))

theorem fin_arg15 : ∀ i, IsFin (m (c.tc.loc main_arg15) i) :=
  fin (snd (fst (fst (fst (fst (fst (fst (fst (fst (h c))))))))))

theorem fin_arg16 : ∀ i, IsFin (m (c.tc.loc main_arg16) i) :=
  fin (snd (fst (fst (fst (fst (fst (fst (fst (h c)))))))))

theorem fin_arg18 : ∀ i, IsFin (m (c.tc.loc main_arg18) i) :=
  fin (snd (fst (fst (fst (fst (fst (h c)))))))

theorem fin_arg19 : ∀ i, IsFin (m (c.tc.loc main_arg19) i) :=
  fin (snd (fst (fst (fst (fst (h c))))))

theorem fin_arg21 : ∀ i, IsFin (m (c.tc.loc main_arg21) i) :=
  fin (snd (fst (fst (h c))))

theorem fin_arg22 : ∀ i, IsFin (m (c.tc.loc main_arg22) i) :=
  fin (snd (fst (h c)))

end Cert.PreFin
-- ==== Proof.TagC5b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg4Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_c5 (h : Cert.Pre_KernelIdeal m) (c : Dev nD) :
    (V13 m (OUTS m) c main_v136 : FVec Ideal S10000x5x128 .f32)
      = Cert.ReferenceIdeal.RefValue.layer_c5 (F := Ideal)
          (Cert.ReferenceIdeal.RefValue.gath_c5 (F := Ideal)
            (Cert.ReferenceIdeal.Pool.poolP (F := Ideal) (m ((c : Thread nD τ).loc main_arg2)) (m ((c : Thread nD τ).loc main_arg3)) (m ((c : Thread nD τ).loc main_arg4)) (m ((c : Thread nD τ).loc main_arg5)) (m ((c : Thread nD τ).loc main_arg26)) (m ((c : Thread nD τ).loc main_arg27)) (m ((c : Thread nD τ).loc main_arg28)) (m ((c : Thread nD τ).loc main_arg29))) (m ((c : Thread nD τ).loc main_arg24)))
          (m ((c : Thread nD τ).loc main_arg6)) (m ((c : Thread nD τ).loc main_arg7)) (m ((c : Thread nD τ).loc main_arg8)) := by
  refine ext3 fun r j d => ?_
  rw [Cert.ReferenceIdeal.RefValue.layer_c5, Cert.ReferenceIdeal.RefValue.layer_apply]
  refine Eq.trans ?_ (ker_eq_ref _ _ _ _ (fun _ _ => Cert.Pool.poolP_fin _ _ _ _ _ _ _ _ (fin_arg2 m h c) (fin_arg3 m h c) (fin_arg4 m h c) (fin_arg5 m h c) _)
    (fun _ _ => fin_arg6 m h c _) (fun _ _ => fin_arg7 m h c _) _ _)
  rw [(V13_v136 m (OUTS m) c).trans (h5_v136 (V10 m (OUTS m) c)), V10_v135, outs_10, res_c5_apply, final4, kerRow_eq_blockRow]
  refine blockRow_congr (fun j a => ?_) (fun a d => ?_) (fun a d => ?_) (fun d => ?_) rfl rfl
  · refine (congrFun (h4_v134 (V8 m (OUTS m) c)) _).trans ?_
    rw [V8_arg2, V8_arg3, V8_arg4, V8_arg5, V8_arg26, V8_arg27, V8_arg28, V8_arg29, V8_arg24, rows_c5_apply, Cert.Pool.poolP_eq]
    rfl
  · refine (congrFun (h4_v124 (V8 m (OUTS m) c)) _).trans ?_
    rw [V8_arg6, wTop_apply]
  · refine (congrFun (h4_v132 (V8 m (OUTS m) c)) _).trans ?_
    rw [V8_arg6, V8_arg7, wComb5_apply]
  · refine (congrFun (h4_v133 (V8 m (OUTS m) c)) _).trans ?_
    rw [V8_arg8, biasRow_apply]

end Cert.Bridge
-- ==== Proof.Reg5Val.lean ====
import proofs.«413924_j50869592655534_3_alg».proof.Proof.Reg0Val
import proofs.«413924_j50869592655534_3_alg».proof.Proof.Reg5

noncomputable section

namespace Cert.KernelIdeal.Gen

open Idealize.ShloMosaic Idealize.ShloMosaic.TcCoe Idealize.ShloMosaic.ValueIdx

theorem out5_4_idx (x0 : Vec Ideal S1000x768 .f32) (x1 x2 : Vec Ideal S128x128 .bf16) (x3 : Vec Ideal S1x128 .f32)
    (y : S1000x768.Idx) : out5_4 x0 x1 x2 x3 y = rowG 6 x0 x1 x2 x3 y := by
  rw [eq_ix2 y]
  unfold out5_4
  simp only [View.ld_unit_zero (S := S128x128) hz0, View.ld_unit_zero (S := S1x128) hz0]
  refine slab_row 6 x0 x1 x2 x3 _ ?hT 5 (slab_row 6 x0 x1 x2 x3 _ ?hT 4 (slab_row 6 x0 x1 x2 x3 _ ?hT 3
    (slab_row 6 x0 x1 x2 x3 _ ?hT 2 (slab_row 6 x0 x1 x2 x3 _ ?hT 1 (slab_row 6 x0 x1 x2 x3 _ ?hT 0 fun _ h => (Nat.not_lt_zero _ h).elim))))) _ (idx2_lt1 y)
  intro c
  rw [Cert.Layer.sum6]
  iterate 5 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr5 (c : Dev nD) : Vec Ideal S10000x768 .f32 := V c main_v155
abbrev wtarr5 (c : Dev nD) : Vec Ideal S128x128 .bf16 := V c main_v145
abbrev wcarr5 (c : Dev nD) : Vec Ideal S128x128 .bf16 := V c main_v153
abbrev barr5 (c : Dev nD) : Vec Ideal S1x128 .f32 := V c main_v154

theorem idx5 : ∀ t : Fin cfg5.N, win5_0.index t (0 : Fin 2) = win5_4.index t (0 : Fin 2)
    ∧ win5_0.index t (1 : Fin 2) = 0 ∧ win5_4.index t (0 : Fin 2) = t.val ∧ win5_4.index t (1 : Fin 2) = 0
    ∧ ∀ a : Fin 2, win5_1.index t a = 0 ∧ win5_2.index t a = 0 ∧ win5_3.index t a = 0 :=
  (by decide +kernel : ∀ t : Fin grid5.N, _)

theorem flushed5_eq (c : Dev nD) (t : Fin cfg5.N) :
    (dat5 (F := Ideal) V c).flushed 4 t
      = ((cfg5.win 4).blk t).view.read (Elt Ideal) (rowG 6 (xarr5 V c) (wtarr5 V c) (wcarr5 V c) (barr5 V c)) := by
  show (cfg5.win 4).cut (grid5.coords t) ((dat5 (F := Ideal) V c).after 4 t) = _
  rw [after5_4]
  obtain ⟨e00, e01, e40, e41, ez⟩ := idx5 t
  funext y
  show out5_4 _ _ _ _ y = rowG 6 _ _ _ _ (((cfg5.win 4).blk t).view.emb y)
  refine (out5_4_idx _ _ _ _ y).trans (rowG_congr 6 (fun q => ?_) (fun a d => ?_) (fun a d => ?_) (fun d => ?_) ?_)
  · refine congrArg (V c main_v155) (Shape.idx_ext₂ ?_ ?_)
    · show win5_0.index t (0 : Fin 2) * 1000 + 1 * (y 0).val = win5_4.index t (0 : Fin 2) * 1000 + 1 * (y 0).val
      rw [e00]
    · show win5_0.index t (1 : Fin 2) * 768 + 1 * q.val = q.val
      omega
  · exact congrArg _ (funext fun ax => Fin.ext (Pipeline.Window.rect_emb_val_of_index_zero win5_1 t ax (ez ax).1 _))
  · exact congrArg _ (funext fun ax => Fin.ext (Pipeline.Window.rect_emb_val_of_index_zero win5_2 t ax (ez ax).2.1 _))
  · exact congrArg _ (funext fun ax => Fin.ext (Pipeline.Window.rect_emb_val_of_index_zero win5_3 t ax (ez ax).2.2 _))
  · show (y 1).val = win5_4.index t (1 : Fin 2) * 768 + 1 * (y 1).val
    omega

theorem cover5 (i : S10000x768.Idx) :
    ∃ t : Fin cfg5.N, (cfg5.win 4).flush t = true ∧ i ∈ ((cfg5.win 4).blk t).view.set := by
  have h0 : (i 0).val < 10000 := idx2_lt0 i
  have h1 : (i 1).val < 768 := idx2_lt1 i
  have ht : (i 0).val / 1000 < cfg5.N := by show (i 0).val / 1000 < 10; omega
  have e0 : win5_4.index ⟨_, ht⟩ (0 : Fin 2) = (i 0).val / 1000 := (idx5 _).2.2.1
  have e1 : win5_4.index ⟨_, ht⟩ (1 : Fin 2) = 0 := (idx5 _).2.2.2.1
  refine ⟨⟨_, ht⟩, flush5_4 _, ?_⟩
  show i ∈ ((View.whole main_v156).slice (win5_4.rect ⟨_, ht⟩)).set
  rw [View.set_slice_whole, Rect.mem_set_unit]
  intro a
  match a with
  | ⟨0, _⟩ =>
    show win5_4.index _ (0 : Fin 2) * 1000 ≤ (i 0).val ∧ (i 0).val < win5_4.index _ (0 : Fin 2) * 1000 + 1000
    omega
  | ⟨1, _⟩ =>
    show win5_4.index _ (1 : Fin 2) * 768 ≤ (i 1).val ∧ (i 1).val < win5_4.index _ (1 : Fin 2) * 768 + 768
    omega

theorem final5 (c : Dev nD) (r : Fin 10000) (j : Fin 6) (d : Fin 128) :
    ((dat5 (F := Ideal) V c).arrAt 4 cfg5.N : Vec Ideal S10000x768 .f32) (ix2 r ⟨128 * j.val + d.val, by omega⟩)
      = Cert.Layer.blockRow (fun (j : Fin 6) (a : Fin 128) => xarr5 V c (ix2 r ⟨128 * j.val + a.val, by omega⟩)) (fun a d => wtarr5 V c (ix2 a d))
          (fun a d => wcarr5 V c (ix2 a d)) (fun d => barr5 V c (ix2 (0 : Fin 1) d)) j d :=
  (congrFun ((dat5 (F := Ideal) V c).arrAt_eq_of_cover 4 (rowG 6 (xarr5 V c) (wtarr5 V c) (wcarr5 V c) (barr5 V c))
    (fun t _ => flushed5_eq V c t) cover5) _).trans (rowG_at 6 _ _ _ _ r j d _ rfl)

end Array

end Cert.KernelIdeal.Gen

end
-- ==== Proof.TagC6b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg5Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_c6 (h : Cert.Pre_KernelIdeal m) (c : Dev nD) :
    (V13 m (OUTS m) c main_v157 : FVec Ideal S10000x6x128 .f32)
      = Cert.ReferenceIdeal.RefValue.layer_c6 (F := Ideal)
          (Cert.ReferenceIdeal.RefValue.gath_c6 (F := Ideal)
            (Cert.ReferenceIdeal.Pool.poolP (F := Ideal) (m ((c : Thread nD τ).loc main_arg2)) (m ((c : Thread nD τ).loc main_arg3)) (m ((c : Thread nD τ).loc main_arg4)) (m ((c : Thread nD τ).loc main_arg5)) (m ((c : Thread nD τ).loc main_arg26)) (m ((c : Thread nD τ).loc main_arg27)) (m ((c : Thread nD τ).loc main_arg28)) (m ((c : Thread nD τ).loc main_arg29))) (m ((c : Thread nD τ).loc main_arg25)))
          (m ((c : Thread nD τ).loc main_arg9)) (m ((c : Thread nD τ).loc main_arg10)) (m ((c : Thread nD τ).loc main_arg11)) := by
  refine ext3 fun r j d => ?_
  rw [Cert.ReferenceIdeal.RefValue.layer_c6, Cert.ReferenceIdeal.RefValue.layer_apply]
  refine Eq.trans ?_ (ker_eq_ref _ _ _ _ (fun _ _ => Cert.Pool.poolP_fin _ _ _ _ _ _ _ _ (fin_arg2 m h c) (fin_arg3 m h c) (fin_arg4 m h c) (fin_arg5 m h c) _)
    (fun _ _ => fin_arg9 m h c _) (fun _ _ => fin_arg10 m h c _) _ _)
  refine (congrFun (h6_v157 (V12 m (OUTS m) c)) _).trans ?_
  rw [V12_v156, outs_12, res_c6_apply, final5, kerRow_eq_blockRow]
  refine blockRow_congr (fun j a => ?_) (fun a d => ?_) (fun a d => ?_) (fun d => ?_) rfl rfl
  · refine (congrFun (h5_v155 (V10 m (OUTS m) c)) _).trans ?_
    rw [(V10_v115 m (OUTS m) c).trans (h4_v115 (V8 m (OUTS m) c)), V8_arg2, V8_arg3, V8_arg4, V8_arg5, V8_arg26, V8_arg27, V8_arg28, V8_arg29, V10_arg25, rows_c6_apply, Cert.Pool.poolP_eq]
    rfl
  · refine (congrFun (h5_v145 (V10 m (OUTS m) c)) _).trans ?_
    rw [V10_arg9, wTop_apply]
  · refine (congrFun (h5_v153 (V10 m (OUTS m) c)) _).trans ?_
    rw [V10_arg9, V10_arg10, wComb6_apply]
  · refine (congrFun (h5_v154 (V10 m (OUTS m) c)) _).trans ?_
    rw [V10_arg11, biasRow_apply]

end Cert.Bridge
-- ==== Proof.TagP4b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg0Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_p4 (h : Cert.Pre_KernelIdeal m) (c : Dev nD) :
    (V13 m (OUTS m) c main_v34 : FVec Ideal S15000x4x128 .f32)
      = Cert.ReferenceIdeal.RefValue.layer_p4 (F := Ideal)
          (Cert.ReferenceIdeal.RefValue.gath_p4 (F := Ideal)
            (Cert.ReferenceIdeal.Pool.poolC (F := Ideal) (m ((c : Thread nD τ).loc main_arg0)) (m ((c : Thread nD τ).loc main_arg1)) (m ((c : Thread nD τ).loc main_arg24)) (m ((c : Thread nD τ).loc main_arg25))) (m ((c : Thread nD τ).loc main_arg26)))
          (m ((c : Thread nD τ).loc main_arg12)) (m ((c : Thread nD τ).loc main_arg13)) (m ((c : Thread nD τ).loc main_arg14)) := by
  refine ext3 fun r j d => ?_
  rw [Cert.ReferenceIdeal.RefValue.layer_p4, Cert.ReferenceIdeal.RefValue.layer_apply]
  refine Eq.trans ?_ (ker_eq_ref _ _ _ _ (fun _ _ => Cert.Pool.poolC_fin _ _ _ _ (fin_arg0 m h c) (fin_arg1 m h c) _)
    (fun _ _ => fin_arg12 m h c _) (fun _ _ => fin_arg13 m h c _) _ _)
  rw [(V13_v34 m (OUTS m) c).trans (h1_v34 (V2 m (OUTS m) c)), V2_v33, outs_2, res_p4_apply, final0, kerRow_eq_blockRow]
  refine blockRow_congr (fun j a => ?_) (fun a d => ?_) (fun a d => ?_) (fun d => ?_) rfl rfl
  · refine (congrFun (h0_v32 (V0 m c)) _).trans ?_
    rw [rows_p4_apply, Cert.Pool.poolC_eq]
    rfl
  · exact (congrFun (h0_v22 (V0 m c)) _).trans (wTop_apply _ a d)
  · exact (congrFun (h0_v30 (V0 m c)) _).trans (wComb4_apply _ _ a d)
  · exact (congrFun (h0_v31 (V0 m c)) _).trans (biasRow_apply _ d)

end Cert.Bridge
-- ==== Proof.Reg1Val.lean ====
import proofs.«413924_j50869592655534_3_alg».proof.Proof.Reg0Val
import proofs.«413924_j50869592655534_3_alg».proof.Proof.Reg1

noncomputable section

namespace Cert.KernelIdeal.Gen

open Idealize.ShloMosaic Idealize.ShloMosaic.TcCoe Idealize.ShloMosaic.ValueIdx

theorem out1_4_idx (x0 : Vec Ideal S1000x640 .f32) (x1 x2 : Vec Ideal S128x128 .bf16) (x3 : Vec Ideal S1x128 .f32)
    (y : S1000x640.Idx) : out1_4 x0 x1 x2 x3 y = rowG 5 x0 x1 x2 x3 y := by
  rw [eq_ix2 y]
  unfold out1_4
  simp only [View.ld_unit_zero (S := S128x128) hz0, View.ld_unit_zero (S := S1x128) hz0]
  refine slab_row 5 x0 x1 x2 x3 _ ?hT 4 (slab_row 5 x0 x1 x2 x3 _ ?hT 3 (slab_row 5 x0 x1 x2 x3 _ ?hT 2
    (slab_row 5 x0 x1 x2 x3 _ ?hT 1 (slab_row 5 x0 x1 x2 x3 _ ?hT 0 fun _ h => (Nat.not_lt_zero _ h).elim)))) _ (idx2_lt1 y)
  intro c
  rw [Cert.Layer.sum5]
  iterate 4 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr1 (c : Dev nD) : Vec Ideal S15000x640 .f32 := V c main_v53
abbrev wtarr1 (c : Dev nD) : Vec Ideal S128x128 .bf16 := V c main_v43
abbrev wcarr1 (c : Dev nD) : Vec Ideal S128x128 .bf16 := V c main_v51
abbrev barr1 (c : Dev nD) : Vec Ideal S1x128 .f32 := V c main_v52

theorem idx1 : ∀ t : Fin cfg1.N, win1_0.index t (0 : Fin 2) = win1_4.index t (0 : Fin 2)
    ∧ win1_0.index t (1 : Fin 2) = 0 ∧ win1_4.index t (0 : Fin 2) = t.val ∧ win1_4.index t (1 : Fin 2) = 0
    ∧ ∀ a : Fin 2, win1_1.index t a = 0 ∧ win1_2.index t a = 0 ∧ win1_3.index t a = 0 :=
  (by decide +kernel : ∀ t : Fin grid1.N, _)

theorem flushed1_eq (c : Dev nD) (t : Fin cfg1.N) :
    (dat1 (F := Ideal) V c).flushed 4 t
      = ((cfg1.win 4).blk t).view.read (Elt Ideal) (rowG 5 (xarr1 V c) (wtarr1 V c) (wcarr1 V c) (barr1 V c)) := by
  show (cfg1.win 4).cut (grid1.coords t) ((dat1 (F := Ideal) V c).after 4 t) = _
  rw [after1_4]
  obtain ⟨e00, e01, e40, e41, ez⟩ := idx1 t
  funext y
  show out1_4 _ _ _ _ y = rowG 5 _ _ _ _ (((cfg1.win 4).blk t).view.emb y)
  refine (out1_4_idx _ _ _ _ y).trans (rowG_congr 5 (fun q => ?_) (fun a d => ?_) (fun a d => ?_) (fun d => ?_) ?_)
  · refine congrArg (V c main_v53) (Shape.idx_ext₂ ?_ ?_)
    · show win1_0.index t (0 : Fin 2) * 1000 + 1 * (y 0).val = win1_4.index t (0 : Fin 2) * 1000 + 1 * (y 0).val
      rw [e00]
    · show win1_0.index t (1 : Fin 2) * 640 + 1 * q.val = q.val
      omega
  · exact congrArg _ (funext fun ax => Fin.ext (Pipeline.Window.rect_emb_val_of_index_zero win1_1 t ax (ez ax).1 _))
  · exact congrArg _ (funext fun ax => Fin.ext (Pipeline.Window.rect_emb_val_of_index_zero win1_2 t ax (ez ax).2.1 _))
  · exact congrArg _ (funext fun ax => Fin.ext (Pipeline.Window.rect_emb_val_of_index_zero win1_3 t ax (ez ax).2.2 _))
  · show (y 1).val = win1_4.index t (1 : Fin 2) * 640 + 1 * (y 1).val
    omega

theorem cover1 (i : S15000x640.Idx) :
    ∃ t : Fin cfg1.N, (cfg1.win 4).flush t = true ∧ i ∈ ((cfg1.win 4).blk t).view.set := by
  have h0 : (i 0).val < 15000 := idx2_lt0 i
  have h1 : (i 1).val < 640 := idx2_lt1 i
  have ht : (i 0).val / 1000 < cfg1.N := by show (i 0).val / 1000 < 15; omega
  have e0 : win1_4.index ⟨_, ht⟩ (0 : Fin 2) = (i 0).val / 1000 := (idx1 _).2.2.1
  have e1 : win1_4.index ⟨_, ht⟩ (1 : Fin 2) = 0 := (idx1 _).2.2.2.1
  refine ⟨⟨_, ht⟩, flush1_4 _, ?_⟩
  show i ∈ ((View.whole main_v54).slice (win1_4.rect ⟨_, ht⟩)).set
  rw [View.set_slice_whole, Rect.mem_set_unit]
  intro a
  match a with
  | ⟨0, _⟩ =>
    show win1_4.index _ (0 : Fin 2) * 1000 ≤ (i 0).val ∧ (i 0).val < win1_4.index _ (0 : Fin 2) * 1000 + 1000
    omega
  | ⟨1, _⟩ =>
    show win1_4.index _ (1 : Fin 2) * 640 ≤ (i 1).val ∧ (i 1).val < win1_4.index _ (1 : Fin 2) * 640 + 640
    omega

theorem final1 (c : Dev nD) (r : Fin 15000) (j : Fin 5) (d : Fin 128) :
    ((dat1 (F := Ideal) V c).arrAt 4 cfg1.N : Vec Ideal S15000x640 .f32) (ix2 r ⟨128 * j.val + d.val, by omega⟩)
      = Cert.Layer.blockRow (fun (j : Fin 5) (a : Fin 128) => xarr1 V c (ix2 r ⟨128 * j.val + a.val, by omega⟩)) (fun a d => wtarr1 V c (ix2 a d))
          (fun a d => wcarr1 V c (ix2 a d)) (fun d => barr1 V c (ix2 (0 : Fin 1) d)) j d :=
  (congrFun ((dat1 (F := Ideal) V c).arrAt_eq_of_cover 4 (rowG 5 (xarr1 V c) (wtarr1 V c) (wcarr1 V c) (barr1 V c))
    (fun t _ => flushed1_eq V c t) cover1) _).trans (rowG_at 5 _ _ _ _ r j d _ rfl)

end Array

end Cert.KernelIdeal.Gen

end
-- ==== Proof.TagP5b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg1Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_p5 (h : Cert.Pre_KernelIdeal m) (c : Dev nD) :
    (V13 m (OUTS m) c main_v55 : FVec Ideal S15000x5x128 .f32)
      = Cert.ReferenceIdeal.RefValue.layer_p5 (F := Ideal)
          (Cert.ReferenceIdeal.RefValue.gath_p5 (F := Ideal)
            (Cert.ReferenceIdeal.Pool.poolC (F := Ideal) (m ((c : Thread nD τ).loc main_arg0)) (m ((c : Thread nD τ).loc main_arg1)) (m ((c : Thread nD τ).loc main_arg24)) (m ((c : Thread nD τ).loc main_arg25))) (m ((c : Thread nD τ).loc main_arg27)))
          (m ((c : Thread nD τ).loc main_arg15)) (m ((c : Thread nD τ).loc main_arg16)) (m ((c : Thread nD τ).loc main_arg17)) := by
  refine ext3 fun r j d => ?_
  rw [Cert.ReferenceIdeal.RefValue.layer_p5, Cert.ReferenceIdeal.RefValue.layer_apply]
  refine Eq.trans ?_ (ker_eq_ref _ _ _ _ (fun _ _ => Cert.Pool.poolC_fin _ _ _ _ (fin_arg0 m h c) (fin_arg1 m h c) _)
    (fun _ _ => fin_arg15 m h c _) (fun _ _ => fin_arg16 m h c _) _ _)
  rw [(V13_v55 m (OUTS m) c).trans (h2_v55 (V4 m (OUTS m) c)), V4_v54, outs_4, res_p5_apply, final1, kerRow_eq_blockRow]
  refine blockRow_congr (fun j a => ?_) (fun a d => ?_) (fun a d => ?_) (fun d => ?_) rfl rfl
  · refine (congrFun (h1_v53 (V2 m (OUTS m) c)) _).trans ?_
    rw [(V2_v13 m (OUTS m) c).trans (h0_v13 (V0 m c)), V2_arg27, rows_p5_apply, Cert.Pool.poolC_eq]
    rfl
  · refine (congrFun (h1_v43 (V2 m (OUTS m) c)) _).trans ?_
    rw [V2_arg15, wTop_apply]
  · refine (congrFun (h1_v51 (V2 m (OUTS m) c)) _).trans ?_
    rw [V2_arg15, V2_arg16, wComb5_apply]
  · refine (congrFun (h1_v52 (V2 m (OUTS m) c)) _).trans ?_
    rw [V2_arg17, biasRow_apply]

end Cert.Bridge
-- ==== Proof.Reg2Val.lean ====
import proofs.«413924_j50869592655534_3_alg».proof.Proof.Reg0Val
import proofs.«413924_j50869592655534_3_alg».proof.Proof.Reg2

noncomputable section

namespace Cert.KernelIdeal.Gen

open Idealize.ShloMosaic Idealize.ShloMosaic.TcCoe Idealize.ShloMosaic.ValueIdx

theorem out2_4_idx (x0 : Vec Ideal S1000x768 .f32) (x1 x2 : Vec Ideal S128x128 .bf16) (x3 : Vec Ideal S1x128 .f32)
    (y : S1000x768.Idx) : out2_4 x0 x1 x2 x3 y = rowG 6 x0 x1 x2 x3 y := by
  rw [eq_ix2 y]
  unfold out2_4
  simp only [View.ld_unit_zero (S := S128x128) hz0, View.ld_unit_zero (S := S1x128) hz0]
  refine slab_row 6 x0 x1 x2 x3 _ ?hT 5 (slab_row 6 x0 x1 x2 x3 _ ?hT 4 (slab_row 6 x0 x1 x2 x3 _ ?hT 3
    (slab_row 6 x0 x1 x2 x3 _ ?hT 2 (slab_row 6 x0 x1 x2 x3 _ ?hT 1 (slab_row 6 x0 x1 x2 x3 _ ?hT 0 fun _ h => (Nat.not_lt_zero _ h).elim))))) _ (idx2_lt1 y)
  intro c
  rw [Cert.Layer.sum6]
  iterate 5 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr2 (c : Dev nD) : Vec Ideal S15000x768 .f32 := V c main_v74
abbrev wtarr2 (c : Dev nD) : Vec Ideal S128x128 .bf16 := V c main_v64
abbrev wcarr2 (c : Dev nD) : Vec Ideal S128x128 .bf16 := V c main_v72
abbrev barr2 (c : Dev nD) : Vec Ideal S1x128 .f32 := V c main_v73

theorem idx2 : ∀ t : Fin cfg2.N, win2_0.index t (0 : Fin 2) = win2_4.index t (0 : Fin 2)
    ∧ win2_0.index t (1 : Fin 2) = 0 ∧ win2_4.index t (0 : Fin 2) = t.val ∧ win2_4.index t (1 : Fin 2) = 0
    ∧ ∀ a : Fin 2, win2_1.index t a = 0 ∧ win2_2.index t a = 0 ∧ win2_3.index t a = 0 :=
  (by decide +kernel : ∀ t : Fin grid2.N, _)

theorem flushed2_eq (c : Dev nD) (t : Fin cfg2.N) :
    (dat2 (F := Ideal) V c).flushed 4 t
      = ((cfg2.win 4).blk t).view.read (Elt Ideal) (rowG 6 (xarr2 V c) (wtarr2 V c) (wcarr2 V c) (barr2 V c)) := by
  show (cfg2.win 4).cut (grid2.coords t) ((dat2 (F := Ideal) V c).after 4 t) = _
  rw [after2_4]
  obtain ⟨e00, e01, e40, e41, ez⟩ := idx2 t
  funext y
  show out2_4 _ _ _ _ y = rowG 6 _ _ _ _ (((cfg2.win 4).blk t).view.emb y)
  refine (out2_4_idx _ _ _ _ y).trans (rowG_congr 6 (fun q => ?_) (fun a d => ?_) (fun a d => ?_) (fun d => ?_) ?_)
  · refine congrArg (V c main_v74) (Shape.idx_ext₂ ?_ ?_)
    · show win2_0.index t (0 : Fin 2) * 1000 + 1 * (y 0).val = win2_4.index t (0 : Fin 2) * 1000 + 1 * (y 0).val
      rw [e00]
    · show win2_0.index t (1 : Fin 2) * 768 + 1 * q.val = q.val
      omega
  · exact congrArg _ (funext fun ax => Fin.ext (Pipeline.Window.rect_emb_val_of_index_zero win2_1 t ax (ez ax).1 _))
  · exact congrArg _ (funext fun ax => Fin.ext (Pipeline.Window.rect_emb_val_of_index_zero win2_2 t ax (ez ax).2.1 _))
  · exact congrArg _ (funext fun ax => Fin.ext (Pipeline.Window.rect_emb_val_of_index_zero win2_3 t ax (ez ax).2.2 _))
  · show (y 1).val = win2_4.index t (1 : Fin 2) * 768 + 1 * (y 1).val
    omega

theorem cover2 (i : S15000x768.Idx) :
    ∃ t : Fin cfg2.N, (cfg2.win 4).flush t = true ∧ i ∈ ((cfg2.win 4).blk t).view.set := by
  have h0 : (i 0).val < 15000 := idx2_lt0 i
  have h1 : (i 1).val < 768 := idx2_lt1 i
  have ht : (i 0).val / 1000 < cfg2.N := by show (i 0).val / 1000 < 15; omega
  have e0 : win2_4.index ⟨_, ht⟩ (0 : Fin 2) = (i 0).val / 1000 := (idx2 _).2.2.1
  have e1 : win2_4.index ⟨_, ht⟩ (1 : Fin 2) = 0 := (idx2 _).2.2.2.1
  refine ⟨⟨_, ht⟩, flush2_4 _, ?_⟩
  show i ∈ ((View.whole main_v75).slice (win2_4.rect ⟨_, ht⟩)).set
  rw [View.set_slice_whole, Rect.mem_set_unit]
  intro a
  match a with
  | ⟨0, _⟩ =>
    show win2_4.index _ (0 : Fin 2) * 1000 ≤ (i 0).val ∧ (i 0).val < win2_4.index _ (0 : Fin 2) * 1000 + 1000
    omega
  | ⟨1, _⟩ =>
    show win2_4.index _ (1 : Fin 2) * 768 ≤ (i 1).val ∧ (i 1).val < win2_4.index _ (1 : Fin 2) * 768 + 768
    omega

theorem final2 (c : Dev nD) (r : Fin 15000) (j : Fin 6) (d : Fin 128) :
    ((dat2 (F := Ideal) V c).arrAt 4 cfg2.N : Vec Ideal S15000x768 .f32) (ix2 r ⟨128 * j.val + d.val, by omega⟩)
      = Cert.Layer.blockRow (fun (j : Fin 6) (a : Fin 128) => xarr2 V c (ix2 r ⟨128 * j.val + a.val, by omega⟩)) (fun a d => wtarr2 V c (ix2 a d))
          (fun a d => wcarr2 V c (ix2 a d)) (fun d => barr2 V c (ix2 (0 : Fin 1) d)) j d :=
  (congrFun ((dat2 (F := Ideal) V c).arrAt_eq_of_cover 4 (rowG 6 (xarr2 V c) (wtarr2 V c) (wcarr2 V c) (barr2 V c))
    (fun t _ => flushed2_eq V c t) cover2) _).trans (rowG_at 6 _ _ _ _ r j d _ rfl)

end Array

end Cert.KernelIdeal.Gen

end
-- ==== Proof.TagP6b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg2Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_p6 (h : Cert.Pre_KernelIdeal m) (c : Dev nD) :
    (V13 m (OUTS m) c main_v76 : FVec Ideal S15000x6x128 .f32)
      = Cert.ReferenceIdeal.RefValue.layer_p6 (F := Ideal)
          (Cert.ReferenceIdeal.RefValue.gath_p6 (F := Ideal)
            (Cert.ReferenceIdeal.Pool.poolC (F := Ideal) (m ((c : Thread nD τ).loc main_arg0)) (m ((c : Thread nD τ).loc main_arg1)) (m ((c : Thread nD τ).loc main_arg24)) (m ((c : Thread nD τ).loc main_arg25))) (m ((c : Thread nD τ).loc main_arg28)))
          (m ((c : Thread nD τ).loc main_arg18)) (m ((c : Thread nD τ).loc main_arg19)) (m ((c : Thread nD τ).loc main_arg20)) := by
  refine ext3 fun r j d => ?_
  rw [Cert.ReferenceIdeal.RefValue.layer_p6, Cert.ReferenceIdeal.RefValue.layer_apply]
  refine Eq.trans ?_ (ker_eq_ref _ _ _ _ (fun _ _ => Cert.Pool.poolC_fin _ _ _ _ (fin_arg0 m h c) (fin_arg1 m h c) _)
    (fun _ _ => fin_arg18 m h c _) (fun _ _ => fin_arg19 m h c _) _ _)
  rw [(V13_v76 m (OUTS m) c).trans (h3_v76 (V6 m (OUTS m) c)), V6_v75, outs_6, res_p6_apply, final2, kerRow_eq_blockRow]
  refine blockRow_congr (fun j a => ?_) (fun a d => ?_) (fun a d => ?_) (fun d => ?_) rfl rfl
  · refine (congrFun (h2_v74 (V4 m (OUTS m) c)) _).trans ?_
    rw [(V4_v13 m (OUTS m) c).trans (h0_v13 (V0 m c)), V4_arg28, rows_p6_apply, Cert.Pool.poolC_eq]
    rfl
  · refine (congrFun (h2_v64 (V4 m (OUTS m) c)) _).trans ?_
    rw [V4_arg18, wTop_apply]
  · refine (congrFun (h2_v72 (V4 m (OUTS m) c)) _).trans ?_
    rw [V4_arg18, V4_arg19, wComb6_apply]
  · refine (congrFun (h2_v73 (V4 m (OUTS m) c)) _).trans ?_
    rw [V4_arg20, biasRow_apply]

end Cert.Bridge
-- ==== Proof.Reg3Val.lean ====
import proofs.«413924_j50869592655534_3_alg».proof.Proof.Reg0Val
import proofs.«413924_j50869592655534_3_alg».proof.Proof.Reg3

noncomputable section

namespace Cert.KernelIdeal.Gen

open Idealize.ShloMosaic Idealize.ShloMosaic.TcCoe Idealize.ShloMosaic.ValueIdx

theorem out3_4_idx (x0 : Vec Ideal S1000x896 .f32) (x1 x2 : Vec Ideal S128x128 .bf16) (x3 : Vec Ideal S1x128 .f32)
    (y : S1000x896.Idx) : out3_4 x0 x1 x2 x3 y = rowG 7 x0 x1 x2 x3 y := by
  rw [eq_ix2 y]
  unfold out3_4
  simp only [View.ld_unit_zero (S := S128x128) hz0, View.ld_unit_zero (S := S1x128) hz0]
  refine slab_row 7 x0 x1 x2 x3 _ ?hT 6 (slab_row 7 x0 x1 x2 x3 _ ?hT 5 (slab_row 7 x0 x1 x2 x3 _ ?hT 4
    (slab_row 7 x0 x1 x2 x3 _ ?hT 3 (slab_row 7 x0 x1 x2 x3 _ ?hT 2 (slab_row 7 x0 x1 x2 x3 _ ?hT 1
      (slab_row 7 x0 x1 x2 x3 _ ?hT 0 fun _ h => (Nat.not_lt_zero _ h).elim)))))) _ (idx2_lt1 y)
  intro c
  rw [Cert.Layer.sum7]
  iterate 6 refine congrArg₂ (· + ·) ?_ (ldS_at _ _ x0 _ _ c _ rfl)
  exact ldS_at _ _ x0 _ _ c _ rfl

section Array

variable (V : (c : Dev nD) → (b : Ref sig .tc) → Buf (Elt Ideal) ((c : Thread nD τ).loc b))

abbrev xarr3 (c : Dev nD) : Vec Ideal S15000x896 .f32 := V c main_v95
abbrev wtarr3 (c : Dev nD) : Vec Ideal S128x128 .bf16 := V c main_v85
abbrev wcarr3 (c : Dev nD) : Vec Ideal S128x128 .bf16 := V c main_v93
abbrev barr3 (c : Dev nD) : Vec Ideal S1x128 .f32 := V c main_v94

theorem idx3 : ∀ t : Fin cfg3.N, win3_0.index t (0 : Fin 2) = win3_4.index t (0 : Fin 2)
    ∧ win3_0.index t (1 : Fin 2) = 0 ∧ win3_4.index t (0 : Fin 2) = t.val ∧ win3_4.index t (1 : Fin 2) = 0
    ∧ ∀ a : Fin 2, win3_1.index t a = 0 ∧ win3_2.index t a = 0 ∧ win3_3.index t a = 0 :=
  (by decide +kernel : ∀ t : Fin grid3.N, _)

theorem flushed3_eq (c : Dev nD) (t : Fin cfg3.N) :
    (dat3 (F := Ideal) V c).flushed 4 t
      = ((cfg3.win 4).blk t).view.read (Elt Ideal) (rowG 7 (xarr3 V c) (wtarr3 V c) (wcarr3 V c) (barr3 V c)) := by
  show (cfg3.win 4).cut (grid3.coords t) ((dat3 (F := Ideal) V c).after 4 t) = _
  rw [after3_4]
  obtain ⟨e00, e01, e40, e41, ez⟩ := idx3 t
  funext y
  show out3_4 _ _ _ _ y = rowG 7 _ _ _ _ (((cfg3.win 4).blk t).view.emb y)
  refine (out3_4_idx _ _ _ _ y).trans (rowG_congr 7 (fun q => ?_) (fun a d => ?_) (fun a d => ?_) (fun d => ?_) ?_)
  · refine congrArg (V c main_v95) (Shape.idx_ext₂ ?_ ?_)
    · show win3_0.index t (0 : Fin 2) * 1000 + 1 * (y 0).val = win3_4.index t (0 : Fin 2) * 1000 + 1 * (y 0).val
      rw [e00]
    · show win3_0.index t (1 : Fin 2) * 896 + 1 * q.val = q.val
      omega
  · exact congrArg _ (funext fun ax => Fin.ext (Pipeline.Window.rect_emb_val_of_index_zero win3_1 t ax (ez ax).1 _))
  · exact congrArg _ (funext fun ax => Fin.ext (Pipeline.Window.rect_emb_val_of_index_zero win3_2 t ax (ez ax).2.1 _))
  · exact congrArg _ (funext fun ax => Fin.ext (Pipeline.Window.rect_emb_val_of_index_zero win3_3 t ax (ez ax).2.2 _))
  · show (y 1).val = win3_4.index t (1 : Fin 2) * 896 + 1 * (y 1).val
    omega

theorem cover3 (i : S15000x896.Idx) :
    ∃ t : Fin cfg3.N, (cfg3.win 4).flush t = true ∧ i ∈ ((cfg3.win 4).blk t).view.set := by
  have h0 : (i 0).val < 15000 := idx2_lt0 i
  have h1 : (i 1).val < 896 := idx2_lt1 i
  have ht : (i 0).val / 1000 < cfg3.N := by show (i 0).val / 1000 < 15; omega
  have e0 : win3_4.index ⟨_, ht⟩ (0 : Fin 2) = (i 0).val / 1000 := (idx3 _).2.2.1
  have e1 : win3_4.index ⟨_, ht⟩ (1 : Fin 2) = 0 := (idx3 _).2.2.2.1
  refine ⟨⟨_, ht⟩, flush3_4 _, ?_⟩
  show i ∈ ((View.whole main_v96).slice (win3_4.rect ⟨_, ht⟩)).set
  rw [View.set_slice_whole, Rect.mem_set_unit]
  intro a
  match a with
  | ⟨0, _⟩ =>
    show win3_4.index _ (0 : Fin 2) * 1000 ≤ (i 0).val ∧ (i 0).val < win3_4.index _ (0 : Fin 2) * 1000 + 1000
    omega
  | ⟨1, _⟩ =>
    show win3_4.index _ (1 : Fin 2) * 896 ≤ (i 1).val ∧ (i 1).val < win3_4.index _ (1 : Fin 2) * 896 + 896
    omega

theorem final3 (c : Dev nD) (r : Fin 15000) (j : Fin 7) (d : Fin 128) :
    ((dat3 (F := Ideal) V c).arrAt 4 cfg3.N : Vec Ideal S15000x896 .f32) (ix2 r ⟨128 * j.val + d.val, by omega⟩)
      = Cert.Layer.blockRow (fun (j : Fin 7) (a : Fin 128) => xarr3 V c (ix2 r ⟨128 * j.val + a.val, by omega⟩)) (fun a d => wtarr3 V c (ix2 a d))
          (fun a d => wcarr3 V c (ix2 a d)) (fun d => barr3 V c (ix2 (0 : Fin 1) d)) j d :=
  (congrFun ((dat3 (F := Ideal) V c).arrAt_eq_of_cover 4 (rowG 7 (xarr3 V c) (wtarr3 V c) (wcarr3 V c) (barr3 V c))
    (fun t _ => flushed3_eq V c t) cover3) _).trans (rowG_at 7 _ _ _ _ r j d _ rfl)

end Array

end Cert.KernelIdeal.Gen

end
-- ==== Proof.TagP7b.lean ====
import proofs.«413924_j50869592655534_3_alg».proof.Proof.RunK
import proofs.«413924_j50869592655534_3_alg».proof.Proof.Carry
import proofs.«413924_j50869592655534_3_alg».proof.Proof.KernelHost
import proofs.«413924_j50869592655534_3_alg».proof.Proof.HostDefs
import proofs.«413924_j50869592655534_3_alg».proof.Proof.Reg3Val
import proofs.«413924_j50869592655534_3_alg».proof.Proof.TagP4a
import proofs.«413924_j50869592655534_3_alg».proof.Proof.PreFin

namespace Cert.Bridge

open Idealize.ShloMosaic Idealize.ShloMosaic.TcCoe Idealize.ShloMosaic.ValueIdx Cert.Layer
open Cert.KernelIdeal Cert.KernelIdeal.Gen Cert.KernelIdeal.HostVal Cert.PreFin

variable (m : (ℓ : Loc nD τ sig) → Buf (Elt Ideal) ℓ)

variable [Cert.ReferenceIdeal.Facts] [Cert.Pre_finite_inputs.Facts]

theorem kfull_p7 (h : Cert.Pre_KernelIdeal m) (c : Dev nD) :
    (V13 m (OUTS m) c main_v97 : FVec Ideal S15000x7x128 .f32)
      = Cert.ReferenceIdeal.RefValue.layer_p7 (F := Ideal)
          (Cert.ReferenceIdeal.RefValue.gath_p7 (F := Ideal)
            (Cert.ReferenceIdeal.Pool.poolC (F := Ideal) (m ((c : Thread nD τ).loc main_arg0)) (m ((c : Thread nD τ).loc main_arg1)) (m ((c : Thread nD τ).loc main_arg24)) (m ((c : Thread nD τ).loc main_arg25))) (m ((c : Thread nD τ).loc main_arg29)))
          (m ((c : Thread nD τ).loc main_arg21)) (m ((c : Thread nD τ).loc main_arg22)) (m ((c : Thread nD τ).loc main_arg23)) := by
  refine ext3 fun r j d => ?_
  rw [Cert.ReferenceIdeal.RefValue.layer_p7, Cert.ReferenceIdeal.RefValue.layer_apply]
  refine Eq.trans ?_ (ker_eq_ref _ _ _ _ (fun _ _ => Cert.Pool.poolC_fin _ _ _ _ (fin_arg0 m h c) (fin_arg1 m h c) _)
    (fun _ _ => fin_arg21 m h c _) (fun _ _ => fin_arg22 m h c _) _ _)
  rw [(V13_v97 m (OUTS m) c).trans (h4_v97 (V8 m (OUTS m) c)), V8_v96, outs_8, res_p7_apply, final3, kerRow_eq_blockRow]
  refine blockRow_congr (fun j a => ?_) (fun a d => ?_) (fun a d => ?_) (fun d => ?_) rfl rfl
  · refine (congrFun (h3_v95 (V6 m (OUTS m) c)) _).trans ?_
    rw [(V6_v13 m (OUTS m) c).trans (h0_v13 (V0 m c)), V6_arg29, rows_p7_apply, Cert.Pool.poolC_eq]
    rfl
  · refine (congrFun (h3_v85 (V6 m (OUTS m) c)) _).trans ?_
    rw [V6_arg21, wTop_apply]
  · refine (congrFun (h3_v93 (V6 m (OUTS m) c)) _).trans ?_
    rw [V6_arg21, V6_arg22, wComb7_apply]
  · refine (congrFun (h3_v94 (V6 m (OUTS m) c)) _).trans ?_
    rw [V6_arg23, biasRow_apply]

end Cert.Bridge
-- ==== Proof.lean ====
import proofs.«413924_j50869592655534_3_alg».proof.Defs
import proofs.«413924_j50869592655534_3_alg».proof.Proof.Gen.Kernel
import proofs.«413924_j50869592655534_3_alg».proof.Proof.Gen.KernelIdeal
import proofs.«413924_j50869592655534_3_alg».proof.Proof.Gen.ReferenceIdeal
import proofs.«413924_j50869592655534_3_alg».proof.Proof.Gen.Pre_finite_inputs
import proofs.«413924_j50869592655534_3_alg».proof.Proof.Gen.ReferenceIdeal.Run
import proofs.«413924_j50869592655534_3_alg».proof.Proof.BRunK
import proofs.«413924_j50869592655534_3_alg».proof.Proof.RunK
import proofs.«413924_j50869592655534_3_alg».proof.Proof.RefRead
import proofs.«413924_j50869592655534_3_alg».proof.Proof.TagC5b
import proofs.«413924_j50869592655534_3_alg».proof.Proof.TagC6b
import proofs.«413924_j50869592655534_3_alg».proof.Proof.TagP4b
import proofs.«413924_j50869592655534_3_alg».proof.Proof.TagP5b
import proofs.«413924_j50869592655534_3_alg».proof.Proof.TagP6b
import proofs.«413924_j50869592655534_3_alg».proof.Proof.TagP7b
import Idealize.ShloMosaic.Adequacy
import Idealize.ShloMosaic.Init

noncomputable section

namespace Cert.Proof

open Idealize.ShloMosaic Idealize.ShloMosaic.TcCoe Idealize.SL.Sem
open Cert.KernelIdeal Cert.ReferenceIdeal.RefValue Cert.ReferenceIdeal.Pool

theorem frame_k : Cert.frame_Kernel := fun m ρ _ => Cert.Kernel.Gen.frame m ρ

theorem frame_ki : Cert.frame_KernelIdeal := fun m ρ _ => Gen.frame m ρ

-- The reference is a straight line of host operations: its run with the results dropped.
theorem frame_ri : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

section
variable (m : (ℓ : Loc nD τ sig) → Buf (Elt Ideal) ℓ) (c : Dev nD)

abbrev arg (b : Ref sig .tc) : Buf (Elt Ideal) ((c.tc : Thread nD τ).loc b) := m ((c.tc : Thread nD τ).loc b)

abbrev tblP := poolP (F := Ideal) (arg m c main_arg2) (arg m c main_arg3) (arg m c main_arg4) (arg m c main_arg5)
  (arg m c main_arg26) (arg m c main_arg27) (arg m c main_arg28) (arg m c main_arg29)

abbrev tblC := poolC (F := Ideal) (arg m c main_arg0) (arg m c main_arg1) (arg m c main_arg24) (arg m c main_arg25)
end

-- Each result of the kernel program is the reference's term of the launch contents, and the reference's run ends at
-- the same terms of contents that agree with them.
theorem algebraic : Cert.algebraic_KernelIdeal_ReferenceIdeal := by
  intro m ρ m' ρ' hpre hagree
  refine ⟨fun c => layer_c5 (F := Ideal) (gath_c5 (F := Ideal) (tblP m c) (arg m c main_arg24)) (arg m c main_arg6) (arg m c main_arg7) (arg m c main_arg8),
    fun c => layer_c6 (F := Ideal) (gath_c6 (F := Ideal) (tblP m c) (arg m c main_arg25)) (arg m c main_arg9) (arg m c main_arg10) (arg m c main_arg11),
    fun c => layer_p4 (F := Ideal) (gath_p4 (F := Ideal) (tblC m c) (arg m c main_arg26)) (arg m c main_arg12) (arg m c main_arg13) (arg m c main_arg14),
    fun c => layer_p5 (F := Ideal) (gath_p5 (F := Ideal) (tblC m c) (arg m c main_arg27)) (arg m c main_arg15) (arg m c main_arg16) (arg m c main_arg17),
    fun c => layer_p6 (F := Ideal) (gath_p6 (F := Ideal) (tblC m c) (arg m c main_arg28)) (arg m c main_arg18) (arg m c main_arg19) (arg m c main_arg20),
    fun c => layer_p7 (F := Ideal) (gath_p7 (F := Ideal) (tblC m c) (arg m c main_arg29)) (arg m c main_arg21) (arg m c main_arg22) (arg m c main_arg23),
    ?_, ?_⟩
  · refine (θ_run defs _ _).mono (fun r h c => ⟨?_, ?_, ?_, ?_, ?_, ?_, (h c).2⟩) (Gen.value_run (F := Ideal) m ρ)
    · exact ((h c).1 _ (Gen.mem_uc main_v136 (by decide))).trans (Cert.Bridge.kfull_c5 m hpre c)
    · exact ((h c).1 _ (Gen.mem_uc main_v157 (by decide))).trans (Cert.Bridge.kfull_c6 m hpre c)
    · exact ((h c).1 _ (Gen.mem_uc main_v34 (by decide))).trans (Cert.Bridge.kfull_p4 m hpre c)
    · exact ((h c).1 _ (Gen.mem_uc main_v55 (by decide))).trans (Cert.Bridge.kfull_p5 m hpre c)
    · exact ((h c).1 _ (Gen.mem_uc main_v76 (by decide))).trans (Cert.Bridge.kfull_p6 m hpre c)
    · exact ((h c).1 _ (Gen.mem_uc main_v97 (by decide))).trans (Cert.Bridge.kfull_p7 m hpre c)
  · refine (θ_run Cert.ReferenceIdeal.defs _ _).mono (fun r h c => ?_) (run_layers (F := Ideal) m' ρ')
    obtain ⟨e0, e1, e2, e3, e4, e5, e6, e7, e8, e9, e10, e11, e12, e13, e14, e15, e16, e17, e18, e19, e20, e21, e22, e23, e24, e25, e26, e27, e28, e29⟩ := hagree c
    obtain ⟨r0, r1, r2, r3, r4, r5, hargs⟩ := h c
    refine ⟨r0.trans ?_, r1.trans ?_, r2.trans ?_, r3.trans ?_, r4.trans ?_, r5.trans ?_, hargs⟩
    · rw [e2, e3, e4, e5, e26, e27, e28, e29, e24, e6, e7, e8]
    · rw [e2, e3, e4, e5, e26, e27, e28, e29, e25, e9, e10, e11]
    · rw [e0, e1, e24, e25, e26, e12, e13, e14]
    · rw [e0, e1, e24, e25, e27, e15, e16, e17]
    · rw [e0, e1, e24, e25, e28, e18, e19, e20]
    · rw [e0, e1, e24, e25, e29, e21, e22, e23]

theorem claim : Cert.Claim := ⟨Cert.Kernel.Gen.facts, Gen.facts, Cert.ReferenceIdeal.Gen.facts, Cert.Pre_finite_inputs.Gen.facts,
  frame_k, frame_ki, frame_ri, preserves, algebraic⟩

end Cert.Proof

end
